-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x64 : Shape := ⟨3, ![256, 128, 64]⟩
abbrev S256x256x32 : Shape := ⟨3, ![256, 256, 32]⟩
abbrev S256x128x16 : Shape := ⟨3, ![256, 128, 16]⟩
abbrev S256x64 : Shape := ⟨2, ![256, 64]⟩
abbrev S256 : Shape := ⟨1, ![256]⟩
abbrev S256x96 : Shape := ⟨2, ![256, 96]⟩
abbrev S_ : Shape := ⟨0, ![]⟩

class Facts : Prop where
  bcast_S_S256x128x64 : S_.BroadcastsInDim S256x128x64 (![] : Fin 0 → Fin S256x128x64.rank)
  reducesTo_S256x128x64_S_d0_1_2 : S256x128x64.ReducesTo [0, 1, 2] S_
  h_S_ : 0 < S_.numel
  bcast_S_S256x256x32 : S_.BroadcastsInDim S256x256x32 (![] : Fin 0 → Fin S256x256x32.rank)
  reducesTo_S256x256x32_S_d0_1_2 : S256x256x32.ReducesTo [0, 1, 2] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x96 : S_.BroadcastsInDim S256x96 (![] : Fin 0 → Fin S256x96.rank)
  reducesTo_S256x96_S_d0_1 : S256x96.ReducesTo [0, 1] S_
  bcast_S_S256x128x16 : S_.BroadcastsInDim S256x128x16 (![] : Fin 0 → Fin S256x128x16.rank)
  reducesTo_S256x128x16_S_d0_1_2 : S256x128x16.ReducesTo [0, 1, 2] S_

variable [Facts]

def fn_part3 {F : FTy → Type} [FloatOps F] (main_arg2 : IVec S256x128x16 32) (main_arg3 : IVec S256x128x16 32) (main_v48 : IVec S_ 1) (main_v50 : IVec S256x128x16 1) : IVec S_ 1 :=
  let main_c_19 : IVec S_ 32 := constantI S_ 32 128#32
  let main_v51 : IVec S256x128x16 32 := broadcastInDim S256x128x16 ![] bcast_S_S256x128x16 main_c_19
  let main_v52 : IVec S256x128x16 1 := cmpi .slt main_arg2 main_v51
  let main_v53 : IVec S256x128x16 1 := andi main_v50 main_v52
  let main_c_20 : IVec S_ 1 := constantI S_ 1 1#1
  let main_v54 : IVec S_ 1 := (fun x v => Host.reduce IntOp.andi x v reducesTo_S256x128x16_S_d0_1_2 h_S_) main_v53 main_c_20
  let main_v55 : IVec S_ 1 := andi main_v48 main_v54
  let main_c_21 : IVec S_ 32 := constantI S_ 32 0#32
  let main_v56 : IVec S256x128x16 32 := broadcastInDim S256x128x16 ![] bcast_S_S256x128x16 main_c_21
  let main_v57 : IVec S256x128x16 1 := cmpi .sge main_arg3 main_v56
  let main_c_22 : IVec S_ 32 := constantI S_ 32 256#32
  let main_v58 : IVec S256x128x16 32 := broadcastInDim S256x128x16 ![] bcast_S_S256x128x16 main_c_22
  let main_v59 : IVec S256x128x16 1 := cmpi .slt main_arg3 main_v58
  let main_v60 : IVec S256x128x16 1 := andi main_v57 main_v59
  let main_c_23 : IVec S_ 1 := constantI S_ 1 1#1
  let main_v61 : IVec S_ 1 := (fun x v => Host.reduce IntOp.andi x v reducesTo_S256x128x16_S_d0_1_2 h_S_) main_v60 main_c_23
  let main_v62 : IVec S_ 1 := andi main_v55 main_v61
  main_v62

def fn_part2 {F : FTy → Type} [FloatOps F] (main_arg2 : IVec S256x128x16 32) (main_arg3 : IVec S256x128x16 32) (main_arg9 : FVec F S256 .f32) (main_arg10 : FVec F S256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S256x128x16 32 := broadcastInDim S256x128x16 ![] bcast_S_S256x128x16 main_c_18
  let main_v50 : IVec S256x128x16 1 := cmpi .sge main_arg2 main_v49
  fn_part3 (F := F) main_arg2 main_arg3 main_v48 main_v50

def fn_part1 {F : FTy → Type} [FloatOps F] (main_arg2 : IVec S256x128x16 32) (main_arg3 : IVec S256x128x16 32) (main_arg6 : FVec F S256 .f32) (main_arg7 : FVec F S256 .f32) (main_arg8 : FVec F S256x96 .f32) (main_arg9 : FVec F S256 .f32) (main_arg10 : FVec F S256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x96 .f32 := Host.absf main_arg8
  let main_cst_10 : FVec F S_ .f32 := constant S_ .f32 0x7F800000#32
  let main_v30 : FVec F S256x96 .f32 := broadcastInDim S256x96 ![] bcast_S_S256x96 main_cst_10
  let main_v31 : IVec S256x96 1 := cmpf .olt main_v29 main_v30
  let main_c_11 : IVec S_ 1 := constantI S_ 1 1#1
  let main_v32 : IVec S_ 1 := (fun x v => Host.reduce IntOp.andi x v reducesTo_S256x96_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S256x128x64 .f32) (main_arg1 : FVec F S256x256x32 .f32) (main_arg2 : IVec S256x128x16 32) (main_arg3 : IVec S256x128x16 32) (main_arg4 : FVec F S256x64 .f32) (main_arg5 : FVec F S256 .f32) (main_arg6 : FVec F S256 .f32) (main_arg7 : FVec F S256 .f32) (main_arg8 : FVec F S256x96 .f32) (main_arg9 : FVec F S256 .f32) (main_arg10 : FVec F S256 .f32) (main_arg11 : FVec F S256 .f32) : IVec S_ 1 :=
  let main_v0 : FVec F S256x128x64 .f32 := Host.absf main_arg0
  let main_cst : FVec F S_ .f32 := constant S_ .f32 0x7F800000#32
  let main_v1 : FVec F S256x128x64 .f32 := broadcastInDim S256x128x64 ![] bcast_S_S256x128x64 main_cst
  let main_v2 : IVec S256x128x64 1 := cmpf .olt main_v0 main_v1
  let main_c : IVec S_ 1 := constantI S_ 1 1#1
  let main_v3 : IVec S_ 1 := (fun x v => Host.reduce IntOp.andi x v reducesTo_S256x128x64_S_d0_1_2 h_S_) main_v2 main_c
  let main_v4 : FVec F S256x256x32 .f32 := Host.absf main_arg1
  let main_cst_0 : FVec F S_ .f32 := constant S_ .f32 0x7F800000#32
  let main_v5 : FVec F S256x256x32 .f32 := broadcastInDim S256x256x32 ![] bcast_S_S256x256x32 main_cst_0
  let main_v6 : IVec S256x256x32 1 := cmpf .olt main_v4 main_v5
  let main_c_1 : IVec S_ 1 := constantI S_ 1 1#1
  let main_v7 : IVec S_ 1 := (fun x v => Host.reduce IntOp.andi x v reducesTo_S256x256x32_S_d0_1_2 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_arg8 main_arg9 main_arg10 main_arg11 main_v13 main_v16
-- ==== Kernel.lean ====
abbrev S256x128x64 : Shape := ⟨3, ![256, 128, 64]⟩
abbrev S256x256x32 : Shape := ⟨3, ![256, 256, 32]⟩
abbrev S256x128x16 : Shape := ⟨3, ![256, 128, 16]⟩
abbrev S256x64 : Shape := ⟨2, ![256, 64]⟩
abbrev S256 : Shape := ⟨1, ![256]⟩
abbrev S256x96 : Shape := ⟨2, ![256, 96]⟩
abbrev S32768x64 : Shape := ⟨2, ![32768, 64]⟩
abbrev S64x256 : Shape := ⟨2, ![64, 256]⟩
abbrev S1x256 : Shape := ⟨2, ![1, 256]⟩
abbrev S4096x64 : Shape := ⟨2, ![4096, 64]⟩
abbrev S4096x256 : Shape := ⟨2, ![4096, 256]⟩
abbrev S_ : Shape := ⟨0, ![]⟩
abbrev S32768x256 : Shape := ⟨2, ![32768, 256]⟩
abbrev S256x128x256 : Shape := ⟨3, ![256, 128, 256]⟩
abbrev S256x2048 : Shape := ⟨2, ![256, 2048]⟩
abbrev S256x2048x1 : Shape := ⟨3, ![256, 2048, 1]⟩
abbrev S256x2048x2 : Shape := ⟨3, ![256, 2048, 2]⟩
abbrev S256x32 : Shape := ⟨2, ![256, 32]⟩
abbrev S32x256 : Shape := ⟨2, ![32, 256]⟩
abbrev S2x1x256 : Shape := ⟨3, ![2, 1, 256]⟩
abbrev S1x128x64 : Shape := ⟨3, ![1, 128, 64]⟩
abbrev S1x256x32 : Shape := ⟨3, ![1, 256, 32]⟩
abbrev S1x2048x2 : Shape := ⟨3, ![1, 2048, 2]⟩
abbrev S1x1x256 : Shape := ⟨3, ![1, 1, 256]⟩
abbrev S128x64 : Shape := ⟨2, ![128, 64]⟩
abbrev S128x256 : Shape := ⟨2, ![128, 256]⟩
abbrev S256x256 : Shape := ⟨2, ![256, 256]⟩
abbrev S2048x2 : Shape := ⟨2, ![2048, 2]⟩
abbrev S2048x1 : Shape := ⟨2, ![2048, 1]⟩
abbrev S2048x128 : Shape := ⟨2, ![2048, 128]⟩
abbrev S2048x256 : Shape := ⟨2, ![2048, 256]⟩
abbrev S256x2048x256 : Shape := ⟨3, ![256, 2048, 256]⟩
abbrev S1x2048x256 : Shape := ⟨3, ![1, 2048, 256]⟩
abbrev S256x128x16x256 : Shape := ⟨4, ![256, 128, 16, 256]⟩

abbrev nBuf : Space → Nat
  | .hbm => 74
  | .vmem => 44
  | .smem => 0
  | _ => 0

abbrev bufTy : (tb : Table) → Fin (tcTables nBuf tb) → BufTy
  | .hbm, ⟨0, _⟩ => ⟨S256x128x64, .f32⟩
  | .hbm, ⟨1, _⟩ => ⟨S256x256x32, .f32⟩
  | .hbm, ⟨2, _⟩ => ⟨S256x128x16, .i32⟩
  | .hbm, ⟨3, _⟩ => ⟨S256x128x16, .i32⟩
  | .hbm, ⟨4, _⟩ => ⟨S256x64, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x96, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S32768x64, .f32⟩
  | .hbm, ⟨13, _⟩ => ⟨S64x256, .f32⟩
  | .hbm, ⟨14, _⟩ => ⟨S64x256, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S_, .f32⟩
  | .hbm, ⟨19, _⟩ => ⟨S1x256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S32768x256, .f32⟩
  | .hbm, ⟨36, _⟩ => ⟨S256x128x256, .f32⟩
  | .hbm, ⟨37, _⟩ => ⟨S256x2048, .i32⟩
  | .hbm, ⟨38, _⟩ => ⟨S256x2048, .i32⟩
  | .hbm, ⟨39, _⟩ => ⟨S256x2048x1, .i32⟩
  | .hbm, ⟨40, _⟩ => ⟨S256x2048x1, .i32⟩
  | .hbm, ⟨41, _⟩ => ⟨S256x2048x2, .i32⟩
  | .hbm, ⟨42, _⟩ => ⟨S256x64, .f32⟩
  | .hbm, ⟨43, _⟩ => ⟨S64x256, .f32⟩
  | .hbm, ⟨44, _⟩ => ⟨S64x256, .bf16⟩
  | .hbm, ⟨45, _⟩ => ⟨S256x32, .f32⟩
  | .hbm, ⟨46, _⟩ => ⟨S32x256, .f32⟩
  | .hbm, ⟨47, _⟩ => ⟨S32x256, .bf16⟩
  | .hbm, ⟨48, _⟩ => ⟨S1x256, .f32⟩
  | .hbm, ⟨49, _⟩ => ⟨S2x1x256, .f32⟩
  | .hbm, ⟨50, _⟩ => ⟨S2x1x256, .f32⟩
  | .hbm, ⟨51, _⟩ => ⟨S_, .f32⟩
  | .hbm, ⟨52, _⟩ => ⟨S1x256, .f32⟩
  | .hbm, ⟨53, _⟩ => ⟨S_, .f32⟩
  | .hbm, ⟨54, _⟩ => ⟨S1x256, .f32⟩
  | .hbm, ⟨55, _⟩ => ⟨S_, .f32⟩
  | .hbm, ⟨56, _⟩ => ⟨S1x256, .f32⟩
  | .hbm, ⟨57, _⟩ => ⟨S1x256, .f32⟩
  | .hbm, ⟨58, _⟩ => ⟨S_, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S_, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S256x2048x256, .f32⟩
  | .hbm, ⟨73, _⟩ => ⟨S256x128x16x256, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S4096x64, .f32⟩
  | .local _ .vmem, ⟨9, _⟩ => ⟨S4096x64, .f32⟩
  | .local _ .vmem, ⟨10, _⟩ => ⟨S64x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S4096x256, .f32⟩
  | .local _ .vmem, ⟨15, _⟩ => ⟨S4096x256, .f32⟩
  | .local _ .vmem, ⟨16, _⟩ => ⟨S1x128x64, .f32⟩
  | .local _ .vmem, ⟨17, _⟩ => ⟨S1x128x64, .f32⟩
  | .local _ .vmem, ⟨18, _⟩ => ⟨S1x256x32, .f32⟩
  | .local _ .vmem, ⟨19, _⟩ => ⟨S1x256x32, .f32⟩
  | .local _ .vmem, ⟨20, _⟩ => ⟨S1x2048x2, .i32⟩
  | .local _ .vmem, ⟨21, _⟩ => ⟨S1x2048x2, .i32⟩
  | .local _ .vmem, ⟨22, _⟩ => ⟨S64x256, .bf16⟩
  | .local _ .vmem, ⟨23, _⟩ => ⟨S32x256, .bf16⟩
  | .local _ .vmem, ⟨24, _⟩ => ⟨S1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x256, .f32⟩
  | .local _ .vmem, ⟨30, _⟩ => ⟨S1x256, .f32⟩
  | .local _ .vmem, ⟨31, _⟩ => ⟨S1x128x64, .f32⟩
  | .local _ .vmem, ⟨32, _⟩ => ⟨S1x128x64, .f32⟩
  | .local _ .vmem, ⟨33, _⟩ => ⟨S1x256x32, .f32⟩
  | .local _ .vmem, ⟨34, _⟩ => ⟨S1x256x32, .f32⟩
  | .local _ .vmem, ⟨35, _⟩ => ⟨S1x2048x2, .i32⟩
  | .local _ .vmem, ⟨36, _⟩ => ⟨S1x2048x2, .i32⟩
  | .local _ .vmem, ⟨37, _⟩ => ⟨S64x256, .bf16⟩
  | .local _ .vmem, ⟨38, _⟩ => ⟨S32x256, .bf16⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x2048x256, .f32⟩
  | .local _ .vmem, ⟨43, _⟩ => ⟨S1x2048x256, .f32⟩
  | _, _ => ⟨S256x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_cst_2 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 128], ![false, false]⟩

def k2_cond2 (i : grid2.Coords) : BitVec 1 :=
  let arg1 : BitVec 32 := BitVec.ofNat 32 (i 1).val
  let c127_i32 : BitVec 32 := 127#32
  let v55 : BitVec 1 := Scalar.cmpi .eq arg1 c127_i32
  let v56 : BitVec 32 := Scalar.extui v55
  let c0_i32_28 : BitVec 32 := 0#32
  let v57 : BitVec 1 := Scalar.cmpi .ne v56 c0_i32_28
  v57

def cc2_transform_0 (i : grid2.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x2 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S64x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S32x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![256], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048x2 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x2048x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  shapeCasts_S256x128x64_S32768x64 : S256x128x64.ShapeCasts S32768x64
  transposes_S256x64_S64x256_1_0 : S256x64.Transposes [1, 0] S64x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S1x256_S4096x256 : S1x256.Broadcasts S4096x256
  reduces_S4096x256_S256 : S4096x256.Reduces [0] S256
  bcast_S_S1x256 : S_.BroadcastsInDim S1x256 (![] : Fin 0 → Fin S1x256.rank)
  inb_S4096x256_S4096x256_0_0 : ∀ a, (![0, 0] : Fin 2 → Nat) a + S4096x256.size a ≤ S4096x256.size a
  h_S4096x256 : 0 < S4096x256.numel
  shapeCasts_S32768x256_S256x128x256 : S32768x256.ShapeCasts S256x128x256
  shapeCasts_S256x128x16_S256x2048 : S256x128x16.ShapeCasts S256x2048
  bcast_S256x2048_S256x2048x1_0_1 : S256x2048.BroadcastsInDim S256x2048x1 (![0, 1] : Fin 2 → Fin S256x2048x1.rank)
  concatenates_S256x2048x1_S256x2048x1_S256x2048x2_d2 : Shape.Concatenates [S256x2048x1, S256x2048x1] S256x2048x2 2
  slices_S256x96_S256x64_0_0 : S256x96.Slices ![0, 0] S256x64
  slices_S256x96_S256x32_0_64 : S256x96.Slices ![0, 64] S256x32
  transposes_S256x32_S32x256_1_0 : S256x32.Transposes [1, 0] S32x256
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  broadcasts_S1x256_S128x256 : S1x256.Broadcasts S128x256
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  slices_S2048x2_o0_0_S2048x1 : S2048x2.Slices ![0, 0] S2048x1
  slices_S2048x2_o0_1_S2048x1 : S2048x2.Slices ![0, 1] S2048x1
  iota_S2048x128_d1_w32 : S2048x128.Iotas .tc 32 [1]
  broadcasts_S2048x1_S2048x128 : S2048x1.Broadcasts S2048x128
  natLt_1_32 : 1 < 32
  iota_S2048x256_d1_w32 : S2048x256.Iotas .tc 32 [1]
  broadcasts_S2048x1_S2048x256 : S2048x1.Broadcasts S2048x256
  reduces_S2048x256_S256 : S2048x256.Reduces [0] S256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S2x1x256_S1x256_d0 : S2x1x256.ReducesTo [0] S1x256
  h_S_ : 0 < S_.numel
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  shapeCasts_S256x2048x256_S256x128x16x256 : S256x2048x256.ShapeCasts S256x128x16x256
  dot_S4096x64_S64x256_S4096x256_1_0_0_1_n_n_wf : DotDims.WF S4096x64 S64x256 S4096x256 [1] [0] [0] [1] [] []
  dot_S128x64_S64x256_S128x256_1_0_0_1_n_n_wf : DotDims.WF S128x64 S64x256 S128x256 [1] [0] [0] [1] [] []
  dot_S256x32_S32x256_S256x256_1_0_0_1_n_n_wf : DotDims.WF S256x32 S32x256 S256x256 [1] [0] [0] [1] [] []
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S32768x64.size a
  hwx0_0 : ∀ i : grid0.Coords, EltTy.bits .f32 = 32 ∨ (Rect.block (s := S32768x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S32768x64.size a
  hwx1_0 : ∀ i : grid1.Coords, EltTy.bits .f32 = 32 ∨ (Rect.block (s := S32768x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .bf16 = 32 ∨ (Rect.block (s := S64x256) S64x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S32768x256.size a
  hwx1_5 : ∀ i : grid1.Coords, EltTy.bits .f32 = 32 ∨ (Rect.block (s := S32768x256) S4096x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x64.size a ≤ S256x128x64.size a
  hwx2_0 : ∀ i : grid2.Coords, EltTy.bits .f32 = 32 ∨ (Rect.block (s := S256x128x64) S1x128x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x32.size a ≤ S256x256x32.size a
  hwx2_1 : ∀ i : grid2.Coords, EltTy.bits .f32 = 32 ∨ (Rect.block (s := S256x256x32) S1x256x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x2.size a ≤ S256x2048x2.size a
  hwx2_2 : ∀ i : grid2.Coords, EltTy.bits .i32 = 32 ∨ (Rect.block (s := S256x2048x2) S1x2048x2.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .bf16 = 32 ∨ (Rect.block (s := S64x256) S64x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x256.size a ≤ S32x256.size a
  hwx2_4 : ∀ i : grid2.Coords, EltTy.bits .bf16 = 32 ∨ (Rect.block (s := S32x256) S32x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x256.size a ≤ S2x1x256.size a
  hwx2_6 : ∀ i : grid2.Coords, EltTy.bits .f32 = 32 ∨ (Rect.block (s := S2x1x256) S1x1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x256.size a ≤ S2x1x256.size a
  hwx2_7 : ∀ i : grid2.Coords, EltTy.bits .f32 = 32 ∨ (Rect.block (s := S2x1x256) S1x1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x64.size a ≤ S256x128x64.size a
  hwx3_0 : ∀ i : grid3.Coords, EltTy.bits .f32 = 32 ∨ (Rect.block (s := S256x128x64) S1x128x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x32.size a ≤ S256x256x32.size a
  hwx3_1 : ∀ i : grid3.Coords, EltTy.bits .f32 = 32 ∨ (Rect.block (s := S256x256x32) S1x256x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x2.size a ≤ S256x2048x2.size a
  hwx3_2 : ∀ i : grid3.Coords, EltTy.bits .i32 = 32 ∨ (Rect.block (s := S256x2048x2) S1x2048x2.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x256.size a ≤ S64x256.size a
  hwx3_3 : ∀ i : grid3.Coords, EltTy.bits .bf16 = 32 ∨ (Rect.block (s := S64x256) S64x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x256.size a ≤ S32x256.size a
  hwx3_4 : ∀ i : grid3.Coords, EltTy.bits .bf16 = 32 ∨ (Rect.block (s := S32x256) S32x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x2048x256.size a ≤ S256x2048x256.size a
  hwx3_8 : ∀ i : grid3.Coords, EltTy.bits .f32 = 32 ∨ (Rect.block (s := S256x2048x256) S1x2048x256.size (cc3_transform_8 i) (hinb3_8 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf
def dot_S256x32_S32x256_S256x256_1_0_0_1_n_n : DotDims S256x32 S32x256 S256x256 where
  lhsContracting := [1]
  rhsContracting := [0]
  lhsNonContracting := [0]
  rhsNonContracting := [1]
  lhsBatch := []
  rhsBatch := []
  wf := dot_S256x32_S32x256_S256x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S1x128x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x256x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x2048x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S32x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33_0) S1x1x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v33_1) S1x1x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_arg0) S1x128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1x256x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x2048x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S64x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S32x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v50) S1x2048x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S256x128x64 : Shape := ⟨3, ![256, 128, 64]⟩
abbrev S256x256x32 : Shape := ⟨3, ![256, 256, 32]⟩
abbrev S256x128x16 : Shape := ⟨3, ![256, 128, 16]⟩
abbrev S256x64 : Shape := ⟨2, ![256, 64]⟩
abbrev S256 : Shape := ⟨1, ![256]⟩
abbrev S256x96 : Shape := ⟨2, ![256, 96]⟩
abbrev S256x1x1 : Shape := ⟨3, ![256, 1, 1]⟩
abbrev S_ : Shape := ⟨0, ![]⟩
abbrev S256x128x16x1 : Shape := ⟨4, ![256, 128, 16, 1]⟩
abbrev S256x128x16x2 : Shape := ⟨4, ![256, 128, 16, 2]⟩
abbrev S256x128x16x64 : Shape := ⟨4, ![256, 128, 16, 64]⟩
abbrev S256x128x16x32 : Shape := ⟨4, ![256, 128, 16, 32]⟩
abbrev S256x128x16x96 : Shape := ⟨4, ![256, 128, 16, 96]⟩
abbrev S256x128x16x256 : Shape := ⟨4, ![256, 128, 16, 256]⟩
abbrev S1x1x1x256 : Shape := ⟨4, ![1, 1, 1, 256]⟩
abbrev S524288x256 : Shape := ⟨2, ![524288, 256]⟩
abbrev S1x256 : Shape := ⟨2, ![1, 256]⟩
abbrev S256x128x256 : Shape := ⟨3, ![256, 128, 256]⟩
abbrev S1x1x256 : Shape := ⟨3, ![1, 1, 256]⟩
abbrev S32768x256 : Shape := ⟨2, ![32768, 256]⟩

abbrev nBuf : Space → Nat
  | .hbm => 161
  | .vmem => 0
  | .smem => 0
  | _ => 0

abbrev hbmTy0_0 (i : Nat) : BufTy := match i % 128 with
  | 0 => ⟨S256x128x64, .f32⟩
  | 1 => ⟨S256x256x32, .f32⟩
  | 2 => ⟨S256x128x16, .i32⟩
  | 3 => ⟨S256x128x16, .i32⟩
  | 4 => ⟨S256x64, .f32⟩
  | 5 => ⟨S256, .f32⟩
  | 6 => ⟨S256, .f32⟩
  | 7 => ⟨S256, .f32⟩
  | 8 => ⟨S256x96, .f32⟩
  | 9 => ⟨S256, .f32⟩
  | 10 => ⟨S256, .f32⟩
  | 11 => ⟨S256, .f32⟩
  | 12 => ⟨S256, .i32⟩
  | 13 => ⟨S256x1x1, .i32⟩
  | 14 => ⟨S_, .i32⟩
  | 15 => ⟨S256x1x1, .i32⟩
  | 16 => ⟨S256x1x1, .i1⟩
  | 17 => ⟨S_, .i32⟩
  | 18 => ⟨S256x1x1, .i32⟩
  | 19 => ⟨S256x1x1, .i32⟩
  | 20 => ⟨S256x1x1, .i32⟩
  | 21 => ⟨S_, .i32⟩
  | 22 => ⟨S256x128x16, .i32⟩
  | 23 => ⟨S256x128x16, .i1⟩
  | 24 => ⟨S_, .i32⟩
  | 25 => ⟨S256x128x16, .i32⟩
  | 26 => ⟨S256x128x16, .i32⟩
  | 27 => ⟨S256x128x16, .i32⟩
  | 28 => ⟨S256x128x16, .i32⟩
  | 29 => ⟨S256x128x16x1, .i32⟩
  | 30 => ⟨S256x128x16x1, .i32⟩
  | 31 => ⟨S256x128x16x2, .i32⟩
  | 32 => ⟨S256x128x16x64, .f32⟩
  | 33 => ⟨S_, .i32⟩
  | 34 => ⟨S256x1x1, .i32⟩
  | 35 => ⟨S256x1x1, .i1⟩
  | 36 => ⟨S_, .i32⟩
  | 37 => ⟨S256x1x1, .i32⟩
  | 38 => ⟨S256x1x1, .i32⟩
  | 39 => ⟨S256x1x1, .i32⟩
  | 40 => ⟨S_, .i32⟩
  | 41 => ⟨S256x128x16, .i32⟩
  | 42 => ⟨S256x128x16, .i1⟩
  | 43 => ⟨S_, .i32⟩
  | 44 => ⟨S256x128x16, .i32⟩
  | 45 => ⟨S256x128x16, .i32⟩
  | 46 => ⟨S256x128x16, .i32⟩
  | 47 => ⟨S256x128x16, .i32⟩
  | 48 => ⟨S256x128x16x1, .i32⟩
  | 49 => ⟨S256x128x16x1, .i32⟩
  | 50 => ⟨S256x128x16x2, .i32⟩
  | 51 => ⟨S256x128x16x32, .f32⟩
  | 52 => ⟨S256x128x16x96, .f32⟩
  | 53 => ⟨S256x128x16x256, .f32⟩
  | 54 => ⟨S1x1x1x256, .f32⟩
  | 55 => ⟨S256x128x16x256, .f32⟩
  | 56 => ⟨S256x128x16x256, .f32⟩
  | 57 => ⟨S524288x256, .f32⟩
  | 58 => ⟨S_, .f32⟩
  | 59 => ⟨S256, .f32⟩
  | 60 => ⟨S_, .f32⟩
  | 61 => ⟨S256, .f32⟩
  | 62 => ⟨S256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S524288x256, .f32⟩
  | 71 => ⟨S524288x256, .f32⟩
  | 72 => ⟨S524288x256, .f32⟩
  | 73 => ⟨S_, .f32⟩
  | 74 => ⟨S_, .f32⟩
  | 75 => ⟨S_, .f32⟩
  | 76 => ⟨S_, .f32⟩
  | 77 => ⟨S256, .f32⟩
  | 78 => ⟨S256, .f32⟩
  | 79 => ⟨S256, .f32⟩
  | 80 => ⟨S_, .f32⟩
  | 81 => ⟨S_, .i1⟩
  | 82 => ⟨S_, .f32⟩
  | 83 => ⟨S_, .f32⟩
  | 84 => ⟨S256, .f32⟩
  | 85 => ⟨S256, .f32⟩
  | 86 => ⟨S1x1x1x256, .f32⟩
  | 87 => ⟨S256x128x16x256, .f32⟩
  | 88 => ⟨S256x128x16x256, .f32⟩
  | 89 => ⟨S_, .f32⟩
  | 90 => ⟨S256, .f32⟩
  | 91 => ⟨S256, .f32⟩
  | 92 => ⟨S256, .f32⟩
  | 93 => ⟨S256, .f32⟩
  | 94 => ⟨S1x1x1x256, .f32⟩
  | 95 => ⟨S256x128x16x256, .f32⟩
  | 96 => ⟨S256x128x16x256, .f32⟩
  | 97 => ⟨S1x1x1x256, .f32⟩
  | 98 => ⟨S256x128x16x256, .f32⟩
  | 99 => ⟨S256x128x16x256, .f32⟩
  | 100 => ⟨S_, .f32⟩
  | 101 => ⟨S256x128x16x256, .f32⟩
  | 102 => ⟨S256x128x16x256, .i1⟩
  | 103 => ⟨S_, .f32⟩
  | 104 => ⟨S256x128x16x256, .f32⟩
  | 105 => ⟨S256x128x16x256, .f32⟩
  | 106 => ⟨S256x128x16x256, .f32⟩
  | 107 => ⟨S256x128x256, .f32⟩
  | 108 => ⟨S1x1x256, .f32⟩
  | 109 => ⟨S256x128x256, .f32⟩
  | 110 => ⟨S256x128x256, .f32⟩
  | 111 => ⟨S32768x256, .f32⟩
  | 112 => ⟨S_, .f32⟩
  | 113 => ⟨S256, .f32⟩
  | 114 => ⟨S_, .f32⟩
  | 115 => ⟨S256, .f32⟩
  | 116 => ⟨S256, .f32⟩
  | 117 => ⟨S_, .i32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S32768x256, .f32⟩
  | 125 => ⟨S32768x256, .f32⟩
  | 126 => ⟨S32768x256, .f32⟩
  | 127 => ⟨S_, .f32⟩
  | _ => ⟨S256x128x64, .f32⟩

abbrev hbmTy0_1 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .i1⟩
  | 8 => ⟨S_, .f32⟩
  | 9 => ⟨S_, .f32⟩
  | 10 => ⟨S256, .f32⟩
  | 11 => ⟨S256, .f32⟩
  | 12 => ⟨S1x1x256, .f32⟩
  | 13 => ⟨S256x128x256, .f32⟩
  | 14 => ⟨S256x128x256, .f32⟩
  | 15 => ⟨S_, .f32⟩
  | 16 => ⟨S256, .f32⟩
  | 17 => ⟨S256, .f32⟩
  | 18 => ⟨S256, .f32⟩
  | 19 => ⟨S256, .f32⟩
  | 20 => ⟨S1x1x256, .f32⟩
  | 21 => ⟨S256x128x256, .f32⟩
  | 22 => ⟨S256x128x256, .f32⟩
  | 23 => ⟨S1x1x256, .f32⟩
  | 24 => ⟨S256x128x256, .f32⟩
  | 25 => ⟨S256x128x256, .f32⟩
  | 26 => ⟨S_, .f32⟩
  | 27 => ⟨S256x128x256, .f32⟩
  | 28 => ⟨S256x128x256, .i1⟩
  | 29 => ⟨S_, .f32⟩
  | 30 => ⟨S256x128x256, .f32⟩
  | 31 => ⟨S256x128x256, .f32⟩
  | 32 => ⟨S256x128x256, .f32⟩
  | _ => ⟨S256x128x64, .f32⟩

abbrev hbmTy (i : Nat) : BufTy := match i / 128 with
  | 0 => hbmTy0_0 i
  | 1 => hbmTy0_1 i
  | _ => ⟨S256x128x64, .f32⟩

abbrev bufTy : (tb : Table) → Fin (tcTables nBuf tb) → BufTy
  | .hbm, ⟨i, _⟩ => hbmTy i
  | _, _ => ⟨S256x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_cst_3 : Ref sig .tc := ⟨.hbm, 80, rfl⟩
abbrev main_call0_v12 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_9 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_10 : Ref sig .tc := ⟨.hbm, 100, rfl⟩
abbrev main_v55 : Ref sig .tc := ⟨.hbm, 101, rfl⟩
abbrev main_v56 : Ref sig .tc := ⟨.hbm, 102, rfl⟩
abbrev main_cst_11 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_cst_13 : Ref sig .tc := ⟨.hbm, 114, rfl⟩
abbrev main_v66 : Ref sig .tc := ⟨.hbm, 115, rfl⟩
abbrev main_v67 : Ref sig .tc := ⟨.hbm, 116, rfl⟩
abbrev main_c_14 : Ref sig .tc := ⟨.hbm, 117, rfl⟩
abbrev main_call2_cst : Ref sig .tc := ⟨.hbm, 118, rfl⟩
abbrev main_call2_v0 : Ref sig .tc := ⟨.hbm, 119, rfl⟩
abbrev main_call2_v1 : Ref sig .tc := ⟨.hbm, 120, rfl⟩
abbrev main_call2_cst_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_cst_1 : Ref sig .tc := ⟨.hbm, 128, rfl⟩
abbrev main_call2_v8 : Ref sig .tc := ⟨.hbm, 129, rfl⟩
abbrev main_call2_cst_2 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_cst_3 : Ref sig .tc := ⟨.hbm, 134, rfl⟩
abbrev main_call2_v12 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_15 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_16 : Ref sig .tc := ⟨.hbm, 154, rfl⟩
abbrev main_v82 : Ref sig .tc := ⟨.hbm, 155, rfl⟩
abbrev main_v83 : Ref sig .tc := ⟨.hbm, 156, rfl⟩
abbrev main_cst_17 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩

abbrev nD : Nat := 1
abbrev τ : Topo := Topo.v7x

variable {F : FTy → Type} [FloatOps F]

class Facts₀ : Prop where
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S_S256x128x16 : S_.BroadcastsInDim S256x128x16 (![] : Fin 0 → Fin S256x128x16.rank)
  bcast_S256x1x1_S256x128x16_0_1_2 : S256x1x1.BroadcastsInDim S256x128x16 (![0, 1, 2] : Fin 3 → Fin S256x128x16.rank)
  bcast_S256x128x16_S256x128x16x1_0_1_2 : S256x128x16.BroadcastsInDim S256x128x16x1 (![0, 1, 2] : Fin 3 → Fin S256x128x16x1.rank)
  concatenates_S256x128x16x1_S256x128x16x1_S256x128x16x2_d3 : Shape.Concatenates [S256x128x16x1, S256x128x16x1] S256x128x16x2 3
  concatenates_S256x128x16x64_S256x128x16x32_S256x128x16x96_d3 : Shape.Concatenates [S256x128x16x64, S256x128x16x32] S256x128x16x96 3
  bcast_S256_S1x1x1x256_3 : S256.BroadcastsInDim S1x1x1x256 (![3] : Fin 1 → Fin S1x1x1x256.rank)
  bcast_S1x1x1x256_S256x128x16x256_0_1_2_3 : S1x1x1x256.BroadcastsInDim S256x128x16x256 (![0, 1, 2, 3] : Fin 4 → Fin S256x128x16x256.rank)
  shapeCasts_S256x128x16x256_S524288x256 : S256x128x16x256.ShapeCasts S524288x256
  reducesTo_S524288x256_S256_d0 : S524288x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S524288x256_0_1 : S1x256.BroadcastsInDim S524288x256 (![0, 1] : Fin 2 → Fin S524288x256.rank)
  bcast_S_S256x128x16x256 : S_.BroadcastsInDim S256x128x16x256 (![] : Fin 0 → Fin S256x128x16x256.rank)
  bcast_S256_S1x1x256_2 : S256.BroadcastsInDim S1x1x256 (![2] : Fin 1 → Fin S1x1x256.rank)
  bcast_S1x1x256_S256x128x256_0_1_2 : S1x1x256.BroadcastsInDim S256x128x256 (![0, 1, 2] : Fin 3 → Fin S256x128x256.rank)
  shapeCasts_S256x128x256_S32768x256 : S256x128x256.ShapeCasts S32768x256
  reducesTo_S32768x256_S256_d0 : S32768x256.ReducesTo [0] S256
  bcast_S1x256_S32768x256_0_1 : S1x256.BroadcastsInDim S32768x256 (![0, 1] : Fin 2 → Fin S32768x256.rank)
  bcast_S_S256x128x256 : S_.BroadcastsInDim S256x128x256 (![] : Fin 0 → Fin S256x128x256.rank)
  gather_S256x128x64_S256x128x16x2_S256x128x16x64_3_01_n_n_01_3_1164_wf : GatherDims.WF S256x128x64 S256x128x16x2 S256x128x16x64 [3] [0, 1] [] [0, 1] [] 3 ![1, 1, 64]
  gather_S256x256x32_S256x128x16x2_S256x128x16x32_3_01_n_n_01_3_1132_wf : GatherDims.WF S256x256x32 S256x128x16x2 S256x128x16x32 [3] [0, 1] [] [0, 1] [] 3 ![1, 1, 32]
  dot_S256x128x16x96_S256x96_S256x128x16x256_3_1_012_0_n_n_wf : DotDims.WF S256x128x16x96 S256x96 S256x128x16x256 [3] [1] [0, 1, 2] [0] [] []
  dot_S256x128x64_S256x64_S256x128x256_2_1_01_0_n_n_wf : DotDims.WF S256x128x64 S256x64 S256x128x256 [2] [1] [0, 1] [0] [] []

variable [Facts₀]

def gather_S256x128x64_S256x128x16x2_S256x128x16x64_3_01_n_n_01_3_1164 : GatherDims S256x128x64 S256x128x16x2 S256x128x16x64 where
  offsetDims := [3]
  collapsedSliceDims := [0, 1]
  operandBatchingDims := []
  startIndicesBatchingDims := []
  startIndexMap := [0, 1]
  indexVectorDim := 3
  sliceSizes := ![1, 1, 64]
  wf := gather_S256x128x64_S256x128x16x2_S256x128x16x64_3_01_n_n_01_3_1164_wf
def gather_S256x256x32_S256x128x16x2_S256x128x16x32_3_01_n_n_01_3_1132 : GatherDims S256x256x32 S256x128x16x2 S256x128x16x32 where
  offsetDims := [3]
  collapsedSliceDims := [0, 1]
  operandBatchingDims := []
  startIndicesBatchingDims := []
  startIndexMap := [0, 1]
  indexVectorDim := 3
  sliceSizes := ![1, 1, 32]
  wf := gather_S256x256x32_S256x128x16x2_S256x128x16x32_3_01_n_n_01_3_1132_wf
def dot_S256x128x16x96_S256x96_S256x128x16x256_3_1_012_0_n_n : DotDims S256x128x16x96 S256x96 S256x128x16x256 where
  lhsContracting := [3]
  rhsContracting := [1]
  lhsNonContracting := [0, 1, 2]
  rhsNonContracting := [0]
  lhsBatch := []
  rhsBatch := []
  wf := dot_S256x128x16x96_S256x96_S256x128x16x256_3_1_012_0_n_n_wf
def dot_S256x128x64_S256x64_S256x128x256_2_1_01_0_n_n : DotDims S256x128x64 S256x64 S256x128x256 where
  lhsContracting := [2]
  rhsContracting := [1]
  lhsNonContracting := [0, 1]
  rhsNonContracting := [0]
  lhsBatch := []
  rhsBatch := []
  wf := dot_S256x128x64_S256x64_S256x128x256_2_1_01_0_n_n_wf

class Facts : Prop extends Facts₀ where

variable [Facts]
-- ==== Proof.K.R0.lean ====
import proofs.«418526_j20469814133046_3_alg».proof.Proof.KLaunch
import proofs.«418526_j20469814133046_3_alg».proof.Proof.Gen.Kernel.Skeleton
import proofs.«418526_j20469814133046_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1

/-- The running sums are zeroed at point 0 only and copied out at point 7 only. -/
theorem hcond : ∀ t : Fin cfg0.N, (cond0 (grid0.coords t) ↔ t.val = 0) ∧ (cond1 (grid0.coords t) ↔ t.val = 7) :=
  (by decide +kernel : ∀ t : Fin grid0.N, (cond0 (grid0.coords t) ↔ t.val = 0) ∧ (cond1 (grid0.coords t) ↔ t.val = 7))

theorem live_at : ∀ (w : Fin cfg0.W) (t : Fin cfg0.N), w.val < 3 ∨ t.val = 7 → cfg0.idle w (grid0.coords t) = false := by decide +kernel
theorem idle_at : ∀ (w : Fin cfg0.W) (t : Fin cfg0.N), 3 ≤ w.val → t.val ≠ 7 → cfg0.idle w (grid0.coords t) = true ∧ (cfg0.win w).flush t = false := by
  decide +kernel

theorem hz : (![0, 0] : Fin 2 → Nat) = fun _ => 0 := funext fun a => by fin_cases a <;> rfl

/-- A whole-block store, made last, is what the buffer then reads. -/
theorem read_wrote {κ : Kind} {sp : Space} {S : Shape} {e : EltTy} (v : View sig κ sp S e) (f : v.ty.Contents (Elt F)) {off : Fin S.rank → Nat}
    (h : off = fun _ => 0) (inb : ∀ a, off a + S.size a ≤ S.size a) (p : S.Idx → Elt F e) (L : List (View.Piece (Elt F) S e)) :
    v.read (Elt F) (v.writes (Elt F) f (⟨Rect.unit off S.size inb, p⟩ :: L)) = p :=
  (View.read_writes_eq_canon v f _ fun y => ⟨_, List.mem_cons.mpr (.inl rfl), View.mem_set_unit_zero h inb y⟩).trans
    (View.canon_cons_unit_zero h inb p L)

section Run

variable (c : Dev nD) (i : grid0.Coords)
  (arg1 : Memref sig .tc .vmem S4096x64 .f32) (harg1 : arg1.IsWhole) (arg2 : Memref sig .tc .vmem S64x256 .bf16) (harg2 : arg2.IsWhole)
  (arg3 : Memref sig .tc .vmem S1x256 .f32) (harg3 : arg3.IsWhole) (arg4 : Memref sig .tc .vmem S1x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole)
  (x : Vec F S4096x64 .f32) (w : Vec F S64x256 .bf16) (b : Vec F S1x256 .f32)

/-- The seven buffers the body touches, the last four at given contents. -/
def held (o3 o4 s0 s1 : Vec F S1x256 .f32) : sProp 𝕄 :=
  iprop(owns (c : Thread nD τ) arg1 fullShare x ∗ owns (c : Thread nD τ) arg2 fullShare w ∗ owns (c : Thread nD τ) arg3 fullShare b
    ∗ owns (c : Thread nD τ) arg4 fullShare o3 ∗ owns (c : Thread nD τ) arg5 fullShare o4
    ∗ owns (c : Thread nD τ) arg6 fullShare s0 ∗ owns (c : Thread nD τ) arg7 fullShare s1)

variable (o3 o4 s0 s1 : Vec F S1x256 .f32)

set_option maxHeartbeats 2000000 in
/-- Each running sum gains this block's column sums, from zero where the reset branch is taken; the store branch copies both to the outputs. -/
theorem run (hx : cond0 i → ¬cond1 i) (E : Set ℕ) (K : PUnit → sProp 𝕄) :
    iprop(held c arg1 arg2 arg3 arg4 arg5 arg6 arg7 x w b o3 o4 s0 s1
        ∗ (held c arg1 arg2 arg3 arg4 arg5 arg6 arg7 x w b
            (if cond1 i then k0_pay4 x w b (if cond0 i then k0_pay1 else s0) else o3)
            (if cond1 i then k0_pay5 x w b (if cond0 i then k0_pay2 else s1) else o4)
            (k0_pay4 x w b (if cond0 i then k0_pay1 else s0)) (k0_pay5 x w b (if cond0 i then k0_pay2 else s1)) -∗ K ⟨⟩))
      ⊢ wp frame (wpE (defs₀ (F := F)) Variants.none c none) E (cc0__atom_stats_kernel i arg1 harg1 arg2 harg2 arg3 harg3 arg4 harg4 arg5 harg5 arg6 harg6 arg7 harg7) K := by
  by_cases hc0 : cond0 i <;> by_cases hc1 : cond1 i
  · exact absurd hc1 (hx hc0)
  all_goals
    first | rw [if_pos hc0, if_pos hc0] | rw [if_neg hc0, if_neg hc0]
    first | rw [if_pos hc1, if_pos hc1] | rw [if_neg hc1, if_neg hc1]
    simp only [cc0__atom_stats_kernel_eq_skeleton]; unfold cc0__atom_stats_kernel_skel held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    sl_unfold_words
    simp only [View.readAt_eq_ld, Memref.IsWhole.read_unread, View.ld_unit_zero (S := S4096x64) hz, View.ld_unit_zero (S := S64x256) hz,
      View.ld_unit_zero (S := S1x256) hz, View.readCov_unit_zero (S := S1x256) _ hz]
    iapply Hk
    isplitl [H1]; swap; isplitl [H2]; swap; isplitl [H3]; swap; isplitl [H4]; swap; isplitl [H5]; swap; isplitl [H6]
    all_goals (iexists _; isplitr; swap; iassumption; ipureintro; first | exact Memref.IsWhole.read_unread _ _ | exact read_wrote (F := F) (S := S1x256) _ _ hz _ _ _)

end Run

variable (V : Valuation τ sig (Elt F)) (c : Dev nD)

def iblk (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- The blocks' column sums added up over points 0 to n, starting from the zero block. -/
def sumAt : (n : ℕ) → n < cfg0.N → Vec F S1x256 .f32
  | 0, hn => k0_pay4 (iblk V 0 ⟨0, hn⟩) (iblk V 1 ⟨0, hn⟩) (iblk V 2 ⟨0, hn⟩) (k0_pay1 (F := F))
  | n + 1, hn => k0_pay4 (iblk V 0 ⟨n + 1, hn⟩) (iblk V 1 ⟨n + 1, hn⟩) (iblk V 2 ⟨n + 1, hn⟩) (sumAt n (Nat.lt_of_succ_lt hn))

/-- The same for the column sums of squares. -/
def sqAt : (n : ℕ) → n < cfg0.N → Vec F S1x256 .f32
  | 0, hn => k0_pay5 (iblk V 0 ⟨0, hn⟩) (iblk V 1 ⟨0, hn⟩) (iblk V 2 ⟨0, hn⟩) (k0_pay2 (F := F))
  | n + 1, hn => k0_pay5 (iblk V 0 ⟨n + 1, hn⟩) (iblk V 1 ⟨n + 1, hn⟩) (iblk V 2 ⟨n + 1, hn⟩) (sqAt n (Nat.lt_of_succ_lt hn))

/-- One step of the running sums: from the sums after the point before (from zero at point 0) to those after point t. -/
theorem acc_eq (t : Fin cfg0.N) (s0 s1 : Vec F S1x256 .f32)
    (hs : ∀ h : t.val ≠ 0, s0 = sumAt V (t.val - 1) (by omega) ∧ s1 = sqAt V (t.val - 1) (by omega)) :
    k0_pay4 (iblk V 0 t) (iblk V 1 t) (iblk V 2 t) (if cond0 (grid0.coords t) then k0_pay1 else s0) = sumAt V t.val t.isLt
      ∧ k0_pay5 (iblk V 0 t) (iblk V 1 t) (iblk V 2 t) (if cond0 (grid0.coords t) then k0_pay2 else s1) = sqAt V t.val t.isLt := by
  obtain ⟨n, hn⟩ := t
  cases n with
  | zero => rw [if_pos ((hcond _).1.mpr rfl), if_pos ((hcond _).1.mpr rfl)]; exact ⟨rfl, rfl⟩
  | succ n =>
    obtain ⟨rfl, rfl⟩ := hs (Nat.succ_ne_zero n)
    rw [if_neg fun h => Nat.succ_ne_zero n ((hcond _).1.mp h), if_neg fun h => Nat.succ_ne_zero n ((hcond _).1.mp h)]; exact ⟨rfl, rfl⟩

abbrev scM0 : Memref sig .tc .vmem S1x256 .f32 := Memref.whole cc0_scratch0
abbrev scM1 : Memref sig .tc .vmem S1x256 .f32 := Memref.whole cc0_scratch1

/-- Between points the two carrying buffers hold the running sums after the point before (anything before the first point). -/
def PhiS (n : ℕ) (hn : n ≤ cfg0.N) : sProp 𝕄 :=
  iprop(∃ s0 s1, ⌜∀ h : n ≠ 0, s0 = sumAt V (n - 1) (by omega) ∧ s1 = sqAt V (n - 1) (by omega)⌝
    ∗ owns (c : Thread nD τ) scM0 fullShare s0 ∗ owns (c : Thread nD τ) scM1 fullShare s1
    ∗ Pipeline.scopedRestBut (Ix := Unit) (Name := ℕ) (U := UR sig nD τ) (Lvl := ℕ) (Val := Elt F) spec0 c [cc0_scratch0, cc0_scratch1]
    ∗ (∃ r, prngReg c r))

theorem Phi0_eq :
    (iprop((∃ r, prngReg c r) ∗ Pipeline.scopedRest (Ix := Unit) (Name := ℕ) (U := UR sig nD τ) (Lvl := ℕ) (Val := Elt F) spec0 c) : sProp 𝕄)
      = iprop((∃ r, prngReg c r) ∗ iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec0 c [cc0_scratch0, cc0_scratch1]) := by
  rw [scopedRest0_split]; simp only [scM0, scM1, owns_whole]; try rfl

def dat : Pipeline.Dat τ (Elt F) Unit ℕ (UR sig nD τ) ℕ cfg0 c where
  A w := V (Pipeline.arrRef spec0 w)
  after w t := match w with
    | ⟨0, _⟩ => iblk V 0 t
    | ⟨1, _⟩ => iblk V 1 t
    | ⟨2, _⟩ => iblk V 2 t
    | ⟨3, _⟩ => sumAt V t.val t.isLt
    | ⟨4, _⟩ => sqAt V t.val t.isLt
  Φ t := PhiS V c t.val (Nat.le_of_lt_succ t.isLt)
  q _ := fullShare
  owed _ := 0

theorem dat_A (w : Fin cfg0.W) : (dat V c).A w = V (Pipeline.arrRef spec0 w) := by
  dsimp only [dat]
theorem dat_q (w : Fin cfg0.W) : (dat V c).q w = fullShare := by
  dsimp only [dat]
theorem dat_owed (t) : (dat V c).owed t = 0 := by
  dsimp only [dat]
theorem dat_recorded : (dat V c).recorded 0 = Set.univ := rfl
theorem after_3 (t : Fin cfg0.N) : (dat V c).after 3 t = sumAt V t.val t.isLt := by dsimp only [dat]
theorem after_4 (t : Fin cfg0.N) : (dat V c).after 4 t = sqAt V t.val t.isLt := by dsimp only [dat]

/-- At every point each input window reads as its block of the array. -/
theorem before_in (t : Fin cfg0.N) :
    (∀ d, (dat V c).before 0 t d = iblk V 0 t) ∧ (∀ d, (dat V c).before 1 t d = iblk V 1 t) ∧ (∀ d, (dat V c).before 2 t d = iblk V 2 t) := by
  refine ⟨fun d => ?_, fun d => ?_, fun d => ?_⟩ <;>
    exact ((dat V c).before_in_eq_fetched _ rfl (fun _ => rfl) (fun _ _ _ => rfl) (fun t => by unfold Dat.blockOf; dsimp only [dat]; rfl) t d).trans
      (by unfold Dat.fetched Dat.blockOf; dsimp only [dat]; rfl)

/-- At point 7 an output window holds the running sum; at any other point it is left as found. -/
theorem leaves_out (w : Fin cfg0.W) (hw : 3 ≤ w.val) (t : Fin cfg0.N) (d) :
    owns (c : Thread nD τ) ((cfg0.win w).stage (cfg0.slots t w)) fullShare
        (if cond1 (grid0.coords t) then (dat V c).after w t else (dat V c).before w t d) ⊢ (dat V c).leavesExact w t := by
  by_cases h : t.val = 7
  · rw [if_pos ((hcond t).2.mpr h)]; unfold Dat.leavesExact; rw [live_at w t (.inr h)]
  · rw [if_neg fun a => h ((hcond t).2.mp a), Dat.leavesExact_idle _ w t (idle_at w t hw h).1 (idle_at w t hw h).2]
    iintro H; iexists d; iexact H

def bodyPre (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d)))

def bodyPost (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

theorem sound_body (t : Fin cfg0.N) :
    bodyPre V c t ⊢ wp frame (wpE (defs₀ (F := F)) Variants.none c none) Set.univ (bodyAt0 t) (fun _ => bodyPost V c t) := by
  obtain ⟨h0, h7⟩ := hcond t
  unfold bodyPre bodyPost bodyAt0
  simp only [(before_in V c t).1, (before_in V c t).2.1, (before_in V c t).2.2]
  rw [show (dat V c).owesAt () t.succ = (dat V c).owesAt () t.castSucc from rfl,
    show (dat V c).Φ t.castSucc = PhiS V c t.val (Nat.le_of_lt t.isLt) from rfl, show (dat V c).Φ t.succ = PhiS V c (t.val + 1) t.isLt from rfl]
  unfold PhiS
  iintro ⟨⟨%s0, %s1, %hs, HS0, HS1, Hrest, Hg⟩, Ho, ⟨%d0, H0⟩, ⟨%d1, H1⟩, ⟨%d2, H2⟩, ⟨%d3, H3⟩, ⟨%d4, H4⟩⟩
  obtain ⟨e0, e1⟩ := acc_eq V t s0 s1 hs
  iapply (run c (grid0.coords t) _ _ _ _ _ _ _ _ _ _ _ _ _ _ (iblk V 0 t) (iblk V 1 t) (iblk V 2 t) ((dat V c).before 3 t d3) ((dat V c).before 4 t d4) s0 s1
    (fun a b => by have := h0.mp a; have := h7.mp b; omega) Set.univ _)
  irw [e0, e1]; unfold held
  isplitl [H0 H1 H2 H3 H4 HS0 HS1]; · iframe
  iintro ⟨H0, H1, H2, H3, H4, HS0, HS1⟩
  isplitl [HS0 HS1 Hrest Hg]
  · iexists _, _; iframe; ipureintro; exact fun _ => ⟨rfl, rfl⟩
  iframe Ho
  isplitl [H0]; · unfold Dat.leavesExact; rw [live_at 0 t (.inl (by decide))]; dsimp only [dat]; iexact H0
  isplitl [H1]; · unfold Dat.leavesExact; rw [live_at 1 t (.inl (by decide))]; dsimp only [dat]; iexact H1
  isplitl [H2]; · unfold Dat.leavesExact; rw [live_at 2 t (.inl (by decide))]; dsimp only [dat]; iexact H2
  isplitl [H3]; · iapply (leaves_out V c 3 (by decide) t d3); rw [after_3]; iexact H3
  iapply (leaves_out V c 4 (by decide) t d4); rw [after_4]; iexact H4

theorem body : Pipeline.BodyObligation (dat V c) (defs₀ (F := F)) Variants.none () Set.univ := fun t => by
  rw [bigSep_W0, bigSep_W0]
  exact sound_body V c t

theorem phi_in :
    (iprop((∃ r, prngReg c r) ∗ Pipeline.scopedRest (Ix := Unit) (Name := ℕ) (U := UR sig nD τ) (Lvl := ℕ) (Val := Elt F) spec0 c) : sProp 𝕄)
      ⊢ (dat V c).Φ 0 := by
  rw [Phi0_eq, show (dat V c).Φ 0 = PhiS V c 0 (Nat.zero_le _) from rfl]; unfold PhiS
  iintro ⟨Hg, ⟨⟨%d0, H0⟩, ⟨%d1, H1⟩⟩, Hr⟩
  iexists d0, d1; iframe; ipureintro; exact fun h => absurd rfl h

theorem phi_out :
    (dat V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [Phi0_eq, show (dat V c).Φ (Fin.last cfg0.N) = PhiS V c (Fin.last cfg0.N).val (Nat.le_of_lt_succ (Fin.last cfg0.N).isLt) from rfl]; unfold PhiS
  iintro ⟨%s0, %s1, -, H0, H1, Hr, Hg⟩
  iframe Hg Hr
  isplitl [H0]; · iexists _; iexact H0
  iexists _; iexact H1

end Cert.Kernel.R0

end
-- ==== Proof.LibRegionRecord.lean ====
import Idealize.ShloMosaic.Lib.Pipeline.Regions
import Idealize.ShloMosaic.Lib.Pipeline.RegionsLoop
import Idealize.ShloMosaic.Lib.Pipeline.Frame
import Idealize.ShloMosaic.Lib.Pipeline.Kit

noncomputable section

namespace Cert.LibRegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Record

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

abbrev rest (c : Dev nD) : sProp 𝕄 :=
  iprop((∃ r, prngReg c r) ∗ ∃ W, owes (c : Thread nD τ) (0 : CellTallies nD τ sig Ix) W)

abbrev state (V : Valuation τ sig Val) (c : Dev nD) : sProp 𝕄 :=
  iprop(StableHlo.held (c : Thread nD τ) (ucRefs τ sig) V ∗ rest (Ix := Ix) (Name := Name) (U := U) (Lvl := Lvl) (Val := Val) (τ := τ) (sig := sig) c)

set_option backward.isDefEq.respectTransparency.types false in

-- a region entered from "every unscoped buffer held at V, the generator register, nothing owed" and left at the same about V',
-- where V' has each array at what the write-backs leave and every other buffer as V
def regionRecord (pcs : P → PCfg sig Λ₀ Val) (a : (p : P) → (pcs p).Adm)
    (pdats : (p : P) → (c : Dev nD) → Dat τ Val Ix Name U Lvl (pin pcs a p) c) (ι : Ix)
    (defs₀ : Defs nD τ sig Val Λ₀) (𝒱₀ : Variants)
    (L : GSem nD τ sig → Finset Ix) (lv : GSem nD τ sig → Ix → Lvl) (p : P)
    (hw₀ : WinFacts₀ (pcs p).spec) (hw : WinFacts (pin pcs a p).spec)
    (hblock : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hK : IsEmpty (Fin (pcs p).pre.K))
    (hq : ∀ c w, (pdats p c).q w = fullShare)
    (howed : ∀ c t, (pdats p c).owed t = 0)
    (hrec : ∀ c, (pdats p c).recorded 0 = Set.univ)
    (hbody : ∀ c, BodyObligation (pdats p c) defs₀ 𝒱₀ ι Set.univ)
    (V V' : Dev nD → Valuation τ sig Val)
    (hA : ∀ c w, (pdats p c).A w = V c (arrRef (pin pcs a p).spec w))
    (hF : ∀ c w, (pdats p c).arrAt w (pin pcs a p).N = V' c (arrRef (pin pcs a p).spec w))
    (hrest : ∀ c (b : Ref sig .tc), b ∉ Finset.univ.image (arrRef (pin pcs a p).spec) → V' c b = V c b)
    (hΦin : ∀ c, iprop((∃ r, prngReg c r) ∗ scopedRest (pin pcs a p).spec c) ⊢ (pdats p c).Φ 0)
    (hΦout : ∀ c, (pdats p c).Φ (Fin.last (pin pcs a p).N) ⊢ iprop((∃ r, prngReg c r) ∗ scopedRest (pin pcs a p).spec c)) :
    RegionSeg pcs a pdats ι defs₀ 𝒱₀ L lv p where
  win := hw₀
  block_pos := hblock
  stage_whole := hstage
  K := PEmpty
  osem k := k.elim
  ho := OwnSemFacts.none _
  hbody c := (hbody c).loose
  hwaits := hwaits_of_owed_zero pcs a pdats ι L lv p howed
  pre c := state (V c) c
  post c := state (V' c) c
  X c := iprop(∃ r, prngReg c r)
  Y c := iprop(∃ r, prngReg c r)
  Z c := unscopedRest (Ix := Ix) (Name := Name) (U := U) (Lvl := Lvl) (pin pcs a p).spec c (fun b => V c b)
  hentry c := by
    rw [ownSems0_none]
    have hsplit := arrays_of_unscopedBufs (p := p) pcs a pdats hw harr c
      ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr
    · haveI := hK
      unfold prefHeld; rw [Finset.univ_eq_empty, BI.bigSep_empty]; iempintro
    isplitl [HO]
    · unfold Dat.owesAt owesWithin
      rw [howed c 0]
      icases HO with ⟨%W, HO⟩; iexists W; isplitr
      · ipureintro; exact fun x _ => Or.inl (by rw [hrec c]; trivial)
      iexact HO
    isplitl [Hp]; · iexact Hp
    iexact Hrest
  hin c := by
    iintro ⟨Hp, -, Hr⟩
    iapply (hΦin c)
    isplitl [Hp]; · iexact Hp
    iexact Hr
  hout c := by
    rw [ownSems0_none]
    iintro H
    ihave H' := (hΦout c) $$ H
    icases H' with ⟨Hp, Hr⟩
    isplitl [Hp]; · iexact Hp
    isplitr; · iempintro
    iexact Hr
  hexit c := by
    have hjoin := unscopedBufs_of_arrays (p := p) pcs a (Ix := Ix) (Name := Name) (U := U) (Lvl := Lvl)
      hw harr c pdats ((pdats p c).share_full (hq c))
      (fun b => V c b) (fun b => V' c b) ((pdats p c).arrAt · (pin pcs a p).N) (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last _)]
    icases HO with ⟨%W, -, HO⟩; iexists W; iexact HO

end Record

section ClassInvariant

variable {nD : Nat} {τ : Topo} {sig : RefSig} {Val : EltTy → Type} {U : Type} [URA U]

local notation "𝕄" => MT nD τ sig Unit Val ℕ U ℕ

theorem ΦA_in {gr : Nat} {W : Nat} (win : Fin W → WinSpec sig gr) (c : Dev nD) :
    (iprop((∃ r, prngReg c r) ∗ scopedRest (Ix := Unit) (Name := ℕ) (U := U) (Lvl := ℕ) (Val := Val) win c) : sProp 𝕄) ⊢ ΦA win c := by
  unfold ΦA
  iintro ⟨Hp, Hr⟩
  isplitl [Hr]; · iexact Hr
  iexact Hp

theorem ΦA_out {gr : Nat} {W : Nat} (win : Fin W → WinSpec sig gr) (c : Dev nD) :
    (ΦA win c : sProp 𝕄) ⊢ iprop((∃ r, prngReg c r) ∗ scopedRest (Ix := Unit) (Name := ℕ) (U := U) (Lvl := ℕ) (Val := Val) win c) := by
  unfold ΦA
  iintro ⟨Hr, Hp⟩
  isplitl [Hp]; · iexact Hp
  iexact Hr

end ClassInvariant

end Cert.LibRegionRecord

end
-- ==== Proof.K.R1.lean ====
import proofs.«418526_j20469814133046_3_alg».proof.Proof.KLaunch
import proofs.«418526_j20469814133046_3_alg».proof.Proof.Gen.Kernel.Skeleton
import proofs.«418526_j20469814133046_3_alg».proof.Proof.Gen.Kernel.Points
import proofs.«418526_j20469814133046_3_alg».proof.Proof.LibRegionRecord
import Idealize.ShloMosaic.Lib.Pipeline.FrameBody
import Idealize.ShloMosaic.Lib.Pipeline.Value
import Idealize.ShloMosaic.Lib.Ring
import Idealize.ShloMosaic.Lib.Tactic

noncomputable section

namespace Cert.Kernel.R1

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk (V : Valuation τ sig (Elt F)) (w : Fin cfg1.W) (t : Fin cfg1.N) :
    ((cfg1.win w).xblock (cfg1.grid.coords t)).Idx → Elt F (cfg1.win w).elt :=
  ((cfg1.win w).blk t).view.read (Elt F) (V (Pipeline.arrRef spec1 w))

def dat (V : Valuation τ sig (Elt F)) (c : Dev nD) : Pipeline.Dat τ (Elt F) Unit ℕ (UR sig nD τ) ℕ cfg1 c where
  A w := V (Pipeline.arrRef spec1 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => k1_pay1 (iblk V 0 t) (iblk V 1 t) (iblk V 2 t) (iblk V 3 t) (iblk V 4 t)
  Φ _ := Pipeline.ΦA spec1 c
  q _ := fullShare
  owed _ := 0

variable (V : Valuation τ sig (Elt F)) (c : Dev nD)

theorem dat_A (w : Fin cfg1.W) : (dat V c).A w = V (Pipeline.arrRef spec1 w) := rfl
theorem dat_q (w : Fin cfg1.W) : (dat V c).q w = fullShare := rfl
theorem dat_owed (t) : (dat V c).owed t = 0 := rfl
theorem dat_recorded : (dat V c).recorded 0 = Set.univ := rfl

theorem after_5 (t : Fin cfg1.N) :
    (dat V c).after 5 t = k1_pay1 (iblk V 0 t) (iblk V 1 t) (iblk V 2 t) (iblk V 3 t) (iblk V 4 t) := by dsimp only [dat]

theorem phi_in : (iprop((∃ r, prngReg c r) ∗ Pipeline.scopedRest (Ix := Unit) (Name := ℕ) (U := UR sig nD τ) (Lvl := ℕ) (Val := Elt F) spec1 c) : sProp 𝕄) ⊢ (dat V c).Φ 0 :=
  Cert.LibRegionRecord.ΦA_in spec1 c

theorem phi_out : (dat V c).Φ (Fin.last cfg1.N) ⊢ (iprop((∃ r, prngReg c r) ∗ Pipeline.scopedRest (Ix := Unit) (Name := ℕ) (U := UR sig nD τ) (Lvl := ℕ) (Val := Elt F) spec1 c) : sProp 𝕄) :=
  Cert.LibRegionRecord.ΦA_out spec1 c

theorem before_in (t : Fin cfg1.N) :
    (∀ d, (dat V c).before 0 t d = iblk V 0 t) ∧ (∀ d, (dat V c).before 1 t d = iblk V 1 t) ∧ (∀ d, (dat V c).before 2 t d = iblk V 2 t)
      ∧ (∀ d, (dat V c).before 3 t d = iblk V 3 t) ∧ (∀ d, (dat V c).before 4 t d = iblk V 4 t) := by
  refine ⟨?_, ?_, ?_, ?_, ?_⟩ <;> exact fun d =>
    ((dat V c).before_in_eq_fetched _ rfl (fun _ => rfl) (fun _ _ _ => rfl) (fun _ => rfl) t d).trans rfl

theorem hz : (![0, 0] : Fin 2 → Nat) = fun _ => 0 := funext fun a => by fin_cases a <;> rfl

/-- The body reads its five inputs whole and stores its value of them over the whole output. -/
theorem sound_kernel (E : Set ℕ) (i : grid1.Coords) {a1 a2 a3 a4 a5 a6} (h1 h2 h3 h4 h5 h6) (x0 x1 x2 x3 x4) (K : PUnit → sProp 𝕄) :
    let I : sProp 𝕄 := iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4)
    iprop(I ∗ (∃ d, owns (c : Thread nD τ) a6 fullShare d) ∗ ((I ∗ owns (c : Thread nD τ) a6 fullShare (k1_pay1 x0 x1 x2 x3 x4)) -∗ K ⟨⟩))
      ⊢ wp frame (wpE (defs₀ (F := F)) Variants.none c none) E (cc1__atom_fused_kernel i a1 h1 a2 h2 a3 h3 a4 h4 a5 h5 a6 h6) K := by
  simp only [cc1__atom_fused_kernel_eq_skeleton]; unfold cc1__atom_fused_kernel_skel owns
  iintro ⟨⟨⟨%f0, %e0, H0⟩, ⟨%f1, %e1, H1⟩, ⟨%f2, %e2, H2⟩, ⟨%f3, %e3, H3⟩, %f4, %e4, H4⟩, ⟨%d, %f5, -, H5⟩, Hk⟩
  subst e0 e1 e2 e3 e4
  sl_exec
  sl_step
  iapply Hk
  isplitr [H5]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  iexists _; isplitr
  swap; · iexact H5
  ipureintro
  rw [View.read_writes_eq_canon _ _ _ (View.cover_of_tiled _ S4096x256.size (by rfl)), View.canon_unit_zero hz]
  simp only [View.readAt_eq_ld, View.ld_unit_zero (S := S4096x64) hz, View.ld_unit_zero (S := S64x256) hz,
    View.ld_unit_zero (S := S1x256) hz]

/-- At every point the inputs hold their blocks, so the triple applies; the invariant and what is owed pass through unread. -/
theorem body : Pipeline.BodyObligation (dat V c) (defs₀ (F := F)) Variants.none () Set.univ := fun t => by
  obtain ⟨b0, b1, b2, b3, b4⟩ := before_in V c t
  rw [GenP.bigSep_W1, GenP.bigSep_W1]
  simp only [b0, b1, b2, b3, b4, (fun _ _ => rfl : ∀ w i, cfg1.idle w i = false)]
  dsimp only [dat]
  iintro ⟨HΦ, Ho, ⟨%d0, H0⟩, ⟨%d1, H1⟩, ⟨%d2, H2⟩, ⟨%d3, H3⟩, ⟨%d4, H4⟩, ⟨%d5, H5⟩⟩
  sl_whnfR [defs₀, Defs.onTc]
  iapply (sound_kernel c Set.univ (grid1.coords t) _ _ _ _ _ _ (iblk V 0 t) (iblk V 1 t) (iblk V 2 t) (iblk V 3 t) (iblk V 4 t) _)
  iframe H0 H1 H2 H3 H4
  isplitl [H5]; · iexists _; iexact H5
  iintro ⟨⟨H0, H1, H2, H3, H4⟩, H5⟩
  iframe HΦ H0 H1 H2 H3 H4 H5
  iexact Ho

end Cert.Kernel.R1

end
-- ==== Proof.K.R2Base.lean ====
import proofs.«418526_j20469814133046_3_alg».proof.Proof.KLaunch
import proofs.«418526_j20469814133046_3_alg».proof.Proof.Gen.Kernel.Skeleton
import proofs.«418526_j20469814133046_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

noncomputable section

namespace Cert.Kernel.R2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condReset (i : grid2.Coords) : Prop :=
  (Scalar.cmpi .ne (Scalar.extui (Scalar.cmpi .eq (BitVec.ofNat 32 (i 1).val) 0#32)) 0#32) = 1#1
abbrev condStore (i : grid2.Coords) : Prop := k2_cond2 i = 1#1

theorem hcondReset : ∀ t : Fin cfg2.N, condReset (grid2.coords t) ↔ t.val % 128 = 0 :=
  (by decide +kernel : ∀ t : Fin grid2.N, condReset (grid2.coords t) ↔ t.val % 128 = 0)
theorem hcondStore : ∀ t : Fin cfg2.N, condStore (grid2.coords t) ↔ t.val % 128 = 127 :=
  (by decide +kernel : ∀ t : Fin grid2.N, condStore (grid2.coords t) ↔ t.val % 128 = 127)

theorem idleOut : ∀ t : Fin cfg2.N, t.val % 128 ≠ 127 →
    (cfg2.idle 6 (grid2.coords t) = true ∧ (cfg2.win 6).flush t = false) ∧ (cfg2.idle 7 (grid2.coords t) = true ∧ (cfg2.win 7).flush t = false) := by decide +kernel
theorem liveOut : ∀ t : Fin cfg2.N, t.val % 128 = 127 → cfg2.idle 6 (grid2.coords t) = false ∧ cfg2.idle 7 (grid2.coords t) = false := by decide +kernel

abbrev ms0 (t : Fin cfg2.N) : Memref sig .tc .vmem S1x128x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x256x32 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x2048x2 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S64x256 .bf16 := win2_3.stage (cfg2.slots t 3)
abbrev hs3 (t : Fin cfg2.N) : (ms3 t).IsWhole := hstage2_3 ((cfg2.slots t 3).cast nbuf2_3)
abbrev ms4 (t : Fin cfg2.N) : Memref sig .tc .vmem S32x256 .bf16 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x256 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x1x256 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x1x256 .f32 := win2_7.stage (cfg2.slots t 7)
abbrev hs7 (t : Fin cfg2.N) : (ms7 t).IsWhole := hstage2_7 ((cfg2.slots t 7).cast nbuf2_7)
abbrev accS : Memref sig .tc .vmem S1x256 .f32 := Memref.whole cc2_scratch0
abbrev accQ : Memref sig .tc .vmem S1x256 .f32 := Memref.whole cc2_scratch1

def iblk (V : Valuation τ sig (Elt F)) (w : Fin cfg2.W) (t : Fin cfg2.N) :
    ((cfg2.win w).xblock (cfg2.grid.coords t)).Idx → Elt F (cfg2.win w).elt :=
  ((cfg2.win w).blk t).view.read (Elt F) (V (Pipeline.arrRef spec2 w))

theorem hz2 : (![0, 0] : Fin 2 → ℕ) = fun _ => 0 := by funext a; fin_cases a <;> rfl
theorem hz3 : (![0, 0, 0] : Fin 3 → ℕ) = fun _ => 0 := by funext a; fin_cases a <;> rfl

abbrev restBut (c : Dev nD) : sProp 𝕄 :=
  Pipeline.scopedRestBut (Ix := Unit) (Name := ℕ) (U := UR sig nD τ) (Lvl := ℕ) (Val := Elt F) spec2 c [cc2_scratch0, cc2_scratch1]

theorem scopedRest_eq (c : Dev nD) :
    (Pipeline.scopedRest (Ix := Unit) (Name := ℕ) (U := UR sig nD τ) (Lvl := ℕ) (Val := Elt F) spec2 c : sProp 𝕄)
      = iprop(iprop((∃ d, owns c accS fullShare d) ∗ (∃ d, owns c accQ fullShare d)) ∗ restBut (F := F) c) := by
  rw [scopedRest2_split]; simp only [accS, accQ, owns_whole]; try rfl

end Cert.Kernel.R2

end
-- ==== Proof.K.R2RunA.lean ====
import proofs.«418526_j20469814133046_3_alg».proof.Proof.K.R2Base

noncomputable section

namespace Cert.Kernel.R2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1x128x64 .f32) (harg2 : arg2.IsWhole) (arg3 : Memref sig .tc .vmem S1x256x32 .f32) (harg3 : arg3.IsWhole) (arg4 : Memref sig .tc .vmem S1x2048x2 .i32) (harg4 : arg4.IsWhole) (arg5 : Memref sig .tc .vmem S64x256 .bf16) (harg5 : arg5.IsWhole) (arg6 : Memref sig .tc .vmem S32x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256 .f32) (harg10 : arg10.IsWhole) (arg11 : Memref sig .tc .vmem S1x256 .f32) (harg11 : arg11.IsWhole)
  (hr : condReset i) (hs : ¬condStore i) (x0 : Vec F S1x128x64 .f32) (x1 : Vec F S1x256x32 .f32) (x2 : Vec F S1x2048x2 .i32) (x3 : Vec F S64x256 .bf16) (x4 : Vec F S32x256 .bf16) (x5 : Vec F S1x256 .f32)
include hr hs

theorem runA (y6 : Vec F S1x1x256 .f32) (y7 : Vec F S1x1x256 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
        ∗ (∃ d, owns c arg10 fullShare d) ∗ (∃ d, owns c arg11 fullShare d)
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
            ∗ owns c arg10 fullShare (k2_pay2 (k2_pay8 x0 x3 x5) (k2_pay9 x1 x4) (k2_pay11 x2) (k2_pay12 x2) (constant S2048x256 .f32 0x00000000#32) (k2_pay6 (F := F)))
            ∗ owns c arg11 fullShare (k2_pay3 (k2_pay8 x0 x3 x5) (k2_pay9 x1 x4) (k2_pay11 x2) (k2_pay12 x2) (constant S2048x256 .f32 0x00000000#32) (k2_pay7 (F := F)))) -∗ K ⟨⟩))
      ⊢ wp frame (wpE (defs₀ (F := F)) Variants.none c none) E (cc2__nei_stats_kernel i arg2 harg2 arg3 harg3 arg4 harg4 arg5 harg5 arg6 harg6 arg7 harg7 arg8 harg8 arg9 harg9 arg10 harg10 arg11 harg11) K := by
  simp only [cc2__nei_stats_kernel_eq_skeleton]; unfold cc2__nei_stats_kernel_skel
  simp only [owns_eq_rep]
  iintro ⟨H0, H1, H2, H3, H4, H5, H6, H7, ⟨%dS, HS⟩, ⟨%dQ, HQ⟩, Hk⟩
  sl_exec (disch := first | exact hr | exact hs)
  sl_step
  iapply Hk
  iframe H0 H1 H2 H3 H4 H5 H6 H7
  rw [← owns_eq_rep, ← owns_eq_rep]; unfold owns
  isplitl [HS]
  · iexists _; isplitr
    swap; · iexact HS
    ipureintro
    rw [View.read_writes_eq_canon _ _ _ (View.cover_of_tiledL _ S1x256.size (by sl_kernel_rfl))]
    sl_unfold_words
    rw [View.canon_cons_unit_zero (S := S1x256) hz2]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  iexists _; isplitr
  swap; · iexact HQ
  ipureintro
  rw [View.read_writes_eq_canon _ _ _ (View.cover_of_tiledL _ S1x256.size (by sl_kernel_rfl))]
  sl_unfold_words
  rw [View.canon_cons_unit_zero (S := S1x256) hz2]
  simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]

end Cert.Kernel.R2

end
-- ==== Proof.K.R2RunB.lean ====
import proofs.«418526_j20469814133046_3_alg».proof.Proof.K.R2Base

noncomputable section

namespace Cert.Kernel.R2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1x128x64 .f32) (harg2 : arg2.IsWhole) (arg3 : Memref sig .tc .vmem S1x256x32 .f32) (harg3 : arg3.IsWhole) (arg4 : Memref sig .tc .vmem S1x2048x2 .i32) (harg4 : arg4.IsWhole) (arg5 : Memref sig .tc .vmem S64x256 .bf16) (harg5 : arg5.IsWhole) (arg6 : Memref sig .tc .vmem S32x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256 .f32) (harg10 : arg10.IsWhole) (arg11 : Memref sig .tc .vmem S1x256 .f32) (harg11 : arg11.IsWhole)
  (hr : ¬condReset i) (hs : ¬condStore i) (x0 : Vec F S1x128x64 .f32) (x1 : Vec F S1x256x32 .f32) (x2 : Vec F S1x2048x2 .i32) (x3 : Vec F S64x256 .bf16) (x4 : Vec F S32x256 .bf16) (x5 : Vec F S1x256 .f32) (aS : Vec F S1x256 .f32) (aQ : Vec F S1x256 .f32)
include hr hs

theorem runB (y6 : Vec F S1x1x256 .f32) (y7 : Vec F S1x1x256 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
        ∗ owns c arg10 fullShare aS ∗ owns c arg11 fullShare aQ
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
            ∗ owns c arg10 fullShare (k2_pay2 (k2_pay8 x0 x3 x5) (k2_pay9 x1 x4) (k2_pay11 x2) (k2_pay12 x2) (constant S2048x256 .f32 0x00000000#32) aS)
            ∗ owns c arg11 fullShare (k2_pay3 (k2_pay8 x0 x3 x5) (k2_pay9 x1 x4) (k2_pay11 x2) (k2_pay12 x2) (constant S2048x256 .f32 0x00000000#32) aQ)) -∗ K ⟨⟩))
      ⊢ wp frame (wpE (defs₀ (F := F)) Variants.none c none) E (cc2__nei_stats_kernel i arg2 harg2 arg3 harg3 arg4 harg4 arg5 harg5 arg6 harg6 arg7 harg7 arg8 harg8 arg9 harg9 arg10 harg10 arg11 harg11) K := by
  simp only [cc2__nei_stats_kernel_eq_skeleton]; unfold cc2__nei_stats_kernel_skel
  simp only [owns_eq_rep]
  iintro ⟨H0, H1, H2, H3, H4, H5, H6, H7, HS, HQ, Hk⟩
  sl_exec (disch := first | exact hr | exact hs)
  sl_step
  iapply Hk
  iframe H0 H1 H2 H3 H4 H5 H6 H7
  rw [← owns_eq_rep, ← owns_eq_rep]; unfold owns
  isplitl [HS]
  · iexists _; isplitr
    swap; · iexact HS
    ipureintro
    rw [View.read_writes_eq_canon _ _ _ (View.cover_of_tiledL _ S1x256.size (by sl_kernel_rfl))]
    sl_unfold_words
    rw [View.canon_cons_unit_zero (S := S1x256) hz2]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  iexists _; isplitr
  swap; · iexact HQ
  ipureintro
  rw [View.read_writes_eq_canon _ _ _ (View.cover_of_tiledL _ S1x256.size (by sl_kernel_rfl))]
  sl_unfold_words
  rw [View.canon_cons_unit_zero (S := S1x256) hz2]
  simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]

end Cert.Kernel.R2

end
-- ==== Proof.K.R2RunC.lean ====
import proofs.«418526_j20469814133046_3_alg».proof.Proof.K.R2Base

noncomputable section

namespace Cert.Kernel.R2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1x128x64 .f32) (harg2 : arg2.IsWhole) (arg3 : Memref sig .tc .vmem S1x256x32 .f32) (harg3 : arg3.IsWhole) (arg4 : Memref sig .tc .vmem S1x2048x2 .i32) (harg4 : arg4.IsWhole) (arg5 : Memref sig .tc .vmem S64x256 .bf16) (harg5 : arg5.IsWhole) (arg6 : Memref sig .tc .vmem S32x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256 .f32) (harg10 : arg10.IsWhole) (arg11 : Memref sig .tc .vmem S1x256 .f32) (harg11 : arg11.IsWhole)
  (hr : ¬condReset i) (hs : condStore i) (x0 : Vec F S1x128x64 .f32) (x1 : Vec F S1x256x32 .f32) (x2 : Vec F S1x2048x2 .i32) (x3 : Vec F S64x256 .bf16) (x4 : Vec F S32x256 .bf16) (x5 : Vec F S1x256 .f32) (aS : Vec F S1x256 .f32) (aQ : Vec F S1x256 .f32)
include hr hs

theorem runC (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ (∃ d, owns c arg8 fullShare d) ∗ (∃ d, owns c arg9 fullShare d)
        ∗ owns c arg10 fullShare aS ∗ owns c arg11 fullShare aQ
        ∗ (iprop(owns c arg2 fullShare x0 ∗ owns c arg3 fullShare x1 ∗ owns c arg4 fullShare x2 ∗ owns c arg5 fullShare x3 ∗ owns c arg6 fullShare x4 ∗ owns c arg7 fullShare x5
            ∗ owns c arg8 fullShare (k2_pay4 (k2_pay2 (k2_pay8 x0 x3 x5) (k2_pay9 x1 x4) (k2_pay11 x2) (k2_pay12 x2) (constant S2048x256 .f32 0x00000000#32) aS))
            ∗ owns c arg9 fullShare (k2_pay5 (k2_pay3 (k2_pay8 x0 x3 x5) (k2_pay9 x1 x4) (k2_pay11 x2) (k2_pay12 x2) (constant S2048x256 .f32 0x00000000#32) aQ))
            ∗ owns c arg10 fullShare (k2_pay2 (k2_pay8 x0 x3 x5) (k2_pay9 x1 x4) (k2_pay11 x2) (k2_pay12 x2) (constant S2048x256 .f32 0x00000000#32) aS)
            ∗ owns c arg11 fullShare (k2_pay3 (k2_pay8 x0 x3 x5) (k2_pay9 x1 x4) (k2_pay11 x2) (k2_pay12 x2) (constant S2048x256 .f32 0x00000000#32) aQ)) -∗ K ⟨⟩))
      ⊢ wp frame (wpE (defs₀ (F := F)) Variants.none c none) E (cc2__nei_stats_kernel i arg2 harg2 arg3 harg3 arg4 harg4 arg5 harg5 arg6 harg6 arg7 harg7 arg8 harg8 arg9 harg9 arg10 harg10 arg11 harg11) K := by
  simp only [cc2__nei_stats_kernel_eq_skeleton]; unfold cc2__nei_stats_kernel_skel
  simp only [owns_eq_rep]
  iintro ⟨H0, H1, H2, H3, H4, H5, ⟨%d6, H6⟩, ⟨%d7, H7⟩, HS, HQ, Hk⟩
  sl_exec (disch := first | exact hr | exact hs)
  sl_step
  iapply Hk
  iframe H0 H1 H2 H3 H4 H5
  rw [← owns_eq_rep, ← owns_eq_rep, ← owns_eq_rep, ← owns_eq_rep]; unfold owns
  isplitl [H6]
  · iexists _; isplitr
    swap; · iexact H6
    ipureintro
    rw [View.read_writes_eq_canon _ _ _ (View.cover_of_tiledL _ S1x1x256.size (by sl_kernel_rfl))]
    sl_unfold_words
    rw [View.canon_cons_unit_zero (S := S1x1x256) hz3]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  isplitl [H7]
  · iexists _; isplitr
    swap; · iexact H7
    ipureintro
    rw [View.read_writes_eq_canon _ _ _ (View.cover_of_tiledL _ S1x1x256.size (by sl_kernel_rfl))]
    sl_unfold_words
    rw [View.canon_cons_unit_zero (S := S1x1x256) hz3]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  isplitl [HS]
  · iexists _; isplitr
    swap; · iexact HS
    ipureintro
    rw [View.read_writes_eq_canon _ _ _ (View.cover_of_tiledL _ S1x256.size (by sl_kernel_rfl))]
    sl_unfold_words
    rw [View.canon_cons_unit_zero (S := S1x256) hz2]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2]
  iexists _; isplitr
  swap; · iexact HQ
  ipureintro
  rw [View.read_writes_eq_canon _ _ _ (View.cover_of_tiledL _ S1x256.size (by sl_kernel_rfl))]
  sl_unfold_words
  rw [View.canon_cons_unit_zero (S := S1x256) hz2]
  simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2]

end Cert.Kernel.R2

end
-- ==== Proof.K.R2.lean ====
import proofs.«418526_j20469814133046_3_alg».proof.Proof.K.R2RunA
import proofs.«418526_j20469814133046_3_alg».proof.Proof.K.R2RunB
import proofs.«418526_j20469814133046_3_alg».proof.Proof.K.R2RunC

noncomputable section

namespace Cert.Kernel.R2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F)) (c : Dev nD)

abbrev b0 (t : Fin cfg2.N) : Vec F S1x128x64 .f32 := iblk V 0 t
abbrev b1 (t : Fin cfg2.N) : Vec F S1x256x32 .f32 := iblk V 1 t
abbrev b2 (t : Fin cfg2.N) : Vec F S1x2048x2 .i32 := iblk V 2 t
abbrev b3 (t : Fin cfg2.N) : Vec F S64x256 .bf16 := iblk V 3 t
abbrev b4 (t : Fin cfg2.N) : Vec F S32x256 .bf16 := iblk V 4 t
abbrev b5 (t : Fin cfg2.N) : Vec F S1x256 .f32 := iblk V 5 t

-- One point's update of the running column sum and of the running column sum of squares.
def step (t : Fin cfg2.N) (a : Vec F S1x256 .f32 × Vec F S1x256 .f32) :
    Vec F S1x256 .f32 × Vec F S1x256 .f32 :=
  (k2_pay2 (k2_pay8 (b0 V t) (b3 V t) (b5 V t)) (k2_pay9 (b1 V t) (b4 V t)) (k2_pay11 (b2 V t)) (k2_pay12 (b2 V t)) (constant S2048x256 .f32 0x00000000#32) a.1,
   k2_pay3 (k2_pay8 (b0 V t) (b3 V t) (b5 V t)) (k2_pay9 (b1 V t) (b4 V t)) (k2_pay11 (b2 V t)) (k2_pay12 (b2 V t)) (constant S2048x256 .f32 0x00000000#32) a.2)

def zeroAcc : Vec F S1x256 .f32 × Vec F S1x256 .f32 := (k2_pay6 (F := F), k2_pay7 (F := F))

-- The accumulators after position n: restarted from zero at the first point of each half of the grid, carried on otherwise.
def acc : (n : ℕ) → n < cfg2.N → Vec F S1x256 .f32 × Vec F S1x256 .f32
  | 0, h => step V ⟨0, h⟩ zeroAcc
  | n + 1, h => if (n + 1) % 128 = 0 then step V ⟨n + 1, h⟩ zeroAcc else step V ⟨n + 1, h⟩ (acc n (Nat.lt_of_succ_lt h))

theorem acc_reset (t : Fin cfg2.N) (h : t.val % 128 = 0) : acc V t.val t.isLt = step V t zeroAcc := by
  obtain ⟨n, hn⟩ := t
  cases n with
  | zero => rfl
  | succ n => exact if_pos h

theorem acc_carry (t : Fin cfg2.N) (h : ¬t.val % 128 = 0) :
    acc V t.val t.isLt = step V t (acc V (t.val - 1) (Nat.lt_of_le_of_lt (Nat.sub_le _ _) t.isLt)) := by
  obtain ⟨n, hn⟩ := t
  cases n with
  | zero => exact absurd (Nat.zero_mod _) h
  | succ n => exact if_neg h

-- The invariant: before the first point what the region is entered with, afterwards the accumulators at what the point before left.
def Phi : (n : ℕ) → n ≤ cfg2.N → sProp 𝕄
  | 0, _ => iprop((∃ r, prngReg c r) ∗ Pipeline.scopedRest (Ix := Unit) (Name := ℕ) (U := UR sig nD τ) (Lvl := ℕ) (Val := Elt F) spec2 c)
  | n + 1, hn => iprop(iprop(owns c accS fullShare (acc V n hn).1 ∗ owns c accQ fullShare (acc V n hn).2)
      ∗ restBut (F := F) c ∗ (∃ r, prngReg c r))

theorem Phi_succ (n : ℕ) (hn : n < cfg2.N) :
    Phi V c (n + 1) hn = iprop(iprop(owns c accS fullShare (acc V n hn).1 ∗ owns c accQ fullShare (acc V n hn).2)
      ∗ restBut (F := F) c ∗ (∃ r, prngReg c r)) := rfl

theorem Phi_pos (n : ℕ) (h : n ≤ cfg2.N) (hz : n ≠ 0) :
    Phi V c n h = iprop(iprop(owns c accS fullShare (acc V (n - 1) (by omega)).1 ∗ owns c accQ fullShare (acc V (n - 1) (by omega)).2)
      ∗ restBut (F := F) c ∗ (∃ r, prngReg c r)) := by
  cases n with
  | zero => exact absurd rfl hz
  | succ n => rfl

theorem Phi_forget (n : ℕ) (h : n ≤ cfg2.N) :
    Phi V c n h ⊢ iprop(iprop((∃ d, owns c accS fullShare d) ∗ (∃ d, owns c accQ fullShare d))
      ∗ restBut (F := F) c ∗ (∃ r, prngReg c r)) := by
  cases n with
  | zero =>
    show iprop((∃ r, prngReg c r) ∗ Pipeline.scopedRest (Ix := Unit) (Name := ℕ) (U := UR sig nD τ) (Lvl := ℕ) (Val := Elt F) spec2 c) ⊢ _
    rw [scopedRest_eq]
    iintro ⟨Hg, ⟨Ha, Hr⟩⟩
    iframe Ha Hr Hg
  | succ n =>
    rw [Phi_succ]
    iintro ⟨⟨HS, HQ⟩, Hr, Hg⟩
    iframe Hr Hg
    isplitl [HS]
    · iexists _; iexact HS
    iexists _; iexact HQ

def dat : Pipeline.Dat τ (Elt F) Unit ℕ (UR sig nD τ) ℕ cfg2 c where
  A w := V (Pipeline.arrRef spec2 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => k2_pay4 (acc V t.val t.isLt).1
    | ⟨7, _⟩ => k2_pay5 (acc V t.val t.isLt).2
  Φ t := Phi V c t.val (Nat.le_of_lt_succ t.isLt)
  q _ := fullShare
  owed _ := 0

theorem dat_A (w : Fin cfg2.W) : (dat V c).A w = V (Pipeline.arrRef spec2 w) := by
  dsimp only [dat]
theorem dat_q (w : Fin cfg2.W) : (dat V c).q w = fullShare := rfl
theorem dat_owed (t) : (dat V c).owed t = 0 := rfl
theorem dat_recorded : (dat V c).recorded 0 = Set.univ := rfl

theorem after6 (t : Fin cfg2.N) : (dat V c).after 6 t = k2_pay4 (acc V t.val t.isLt).1 := by dsimp only [dat]
theorem after7 (t : Fin cfg2.N) : (dat V c).after 7 t = k2_pay5 (acc V t.val t.isLt).2 := by dsimp only [dat]

variable (t : Fin cfg2.N)

theorem before0 (d) : (dat V c).before 0 t d = iblk V 0 t :=
  (dat V c).before_in_eq_fetched 0 rfl (fun _ => rfl) (fun _ _ _ => rfl) (fun _ => rfl) t d
theorem before1 (d) : (dat V c).before 1 t d = iblk V 1 t :=
  (dat V c).before_in_eq_fetched 1 rfl (fun _ => rfl) (fun _ _ _ => rfl) (fun _ => rfl) t d
theorem before2 (d) : (dat V c).before 2 t d = iblk V 2 t :=
  (dat V c).before_in_eq_fetched 2 rfl (fun _ => rfl) (fun _ _ _ => rfl) (fun _ => rfl) t d
theorem before3 (d) : (dat V c).before 3 t d = iblk V 3 t :=
  (dat V c).before_in_eq_fetched 3 rfl (fun _ => rfl) (fun _ _ _ => rfl) (fun _ => rfl) t d
theorem before4 (d) : (dat V c).before 4 t d = iblk V 4 t :=
  (dat V c).before_in_eq_fetched 4 rfl (fun _ => rfl) (fun _ _ _ => rfl) (fun _ => rfl) t d
theorem before5 (d) : (dat V c).before 5 t d = iblk V 5 t :=
  (dat V c).before_in_eq_fetched 5 rfl (fun _ => rfl) (fun _ _ _ => rfl) (fun _ => rfl) t d

-- The inputs come back as they were; the accumulators restart from zero at a reset point and carry on otherwise; the outputs are written at a store point only.
theorem sound_body :
    iprop(Phi V c t.val (Nat.le_of_lt t.isLt) ∗ (dat V c).owesAt () t.castSucc
    ∗ (∃ d, owns c (ms0 t) fullShare ((dat V c).before 0 t d))
    ∗ (∃ d, owns c (ms1 t) fullShare ((dat V c).before 1 t d))
    ∗ (∃ d, owns c (ms2 t) fullShare ((dat V c).before 2 t d))
    ∗ (∃ d, owns c (ms3 t) fullShare ((dat V c).before 3 t d))
    ∗ (∃ d, owns c (ms4 t) fullShare ((dat V c).before 4 t d))
    ∗ (∃ d, owns c (ms5 t) fullShare ((dat V c).before 5 t d))
    ∗ (∃ d, owns c (ms6 t) fullShare ((dat V c).before 6 t d))
    ∗ (∃ d, owns c (ms7 t) fullShare ((dat V c).before 7 t d)))
      ⊢ wp frame (wpE (defs₀ (F := F)) Variants.none c none) Set.univ (bodyAt2 t) (fun _ => iprop(Phi V c (t.val + 1) t.isLt ∗ (dat V c).owesAt () t.castSucc
    ∗ owns c (ms0 t) fullShare (iblk V 0 t) ∗ owns c (ms1 t) fullShare (iblk V 1 t)
    ∗ owns c (ms2 t) fullShare (iblk V 2 t) ∗ owns c (ms3 t) fullShare (iblk V 3 t)
    ∗ owns c (ms4 t) fullShare (iblk V 4 t) ∗ owns c (ms5 t) fullShare (iblk V 5 t)
    ∗ (dat V c).leavesExact 6 t ∗ (dat V c).leavesExact 7 t)) := by
  unfold bodyAt2
  simp only [before0, before1, before2, before3, before4, before5]
  rw [Phi_succ]
  have hp := Nat.lt_of_le_of_lt (Nat.sub_le t.val 1) t.isLt
  by_cases h0 : t.val % 128 = 0
  · have h1 : ¬t.val % 128 = 127 := by omega
    obtain ⟨⟨i6, f6⟩, i7, f7⟩ := idleOut t h1
    rw [Dat.leavesExact_idle (dat V c) 6 t i6 f6, Dat.leavesExact_idle (dat V c) 7 t i7 f7, acc_reset V t h0]
    unfold step zeroAcc; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi_forget V c t.val (Nat.le_of_lt t.isLt)) $$ HΦ
    icases HΦ' with ⟨⟨HS, HQ⟩, Hr, Hg⟩
    iapply (runA c (grid2.coords t) (ms0 t) (hs0 t) (ms1 t) (hs1 t) (ms2 t) (hs2 t) (ms3 t) (hs3 t) (ms4 t) (hs4 t) (ms5 t) (hs5 t) (ms6 t) (hs6 t) (ms7 t) (hs7 t) accS (Memref.isWhole_whole _) accQ (Memref.isWhole_whole _) ((hcondReset t).mpr h0) (mt (hcondStore t).mp h1) (b0 V t) (b1 V t) (b2 V t) (b3 V t) (b4 V t) (b5 V t) _ _ Set.univ _)
    iframe H0 H1 H2 H3 H4 H5 H6 H7 HS HQ
    iintro ⟨H0, H1, H2, H3, H4, H5, H6, H7, HS, HQ⟩
    iframe Ho H0 H1 H2 H3 H4 H5 Hr Hg HS HQ
    isplitl [H6]; · iexists _; iexact H6
    iexists _; iexact H7
  · rw [Phi_pos V c _ _ (fun e => h0 (by rw [e]))]
    by_cases h1 : t.val % 128 = 127
    · obtain ⟨l6, l7⟩ := liveOut t h1
      rw [show (dat V c).leavesExact 6 t = owns c (ms6 t) fullShare ((dat V c).after 6 t) from by
          unfold Dat.leavesExact; rw [l6], after6,
        show (dat V c).leavesExact 7 t = owns c (ms7 t) fullShare ((dat V c).after 7 t) from by
          unfold Dat.leavesExact; rw [l7], after7, acc_carry V t h0]
      unfold step; dsimp only
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid2.coords t) (ms0 t) (hs0 t) (ms1 t) (hs1 t) (ms2 t) (hs2 t) (ms3 t) (hs3 t) (ms4 t) (hs4 t) (ms5 t) (hs5 t) (ms6 t) (hs6 t) (ms7 t) (hs7 t) accS (Memref.isWhole_whole _) accQ (Memref.isWhole_whole _) (mt (hcondReset t).mp h0) ((hcondStore t).mpr h1) (b0 V t) (b1 V t) (b2 V t) (b3 V t) (b4 V t) (b5 V t) (acc V (t.val - 1) hp).1 (acc V (t.val - 1) hp).2 Set.univ _)
      iframe H0 H1 H2 H3 H4 H5 HS HQ
      isplitl [H6]; · iexists _; iexact H6
      isplitl [H7]; · iexists _; iexact H7
      iintro ⟨H0, H1, H2, H3, H4, H5, H6, H7, HS, HQ⟩
      iframe Ho H0 H1 H2 H3 H4 H5 H6 H7 Hr Hg HS HQ
    · obtain ⟨⟨i6, f6⟩, i7, f7⟩ := idleOut t h1
      rw [Dat.leavesExact_idle (dat V c) 6 t i6 f6, Dat.leavesExact_idle (dat V c) 7 t i7 f7, acc_carry V t h0]
      unfold step; dsimp only
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid2.coords t) (ms0 t) (hs0 t) (ms1 t) (hs1 t) (ms2 t) (hs2 t) (ms3 t) (hs3 t) (ms4 t) (hs4 t) (ms5 t) (hs5 t) (ms6 t) (hs6 t) (ms7 t) (hs7 t) accS (Memref.isWhole_whole _) accQ (Memref.isWhole_whole _) (mt (hcondReset t).mp h0) (mt (hcondStore t).mp h1) (b0 V t) (b1 V t) (b2 V t) (b3 V t) (b4 V t) (b5 V t) (acc V (t.val - 1) hp).1 (acc V (t.val - 1) hp).2 _ _ Set.univ _)
      iframe H0 H1 H2 H3 H4 H5 H6 H7 HS HQ
      iintro ⟨H0, H1, H2, H3, H4, H5, H6, H7, HS, HQ⟩
      iframe Ho H0 H1 H2 H3 H4 H5 Hr Hg HS HQ
      isplitl [H6]; · iexists _; iexact H6
      iexists _; iexact H7

theorem body : Pipeline.BodyObligation (dat V c) (defs₀ (F := F)) Variants.none () Set.univ := fun t => by
  rw [bigSep_W2, bigSep_W2]
  exact sound_body V c t

theorem phi_in :
    (iprop((∃ r, prngReg c r) ∗ Pipeline.scopedRest (Ix := Unit) (Name := ℕ) (U := UR sig nD τ) (Lvl := ℕ) (Val := Elt F) spec2 c) : sProp 𝕄)
      ⊢ (dat V c).Φ 0 :=
  Idealize.SL.BI.Entails.refl _

theorem phi_out :
    (dat V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [show (dat V c).Φ (Fin.last cfg2.N) = Phi V c (Fin.last cfg2.N).val (Nat.le_of_lt_succ (Fin.last cfg2.N).isLt) from rfl]
  refine (Phi_forget V c _ _).trans ?_
  rw [scopedRest_eq]
  iintro ⟨Ha, Hr, Hg⟩
  iframe Ha Hr Hg

end Cert.Kernel.R2

end
-- ==== Proof.K.R3.lean ====
import proofs.«418526_j20469814133046_3_alg».proof.Proof.KLaunch
import proofs.«418526_j20469814133046_3_alg».proof.Proof.Gen.Kernel.Skeleton
import proofs.«418526_j20469814133046_3_alg».proof.Proof.Gen.Kernel.Points
import proofs.«418526_j20469814133046_3_alg».proof.Proof.LibRegionRecord
import Idealize.ShloMosaic.Lib.Pipeline.FrameBody
import Idealize.ShloMosaic.Lib.Pipeline.Value
import Idealize.ShloMosaic.Lib.Ring
import Idealize.ShloMosaic.Lib.Tactic

noncomputable section

namespace Cert.Kernel.R3

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk (V : Valuation τ sig (Elt F)) (w : Fin cfg3.W) (t : Fin cfg3.N) :
    ((cfg3.win w).xblock (cfg3.grid.coords t)).Idx → Elt F (cfg3.win w).elt :=
  ((cfg3.win w).blk t).view.read (Elt F) (V (Pipeline.arrRef spec3 w))

def dat (V : Valuation τ sig (Elt F)) (c : Dev nD) : Pipeline.Dat τ (Elt F) Unit ℕ (UR sig nD τ) ℕ cfg3 c where
  A w := V (Pipeline.arrRef spec3 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => iblk V 7 t
    | ⟨8, _⟩ => k3_pay1 (k3_pay2 (iblk V 0 t) (iblk V 3 t) (iblk V 5 t) (iblk V 1 t) (iblk V 4 t) (iblk V 2 t)) (iblk V 6 t) (iblk V 7 t)
  Φ _ := Pipeline.ΦA spec3 c
  q _ := fullShare
  owed _ := 0

variable (V : Valuation τ sig (Elt F)) (c : Dev nD)

theorem dat_A (w : Fin cfg3.W) : (dat V c).A w = V (Pipeline.arrRef spec3 w) := rfl
theorem dat_q (w : Fin cfg3.W) : (dat V c).q w = fullShare := rfl
theorem dat_owed (t) : (dat V c).owed t = 0 := rfl
theorem dat_recorded : (dat V c).recorded 0 = Set.univ := rfl

theorem after_8 (t : Fin cfg3.N) :
    (dat V c).after 8 t = k3_pay1 (k3_pay2 (iblk V 0 t) (iblk V 3 t) (iblk V 5 t) (iblk V 1 t) (iblk V 4 t) (iblk V 2 t)) (iblk V 6 t) (iblk V 7 t) := by dsimp only [dat]

theorem phi_in : (iprop((∃ r, prngReg c r) ∗ Pipeline.scopedRest (Ix := Unit) (Name := ℕ) (U := UR sig nD τ) (Lvl := ℕ) (Val := Elt F) spec3 c) : sProp 𝕄) ⊢ (dat V c).Φ 0 :=
  Cert.LibRegionRecord.ΦA_in spec3 c

theorem phi_out : (dat V c).Φ (Fin.last cfg3.N) ⊢ (iprop((∃ r, prngReg c r) ∗ Pipeline.scopedRest (Ix := Unit) (Name := ℕ) (U := UR sig nD τ) (Lvl := ℕ) (Val := Elt F) spec3 c) : sProp 𝕄) :=
  Cert.LibRegionRecord.ΦA_out spec3 c

theorem before_in (t : Fin cfg3.N) :
    (∀ d, (dat V c).before 0 t d = iblk V 0 t) ∧ (∀ d, (dat V c).before 1 t d = iblk V 1 t) ∧ (∀ d, (dat V c).before 2 t d = iblk V 2 t) ∧ (∀ d, (dat V c).before 3 t d = iblk V 3 t) ∧ (∀ d, (dat V c).before 4 t d = iblk V 4 t) ∧ (∀ d, (dat V c).before 5 t d = iblk V 5 t) ∧ (∀ d, (dat V c).before 6 t d = iblk V 6 t) ∧ (∀ d, (dat V c).before 7 t d = iblk V 7 t) := by
  refine ⟨?_, ?_, ?_, ?_, ?_, ?_, ?_, ?_⟩ <;> exact fun d =>
    ((dat V c).before_in_eq_fetched _ rfl (fun _ => rfl) (fun _ _ _ => rfl) (fun _ => rfl) t d).trans rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The body reads its eight inputs whole and stores its value of them over the whole output. -/
theorem sound_kernel (E : Set ℕ) (i : grid3.Coords) {a1 a2 a3 a4 a5 a6 a7 a8 a9} (h1 h2 h3 h4 h5 h6 h7 h8 h9) (x0 x1 x2 x3 x4 x5 x6 x7) (K : PUnit → sProp 𝕄) :
    let I : sProp 𝕄 := iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7)
    iprop(I ∗ (∃ d, owns (c : Thread nD τ) a9 fullShare d) ∗ ((I ∗ owns (c : Thread nD τ) a9 fullShare (k3_pay1 (k3_pay2 x0 x3 x5 x1 x4 x2) x6 x7)) -∗ K ⟨⟩))
      ⊢ wp frame (wpE (defs₀ (F := F)) Variants.none c none) E (cc3__nei_full_kernel i a1 h1 a2 h2 a3 h3 a4 h4 a5 h5 a6 h6 a7 h7 a8 h8 a9 h9) K := by
  simp only [cc3__nei_full_kernel_eq_skeleton]; unfold cc3__nei_full_kernel_skel
  simp only [k3_part1_eq_skeleton]; unfold k3_part1_skel owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, %f7, %e7, H7⟩, ⟨%d, %f8, -, H8⟩, Hk⟩
  subst e0 e1 e2 e3 e4 e5 e6 e7
  sl_exec
  sl_step
  iapply Hk
  isplitr [H8]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists f7; isplitr; · ipureintro; rfl
    iexact H7
  iexists _; isplitr
  swap; · iexact H8
  ipureintro
  rw [View.read_writes_eq_canon _ _ _ (View.cover_of_tiled _ S1x2048x256.size (by rfl)), View.canon_unit_zero hz3]
  simp only [View.readAt_eq_ld, View.ld_unit_zero (S := S1x128x64) hz3, View.ld_unit_zero (S := S1x256x32) hz3,
    View.ld_unit_zero (S := S1x2048x2) hz3, View.ld_unit_zero (S := S64x256) hz2, View.ld_unit_zero (S := S32x256) hz2,
    View.ld_unit_zero (S := S1x256) hz2]

/-- At every point the inputs hold their blocks, so the triple applies; the invariant and what is owed pass through unread. -/
theorem body : Pipeline.BodyObligation (dat V c) (defs₀ (F := F)) Variants.none () Set.univ := fun t => by
  obtain ⟨b0, b1, b2, b3, b4, b5, b6, b7⟩ := before_in V c t
  rw [bigSep_W3, bigSep_W3]
  simp only [b0, b1, b2, b3, b4, b5, b6, b7, (fun _ _ => rfl : ∀ w i, cfg3.idle w i = false)]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  sl_whnfR [defs₀, Defs.onTc]
  iapply (sound_kernel c Set.univ (grid3.coords t) _ _ _ _ _ _ _ _ _ (iblk V 0 t) (iblk V 1 t) (iblk V 2 t) (iblk V 3 t) (iblk V 4 t) (iblk V 5 t) (iblk V 6 t) (iblk V 7 t) _)
  iframe H0 H1 H2 H3 H4 H5 H6 H7
  isplitl [H8]; · iexists _; iexact H8
  iintro ⟨⟨H0, H1, H2, H3, H4, H5, H6, H7⟩, H8⟩
  iframe HΦ H0 H1 H2 H3 H4 H5 H6 H7 H8
  iexact Ho

end Cert.Kernel.R3

end
-- ==== Proof.K.HostW.lean ====
import proofs.«418526_j20469814133046_3_alg».proof.Proof.KLaunch

noncomputable section

namespace Cert.Kernel.GenP

open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
-- each operation of the stretch writes one buffer, and that buffer is listed
theorem hostOps0_writes : (hostOps0 : List (HloOp τ sig (Elt F))).Forall fun op =>
    op.writes ⊆ (hostOps0_W.map (Proc.devRef (τ := τ) .tc)).toFinset := by
  simp only [List.Forall]; repeat' constructor
  all_goals exact Finset.singleton_subset_iff.mpr (List.mem_toFinset.mpr (List.mem_map_of_mem (by decide)))
theorem hostOps1_fresh : (hostOps1 : List (HloOp τ sig (Elt F))).Forall fun op => op.fresh = ∅ := by
  simp only [List.Forall]; repeat' constructor
abbrev hostOps1_W : List (Ref sig .tc) := [main_cst, main_v5, main_v6, main_cst_0, main_v7, main_v8, main_v9, main_v10, main_v11, main_cst_1, main_v12, main_v13, main_v14, main_v15, main_v16, main_v17, main_v18]
theorem hostOps1_writes : (hostOps1 : List (HloOp τ sig (Elt F))).Forall fun op =>
    op.writes ⊆ (hostOps1_W.map (Proc.devRef (τ := τ) .tc)).toFinset := by
  simp only [List.Forall]; repeat' constructor
  all_goals exact Finset.singleton_subset_iff.mpr (List.mem_toFinset.mpr (List.mem_map_of_mem (by decide)))
theorem hostOps2_fresh : (hostOps2 : List (HloOp τ sig (Elt F))).Forall fun op => op.fresh = ∅ := by
  simp only [List.Forall]; repeat' constructor
abbrev hostOps2_W : List (Ref sig .tc) := [main_v20, main_v21, main_v22, main_v23, main_v24, main_v25, main_v26, main_v27, main_v28, main_v29, main_v30, main_v31, main_v32]
theorem hostOps2_writes : (hostOps2 : List (HloOp τ sig (Elt F))).Forall fun op =>
    op.writes ⊆ (hostOps2_W.map (Proc.devRef (τ := τ) .tc)).toFinset := by
  simp only [List.Forall]; repeat' constructor
  all_goals exact Finset.singleton_subset_iff.mpr (List.mem_toFinset.mpr (List.mem_map_of_mem (by decide)))
theorem hostOps3_fresh : (hostOps3 : List (HloOp τ sig (Elt F))).Forall fun op => op.fresh = ∅ := by
  simp only [List.Forall]; repeat' constructor
abbrev hostOps3_W : List (Ref sig .tc) := [main_cst_2, main_v34, main_cst_3, main_v35, main_cst_4, main_v36, main_v37, main_cst_5, main_v38, main_v39, main_v40, main_v41, main_v42, main_cst_6, main_v43, main_v44, main_v45, main_v46, main_v47, main_v48, main_v49]
theorem hostOps3_writes : (hostOps3 : List (HloOp τ sig (Elt F))).Forall fun op =>
    op.writes ⊆ (hostOps3_W.map (Proc.devRef (τ := τ) .tc)).toFinset := by
  simp only [List.Forall]; repeat' constructor
  all_goals exact Finset.singleton_subset_iff.mpr (List.mem_toFinset.mpr (List.mem_map_of_mem (by decide)))
theorem hostOps4_fresh : (hostOps4 : List (HloOp τ sig (Elt F))).Forall fun op => op.fresh = ∅ := by
  simp only [List.Forall]; repeat' constructor
abbrev hostOps4_W : List (Ref sig .tc) := [main_v51]
theorem hostOps4_writes : (hostOps4 : List (HloOp τ sig (Elt F))).Forall fun op =>
    op.writes ⊆ (hostOps4_W.map (Proc.devRef (τ := τ) .tc)).toFinset := by
  simp only [List.Forall]; repeat' constructor
  all_goals exact Finset.singleton_subset_iff.mpr (List.mem_toFinset.mpr (List.mem_map_of_mem (by decide)))

end Cert.Kernel.GenP

end
-- ==== Proof.K.Program.lean ====
import proofs.«418526_j20469814133046_3_alg».proof.Proof.K.R0
import proofs.«418526_j20469814133046_3_alg».proof.Proof.K.R1
import proofs.«418526_j20469814133046_3_alg».proof.Proof.K.R2
import proofs.«418526_j20469814133046_3_alg».proof.Proof.K.R3
import proofs.«418526_j20469814133046_3_alg».proof.Proof.K.HostW
import proofs.«418526_j20469814133046_3_alg».proof.Proof.LibRegionRecord

noncomputable section

namespace Cert.Kernel.Prog

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)

abbrev W1 (c : Dev nD) : Valuation τ sig (Elt F) := StableHlo.after hostOps0 (W0 m c)

def W2 (c : Dev nD) : Valuation τ sig (Elt F) :=
  Pipeline.withArrays spec0 c (W1 m c) fun w => (R0.dat (W1 m c) c).arrAt w cfg0.N

abbrev W3 (c : Dev nD) : Valuation τ sig (Elt F) := StableHlo.after hostOps1 (W2 m c)

def W4 (c : Dev nD) : Valuation τ sig (Elt F) :=
  Pipeline.withArrays spec1 c (W3 m c) fun w => (R1.dat (W3 m c) c).arrAt w cfg1.N

abbrev W5 (c : Dev nD) : Valuation τ sig (Elt F) := StableHlo.after hostOps2 (W4 m c)

def W6 (c : Dev nD) : Valuation τ sig (Elt F) :=
  Pipeline.withArrays spec2 c (W5 m c) fun w => (R2.dat (W5 m c) c).arrAt w cfg2.N

abbrev W7 (c : Dev nD) : Valuation τ sig (Elt F) := StableHlo.after hostOps3 (W6 m c)

def W8 (c : Dev nD) : Valuation τ sig (Elt F) :=
  Pipeline.withArrays spec3 c (W7 m c) fun w => (R3.dat (W7 m c) c).arrAt w cfg3.N

abbrev W9 (c : Dev nD) : Valuation τ sig (Elt F) := StableHlo.after hostOps4 (W8 m c)

theorem W2_arr (c : Dev nD) (w : Fin cfg0.W) :
    W2 m c (Proc.devRef .tc (Pipeline.arrRef spec0 w)) = (R0.dat (W1 m c) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (R1.dat (W3 m c) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (R2.dat (W5 m c) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W8_arr (c : Dev nD) (w : Fin cfg3.W) :
    W8 m c (Proc.devRef .tc (Pipeline.arrRef spec3 w)) = (R3.dat (W7 m c) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => R0.dat (W1 m c) c
  | ⟨1, _⟩ => fun c => R1.dat (W3 m c) c
  | ⟨2, _⟩ => fun c => R2.dat (W5 m c) c
  | ⟨3, _⟩ => fun c => R3.dat (W7 m c) c

abbrev L : GSem nD τ sig → Finset Unit := fun _ => ∅
abbrev lv : GSem nD τ sig → Unit → ℕ := fun _ _ => 0

set_option backward.isDefEq.respectTransparency.types false in

def reg0 : RegionSeg (pcfgs (F := F)) adm (pdats m) () defs₀ Variants.none L lv 0 :=
  Cert.LibRegionRecord.regionRecord (pcfgs (F := F)) adm (pdats m) () defs₀ Variants.none L lv 0
    launch0.win.to₀ launch0.win launch0.block_pos launch0.arr_whole launch0.stage_whole
    (by dsimp only [pcfgs]; exact Fin.isEmpty')
    (fun c w => R0.dat_q (W1 m c) c w) (fun c t => R0.dat_owed (W1 m c) c t) (fun c => R0.dat_recorded (W1 m c) c)
    (fun c => R0.body (W1 m c) c)
    (fun c => W1 m c) (fun c => W2 m c)
    (fun c w => R0.dat_A (W1 m c) c w)
    (fun c w => (W2_arr m c w).symm)
    (fun c b hb => W2_of_ne m c b fun w e => hb (Finset.mem_image.mpr ⟨w, Finset.mem_univ _, e⟩))
    (fun c => R0.phi_in (W1 m c) c) (fun c => R0.phi_out (W1 m c) c)

set_option backward.isDefEq.respectTransparency.types false in

def reg1 : RegionSeg (pcfgs (F := F)) adm (pdats m) () defs₀ Variants.none L lv 1 :=
  Cert.LibRegionRecord.regionRecord (pcfgs (F := F)) adm (pdats m) () defs₀ Variants.none L lv 1
    launch1.win.to₀ launch1.win launch1.block_pos launch1.arr_whole launch1.stage_whole
    (by dsimp only [pcfgs]; exact Fin.isEmpty')
    (fun c w => R1.dat_q (W3 m c) c w) (fun c t => R1.dat_owed (W3 m c) c t) (fun c => R1.dat_recorded (W3 m c) c)
    (fun c => R1.body (W3 m c) c)
    (fun c => W3 m c) (fun c => W4 m c)
    (fun c w => R1.dat_A (W3 m c) c w)
    (fun c w => (W4_arr m c w).symm)
    (fun c b hb => W4_of_ne m c b fun w e => hb (Finset.mem_image.mpr ⟨w, Finset.mem_univ _, e⟩))
    (fun c => R1.phi_in (W3 m c) c) (fun c => R1.phi_out (W3 m c) c)

set_option backward.isDefEq.respectTransparency.types false in

def reg2 : RegionSeg (pcfgs (F := F)) adm (pdats m) () defs₀ Variants.none L lv 2 :=
  Cert.LibRegionRecord.regionRecord (pcfgs (F := F)) adm (pdats m) () defs₀ Variants.none L lv 2
    launch2.win.to₀ launch2.win launch2.block_pos launch2.arr_whole launch2.stage_whole
    (by dsimp only [pcfgs]; exact Fin.isEmpty')
    (fun c w => R2.dat_q (W5 m c) c w) (fun c t => R2.dat_owed (W5 m c) c t) (fun c => R2.dat_recorded (W5 m c) c)
    (fun c => R2.body (W5 m c) c)
    (fun c => W5 m c) (fun c => W6 m c)
    (fun c w => R2.dat_A (W5 m c) c w)
    (fun c w => (W6_arr m c w).symm)
    (fun c b hb => W6_of_ne m c b fun w e => hb (Finset.mem_image.mpr ⟨w, Finset.mem_univ _, e⟩))
    (fun c => R2.phi_in (W5 m c) c) (fun c => R2.phi_out (W5 m c) c)

set_option backward.isDefEq.respectTransparency.types false in

def reg3 : RegionSeg (pcfgs (F := F)) adm (pdats m) () defs₀ Variants.none L lv 3 :=
  Cert.LibRegionRecord.regionRecord (pcfgs (F := F)) adm (pdats m) () defs₀ Variants.none L lv 3
    launch3.win.to₀ launch3.win launch3.block_pos launch3.arr_whole launch3.stage_whole
    (by dsimp only [pcfgs]; exact Fin.isEmpty')
    (fun c w => R3.dat_q (W7 m c) c w) (fun c t => R3.dat_owed (W7 m c) c t) (fun c => R3.dat_recorded (W7 m c) c)
    (fun c => R3.body (W7 m c) c)
    (fun c => W7 m c) (fun c => W8 m c)
    (fun c w => R3.dat_A (W7 m c) c w)
    (fun c w => (W8_arr m c w).symm)
    (fun c b hb => W8_of_ne m c b fun w e => hb (Finset.mem_image.mpr ⟨w, Finset.mem_univ _, e⟩))
    (fun c => R3.phi_in (W7 m c) c) (fun c => R3.phi_out (W7 m c) c)

abbrev rest (c : Dev nD) : sProp 𝕄 := Cert.LibRegionRecord.rest (Ix := Unit) (Name := ℕ) (U := UR sig nD τ) (Lvl := ℕ) (Val := Elt F) (τ := τ) (sig := sig) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W rest

abbrev segs : List (Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem last_chain (c : Dev nD) :
    (iprop(StableHlo.held (c : Thread nD τ) (Pipeline.ucRefs τ sig) (W9 m c) ∗ rest c) : sProp 𝕄)
      ⊢ iprop(iprop(StableHlo.held (c : Thread nD τ) (Pipeline.ucRefs τ sig) (W9 m c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

theorem main_run (c : Dev nD) : main (F := F) c = Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) :=
  Pipeline.θ_run_regions_kit (pcfgs (F := F)) adm (pdats m) () cellOf_inj emb₁ defs₀ Variants.none L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem keep0 (c : Dev nD) (b : Ref sig .tc) (h : b ∉ hostOps0_W) : W1 m c b = W0 m c b :=
  StableHlo.after_of_writes_sub hostOps0 _ hostOps0_writes h
theorem keep1 (c : Dev nD) (b : Ref sig .tc) (h : b ∉ hostOps1_W) : W3 m c b = W2 m c b :=
  StableHlo.after_of_writes_sub hostOps1 _ hostOps1_writes h
theorem keep2 (c : Dev nD) (b : Ref sig .tc) (h : b ∉ hostOps2_W) : W5 m c b = W4 m c b :=
  StableHlo.after_of_writes_sub hostOps2 _ hostOps2_writes h
theorem keep3 (c : Dev nD) (b : Ref sig .tc) (h : b ∉ hostOps3_W) : W7 m c b = W6 m c b :=
  StableHlo.after_of_writes_sub hostOps3 _ hostOps3_writes h
theorem keep4 (c : Dev nD) (b : Ref sig .tc) (h : b ∉ hostOps4_W) : W9 m c b = W8 m c b :=
  StableHlo.after_of_writes_sub hostOps4 _ hostOps4_writes h

theorem W2_in (c : Dev nD) (w : Fin cfg0.W) (hin : (cfg0.win w).isOut = false) :
    W2 m c (Pipeline.arrRef spec0 w) = W1 m c (Pipeline.arrRef spec0 w) :=
  (W2_arr m c w).trans (((R0.dat (W1 m c) c).arrAt_in w hin _).trans (R0.dat_A (W1 m c) c w))
theorem W6_in (c : Dev nD) (w : Fin cfg2.W) (hin : (cfg2.win w).isOut = false) :
    W6 m c (Pipeline.arrRef spec2 w) = W5 m c (Pipeline.arrRef spec2 w) :=
  (W6_arr m c w).trans (((R2.dat (W5 m c) c).arrAt_in w hin _).trans (R2.dat_A (W5 m c) c w))
theorem W8_in (c : Dev nD) (w : Fin cfg3.W) (hin : (cfg3.win w).isOut = false) :
    W8 m c (Pipeline.arrRef spec3 w) = W7 m c (Pipeline.arrRef spec3 w) :=
  (W8_arr m c w).trans (((R3.dat (W7 m c) c).arrAt_in w hin _).trans (R3.dat_A (W7 m c) c w))

theorem W9_arg (c : Dev nD) (b : Ref sig .tc) (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m c b = m ((c : Thread nD τ).loc b) :=
  (keep4 m c b h4).trans <| (W8_of_ne m c b a3).trans <| (keep3 m c b h3).trans <| (W6_of_ne m c b a2).trans <| (keep2 m c b h2).trans <|
    (W4_of_ne m c b a1).trans <| (keep1 m c b h1).trans <| (W2_of_ne m c b a0).trans <| (keep0 m c b h0).trans rfl

theorem W9_main_arg0 (c : Dev nD) : W9 m c main_arg0 = m ((c : Thread nD τ).loc main_arg0) :=
  (keep4 m c main_arg0 (by decide)).trans <| (W8_in m c 0 rfl).trans <| (keep3 m c main_arg0 (by decide)).trans <| (W6_in m c 0 rfl).trans <|
    (keep2 m c main_arg0 (by decide)).trans <| (W4_of_ne m c main_arg0 (by decide)).trans <| (keep1 m c main_arg0 (by decide)).trans <|
    (W2_of_ne m c main_arg0 (by decide)).trans <| (keep0 m c main_arg0 (by decide)).trans rfl
theorem W9_main_arg1 (c : Dev nD) : W9 m c main_arg1 = m ((c : Thread nD τ).loc main_arg1) :=
  (keep4 m c main_arg1 (by decide)).trans <| (W8_in m c 1 rfl).trans <| (keep3 m c main_arg1 (by decide)).trans <| (W6_in m c 1 rfl).trans <|
    (keep2 m c main_arg1 (by decide)).trans <| (W4_of_ne m c main_arg1 (by decide)).trans <| (keep1 m c main_arg1 (by decide)).trans <|
    (W2_of_ne m c main_arg1 (by decide)).trans <| (keep0 m c main_arg1 (by decide)).trans rfl
theorem W9_main_arg2 (c : Dev nD) : W9 m c main_arg2 = m ((c : Thread nD τ).loc main_arg2) :=
  W9_arg m c main_arg2 (by decide) (by decide) (by decide) (by decide) (by decide) (by decide) (by decide) (by decide) (by decide)
theorem W9_main_arg3 (c : Dev nD) : W9 m c main_arg3 = m ((c : Thread nD τ).loc main_arg3) :=
  W9_arg m c main_arg3 (by decide) (by decide) (by decide) (by decide) (by decide) (by decide) (by decide) (by decide) (by decide)
theorem W9_main_arg4 (c : Dev nD) : W9 m c main_arg4 = m ((c : Thread nD τ).loc main_arg4) :=
  W9_arg m c main_arg4 (by decide) (by decide) (by decide) (by decide) (by decide) (by decide) (by decide) (by decide) (by decide)
theorem W9_main_arg5 (c : Dev nD) : W9 m c main_arg5 = m ((c : Thread nD τ).loc main_arg5) :=
  W9_arg m c main_arg5 (by decide) (by decide) (by decide) (by decide) (by decide) (by decide) (by decide) (by decide) (by decide)
theorem W9_main_arg6 (c : Dev nD) : W9 m c main_arg6 = m ((c : Thread nD τ).loc main_arg6) :=
  W9_arg m c main_arg6 (by decide) (by decide) (by decide) (by decide) (by decide) (by decide) (by decide) (by decide) (by decide)
theorem W9_main_arg7 (c : Dev nD) : W9 m c main_arg7 = m ((c : Thread nD τ).loc main_arg7) :=
  W9_arg m c main_arg7 (by decide) (by decide) (by decide) (by decide) (by decide) (by decide) (by decide) (by decide) (by decide)
theorem W9_main_arg8 (c : Dev nD) : W9 m c main_arg8 = m ((c : Thread nD τ).loc main_arg8) :=
  W9_arg m c main_arg8 (by decide) (by decide) (by decide) (by decide) (by decide) (by decide) (by decide) (by decide) (by decide)
theorem W9_main_arg9 (c : Dev nD) : W9 m c main_arg9 = m ((c : Thread nD τ).loc main_arg9) :=
  W9_arg m c main_arg9 (by decide) (by decide) (by decide) (by decide) (by decide) (by decide) (by decide) (by decide) (by decide)
theorem W9_main_arg10 (c : Dev nD) : W9 m c main_arg10 = m ((c : Thread nD τ).loc main_arg10) :=
  W9_arg m c main_arg10 (by decide) (by decide) (by decide) (by decide) (by decide) (by decide) (by decide) (by decide) (by decide)
theorem W9_main_arg11 (c : Dev nD) : W9 m c main_arg11 = m ((c : Thread nD τ).loc main_arg11) :=
  W9_arg m c main_arg11 (by decide) (by decide) (by decide) (by decide) (by decide) (by decide) (by decide) (by decide) (by decide)

-- the twelve arguments hold what they held at launch
abbrev Kept (mem : (ℓ : Loc nD τ sig) → Buf (Elt F) ℓ) (c : Dev nD) : Prop :=
  mem ((c.tc : Thread nD τ).loc main_arg0) = m ((c.tc : Thread nD τ).loc main_arg0) ∧
  mem ((c.tc : Thread nD τ).loc main_arg1) = m ((c.tc : Thread nD τ).loc main_arg1) ∧
  mem ((c.tc : Thread nD τ).loc main_arg2) = m ((c.tc : Thread nD τ).loc main_arg2) ∧
  mem ((c.tc : Thread nD τ).loc main_arg3) = m ((c.tc : Thread nD τ).loc main_arg3) ∧
  mem ((c.tc : Thread nD τ).loc main_arg4) = m ((c.tc : Thread nD τ).loc main_arg4) ∧
  mem ((c.tc : Thread nD τ).loc main_arg5) = m ((c.tc : Thread nD τ).loc main_arg5) ∧
  mem ((c.tc : Thread nD τ).loc main_arg6) = m ((c.tc : Thread nD τ).loc main_arg6) ∧
  mem ((c.tc : Thread nD τ).loc main_arg7) = m ((c.tc : Thread nD τ).loc main_arg7) ∧
  mem ((c.tc : Thread nD τ).loc main_arg8) = m ((c.tc : Thread nD τ).loc main_arg8) ∧
  mem ((c.tc : Thread nD τ).loc main_arg9) = m ((c.tc : Thread nD τ).loc main_arg9) ∧
  mem ((c.tc : Thread nD τ).loc main_arg10) = m ((c.tc : Thread nD τ).loc main_arg10) ∧
  mem ((c.tc : Thread nD τ).loc main_arg11) = m ((c.tc : Thread nD τ).loc main_arg11)

-- the run with the two results named and every argument as launched: no item writes an argument
theorem run_named : θ_run defs (onTc (τ := τ) (main (F := F))) ⟨m, fun _ => 0, ρ⟩ (fun r => ∀ c : Dev nD,
      r.2.mem ((c.tc : Thread nD τ).loc main_v20) = W9 m c main_v20 ∧ r.2.mem ((c.tc : Thread nD τ).loc main_v51) = W9 m c main_v51 ∧ Kept m r.2.mem c) :=
  (θ_run defs _ _).mono (fun r h c =>
    ⟨h c _ (mem_uc main_v20 (by decide)), h c _ (mem_uc main_v51 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c)⟩)
    (run_all m ρ)

theorem frame : θ_run defs (onTc (τ := τ) (main (F := F))) ⟨m, fun _ => 0, ρ⟩ (fun r => ∀ c : Dev nD, Kept m r.2.mem c) :=
  (θ_run defs _ _).mono (fun r h c => (h c).2.2) (run_named m ρ)

end Cert.Kernel.Prog

end
-- ==== Proof.KI.R0.lean ====
import proofs.«418526_j20469814133046_3_alg».proof.Proof.KILaunch
import proofs.«418526_j20469814133046_3_alg».proof.Proof.Gen.KernelIdeal.Skeleton
import proofs.«418526_j20469814133046_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1

/-- The running sums are zeroed at point 0 only and copied out at point 7 only. -/
theorem hcond : ∀ t : Fin cfg0.N, (cond0 (grid0.coords t) ↔ t.val = 0) ∧ (cond1 (grid0.coords t) ↔ t.val = 7) :=
  (by decide +kernel : ∀ t : Fin grid0.N, (cond0 (grid0.coords t) ↔ t.val = 0) ∧ (cond1 (grid0.coords t) ↔ t.val = 7))

theorem live_at : ∀ (w : Fin cfg0.W) (t : Fin cfg0.N), w.val < 3 ∨ t.val = 7 → cfg0.idle w (grid0.coords t) = false := by decide +kernel
theorem idle_at : ∀ (w : Fin cfg0.W) (t : Fin cfg0.N), 3 ≤ w.val → t.val ≠ 7 → cfg0.idle w (grid0.coords t) = true ∧ (cfg0.win w).flush t = false := by
  decide +kernel

theorem hz : (![0, 0] : Fin 2 → Nat) = fun _ => 0 := funext fun a => by fin_cases a <;> rfl

/-- A whole-block store, made last, is what the buffer then reads. -/
theorem read_wrote {κ : Kind} {sp : Space} {S : Shape} {e : EltTy} (v : View sig κ sp S e) (f : v.ty.Contents (Elt F)) {off : Fin S.rank → Nat}
    (h : off = fun _ => 0) (inb : ∀ a, off a + S.size a ≤ S.size a) (p : S.Idx → Elt F e) (L : List (View.Piece (Elt F) S e)) :
    v.read (Elt F) (v.writes (Elt F) f (⟨Rect.unit off S.size inb, p⟩ :: L)) = p :=
  (View.read_writes_eq_canon v f _ fun y => ⟨_, List.mem_cons.mpr (.inl rfl), View.mem_set_unit_zero h inb y⟩).trans
    (View.canon_cons_unit_zero h inb p L)

section Run

variable (c : Dev nD) (i : grid0.Coords)
  (arg1 : Memref sig .tc .vmem S4096x64 .f32) (harg1 : arg1.IsWhole) (arg2 : Memref sig .tc .vmem S64x256 .bf16) (harg2 : arg2.IsWhole)
  (arg3 : Memref sig .tc .vmem S1x256 .f32) (harg3 : arg3.IsWhole) (arg4 : Memref sig .tc .vmem S1x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole)
  (x : Vec F S4096x64 .f32) (w : Vec F S64x256 .bf16) (b : Vec F S1x256 .f32)

/-- The seven buffers the body touches, the last four at given contents. -/
def held (o3 o4 s0 s1 : Vec F S1x256 .f32) : sProp 𝕄 :=
  iprop(owns (c : Thread nD τ) arg1 fullShare x ∗ owns (c : Thread nD τ) arg2 fullShare w ∗ owns (c : Thread nD τ) arg3 fullShare b
    ∗ owns (c : Thread nD τ) arg4 fullShare o3 ∗ owns (c : Thread nD τ) arg5 fullShare o4
    ∗ owns (c : Thread nD τ) arg6 fullShare s0 ∗ owns (c : Thread nD τ) arg7 fullShare s1)

variable (o3 o4 s0 s1 : Vec F S1x256 .f32)

set_option maxHeartbeats 2000000 in
/-- Each running sum gains this block's column sums, from zero where the reset branch is taken; the store branch copies both to the outputs. -/
theorem run (hx : cond0 i → ¬cond1 i) (E : Set ℕ) (K : PUnit → sProp 𝕄) :
    iprop(held c arg1 arg2 arg3 arg4 arg5 arg6 arg7 x w b o3 o4 s0 s1
        ∗ (held c arg1 arg2 arg3 arg4 arg5 arg6 arg7 x w b
            (if cond1 i then k0_pay4 x w b (if cond0 i then k0_pay1 else s0) else o3)
            (if cond1 i then k0_pay5 x w b (if cond0 i then k0_pay2 else s1) else o4)
            (k0_pay4 x w b (if cond0 i then k0_pay1 else s0)) (k0_pay5 x w b (if cond0 i then k0_pay2 else s1)) -∗ K ⟨⟩))
      ⊢ wp frame (wpE (defs₀ (F := F)) Variants.none c none) E (cc0__atom_stats_kernel i arg1 harg1 arg2 harg2 arg3 harg3 arg4 harg4 arg5 harg5 arg6 harg6 arg7 harg7) K := by
  by_cases hc0 : cond0 i <;> by_cases hc1 : cond1 i
  · exact absurd hc1 (hx hc0)
  all_goals
    first | rw [if_pos hc0, if_pos hc0] | rw [if_neg hc0, if_neg hc0]
    first | rw [if_pos hc1, if_pos hc1] | rw [if_neg hc1, if_neg hc1]
    simp only [cc0__atom_stats_kernel_eq_skeleton]; unfold cc0__atom_stats_kernel_skel held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    sl_unfold_words
    simp only [View.readAt_eq_ld, Memref.IsWhole.read_unread, View.ld_unit_zero (S := S4096x64) hz, View.ld_unit_zero (S := S64x256) hz,
      View.ld_unit_zero (S := S1x256) hz, View.readCov_unit_zero (S := S1x256) _ hz]
    iapply Hk
    isplitl [H1]; swap; isplitl [H2]; swap; isplitl [H3]; swap; isplitl [H4]; swap; isplitl [H5]; swap; isplitl [H6]
    all_goals (iexists _; isplitr; swap; iassumption; ipureintro; first | exact Memref.IsWhole.read_unread _ _ | exact read_wrote (F := F) (S := S1x256) _ _ hz _ _ _)

end Run

variable (V : Valuation τ sig (Elt F)) (c : Dev nD)

def iblk (w : Fin cfg0.W) (t : Fin cfg0.N) :
    ((cfg0.win w).xblock (cfg0.grid.coords t)).Idx → Elt F (cfg0.win w).elt :=
  ((cfg0.win w).blk t).view.read (Elt F) (V (Pipeline.arrRef spec0 w))

/-- The blocks' column sums added up over points 0 to n, starting from the zero block. -/
def sumAt : (n : ℕ) → n < cfg0.N → Vec F S1x256 .f32
  | 0, hn => k0_pay4 (iblk V 0 ⟨0, hn⟩) (iblk V 1 ⟨0, hn⟩) (iblk V 2 ⟨0, hn⟩) (k0_pay1 (F := F))
  | n + 1, hn => k0_pay4 (iblk V 0 ⟨n + 1, hn⟩) (iblk V 1 ⟨n + 1, hn⟩) (iblk V 2 ⟨n + 1, hn⟩) (sumAt n (Nat.lt_of_succ_lt hn))

/-- The same for the column sums of squares. -/
def sqAt : (n : ℕ) → n < cfg0.N → Vec F S1x256 .f32
  | 0, hn => k0_pay5 (iblk V 0 ⟨0, hn⟩) (iblk V 1 ⟨0, hn⟩) (iblk V 2 ⟨0, hn⟩) (k0_pay2 (F := F))
  | n + 1, hn => k0_pay5 (iblk V 0 ⟨n + 1, hn⟩) (iblk V 1 ⟨n + 1, hn⟩) (iblk V 2 ⟨n + 1, hn⟩) (sqAt n (Nat.lt_of_succ_lt hn))

/-- One step of the running sums: from the sums after the point before (from zero at point 0) to those after point t. -/
theorem acc_eq (t : Fin cfg0.N) (s0 s1 : Vec F S1x256 .f32)
    (hs : ∀ h : t.val ≠ 0, s0 = sumAt V (t.val - 1) (by omega) ∧ s1 = sqAt V (t.val - 1) (by omega)) :
    k0_pay4 (iblk V 0 t) (iblk V 1 t) (iblk V 2 t) (if cond0 (grid0.coords t) then k0_pay1 else s0) = sumAt V t.val t.isLt
      ∧ k0_pay5 (iblk V 0 t) (iblk V 1 t) (iblk V 2 t) (if cond0 (grid0.coords t) then k0_pay2 else s1) = sqAt V t.val t.isLt := by
  obtain ⟨n, hn⟩ := t
  cases n with
  | zero => rw [if_pos ((hcond _).1.mpr rfl), if_pos ((hcond _).1.mpr rfl)]; exact ⟨rfl, rfl⟩
  | succ n =>
    obtain ⟨rfl, rfl⟩ := hs (Nat.succ_ne_zero n)
    rw [if_neg fun h => Nat.succ_ne_zero n ((hcond _).1.mp h), if_neg fun h => Nat.succ_ne_zero n ((hcond _).1.mp h)]; exact ⟨rfl, rfl⟩

abbrev scM0 : Memref sig .tc .vmem S1x256 .f32 := Memref.whole cc0_scratch0
abbrev scM1 : Memref sig .tc .vmem S1x256 .f32 := Memref.whole cc0_scratch1

/-- Between points the two carrying buffers hold the running sums after the point before (anything before the first point). -/
def PhiS (n : ℕ) (hn : n ≤ cfg0.N) : sProp 𝕄 :=
  iprop(∃ s0 s1, ⌜∀ h : n ≠ 0, s0 = sumAt V (n - 1) (by omega) ∧ s1 = sqAt V (n - 1) (by omega)⌝
    ∗ owns (c : Thread nD τ) scM0 fullShare s0 ∗ owns (c : Thread nD τ) scM1 fullShare s1
    ∗ Pipeline.scopedRestBut (Ix := Unit) (Name := ℕ) (U := UR sig nD τ) (Lvl := ℕ) (Val := Elt F) spec0 c [cc0_scratch0, cc0_scratch1]
    ∗ (∃ r, prngReg c r))

theorem Phi0_eq :
    (iprop((∃ r, prngReg c r) ∗ Pipeline.scopedRest (Ix := Unit) (Name := ℕ) (U := UR sig nD τ) (Lvl := ℕ) (Val := Elt F) spec0 c) : sProp 𝕄)
      = iprop((∃ r, prngReg c r) ∗ iprop((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec0 c [cc0_scratch0, cc0_scratch1]) := by
  rw [scopedRest0_split]; simp only [scM0, scM1, owns_whole]; try rfl

def dat : Pipeline.Dat τ (Elt F) Unit ℕ (UR sig nD τ) ℕ cfg0 c where
  A w := V (Pipeline.arrRef spec0 w)
  after w t := match w with
    | ⟨0, _⟩ => iblk V 0 t
    | ⟨1, _⟩ => iblk V 1 t
    | ⟨2, _⟩ => iblk V 2 t
    | ⟨3, _⟩ => sumAt V t.val t.isLt
    | ⟨4, _⟩ => sqAt V t.val t.isLt
  Φ t := PhiS V c t.val (Nat.le_of_lt_succ t.isLt)
  q _ := fullShare
  owed _ := 0

theorem dat_A (w : Fin cfg0.W) : (dat V c).A w = V (Pipeline.arrRef spec0 w) := by
  dsimp only [dat]
theorem dat_q (w : Fin cfg0.W) : (dat V c).q w = fullShare := by
  dsimp only [dat]
theorem dat_owed (t) : (dat V c).owed t = 0 := by
  dsimp only [dat]
theorem dat_recorded : (dat V c).recorded 0 = Set.univ := rfl
theorem after_3 (t : Fin cfg0.N) : (dat V c).after 3 t = sumAt V t.val t.isLt := by dsimp only [dat]
theorem after_4 (t : Fin cfg0.N) : (dat V c).after 4 t = sqAt V t.val t.isLt := by dsimp only [dat]

/-- At every point each input window reads as its block of the array. -/
theorem before_in (t : Fin cfg0.N) :
    (∀ d, (dat V c).before 0 t d = iblk V 0 t) ∧ (∀ d, (dat V c).before 1 t d = iblk V 1 t) ∧ (∀ d, (dat V c).before 2 t d = iblk V 2 t) := by
  refine ⟨fun d => ?_, fun d => ?_, fun d => ?_⟩ <;>
    exact ((dat V c).before_in_eq_fetched _ rfl (fun _ => rfl) (fun _ _ _ => rfl) (fun t => by unfold Dat.blockOf; dsimp only [dat]; rfl) t d).trans
      (by unfold Dat.fetched Dat.blockOf; dsimp only [dat]; rfl)

/-- At point 7 an output window holds the running sum; at any other point it is left as found. -/
theorem leaves_out (w : Fin cfg0.W) (hw : 3 ≤ w.val) (t : Fin cfg0.N) (d) :
    owns (c : Thread nD τ) ((cfg0.win w).stage (cfg0.slots t w)) fullShare
        (if cond1 (grid0.coords t) then (dat V c).after w t else (dat V c).before w t d) ⊢ (dat V c).leavesExact w t := by
  by_cases h : t.val = 7
  · rw [if_pos ((hcond t).2.mpr h)]; unfold Dat.leavesExact; rw [live_at w t (.inr h)]
  · rw [if_neg fun a => h ((hcond t).2.mp a), Dat.leavesExact_idle _ w t (idle_at w t hw h).1 (idle_at w t hw h).2]
    iintro H; iexists d; iexact H

def bodyPre (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d)))

def bodyPost (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

theorem sound_body (t : Fin cfg0.N) :
    bodyPre V c t ⊢ wp frame (wpE (defs₀ (F := F)) Variants.none c none) Set.univ (bodyAt0 t) (fun _ => bodyPost V c t) := by
  obtain ⟨h0, h7⟩ := hcond t
  unfold bodyPre bodyPost bodyAt0
  simp only [(before_in V c t).1, (before_in V c t).2.1, (before_in V c t).2.2]
  rw [show (dat V c).owesAt () t.succ = (dat V c).owesAt () t.castSucc from rfl,
    show (dat V c).Φ t.castSucc = PhiS V c t.val (Nat.le_of_lt t.isLt) from rfl, show (dat V c).Φ t.succ = PhiS V c (t.val + 1) t.isLt from rfl]
  unfold PhiS
  iintro ⟨⟨%s0, %s1, %hs, HS0, HS1, Hrest, Hg⟩, Ho, ⟨%d0, H0⟩, ⟨%d1, H1⟩, ⟨%d2, H2⟩, ⟨%d3, H3⟩, ⟨%d4, H4⟩⟩
  obtain ⟨e0, e1⟩ := acc_eq V t s0 s1 hs
  iapply (run c (grid0.coords t) _ _ _ _ _ _ _ _ _ _ _ _ _ _ (iblk V 0 t) (iblk V 1 t) (iblk V 2 t) ((dat V c).before 3 t d3) ((dat V c).before 4 t d4) s0 s1
    (fun a b => by have := h0.mp a; have := h7.mp b; omega) Set.univ _)
  irw [e0, e1]; unfold held
  isplitl [H0 H1 H2 H3 H4 HS0 HS1]; · iframe
  iintro ⟨H0, H1, H2, H3, H4, HS0, HS1⟩
  isplitl [HS0 HS1 Hrest Hg]
  · iexists _, _; iframe; ipureintro; exact fun _ => ⟨rfl, rfl⟩
  iframe Ho
  isplitl [H0]; · unfold Dat.leavesExact; rw [live_at 0 t (.inl (by decide))]; dsimp only [dat]; iexact H0
  isplitl [H1]; · unfold Dat.leavesExact; rw [live_at 1 t (.inl (by decide))]; dsimp only [dat]; iexact H1
  isplitl [H2]; · unfold Dat.leavesExact; rw [live_at 2 t (.inl (by decide))]; dsimp only [dat]; iexact H2
  isplitl [H3]; · iapply (leaves_out V c 3 (by decide) t d3); rw [after_3]; iexact H3
  iapply (leaves_out V c 4 (by decide) t d4); rw [after_4]; iexact H4

theorem body : Pipeline.BodyObligation (dat V c) (defs₀ (F := F)) Variants.none () Set.univ := fun t => by
  rw [bigSep_W0, bigSep_W0]
  exact sound_body V c t

theorem phi_in :
    (iprop((∃ r, prngReg c r) ∗ Pipeline.scopedRest (Ix := Unit) (Name := ℕ) (U := UR sig nD τ) (Lvl := ℕ) (Val := Elt F) spec0 c) : sProp 𝕄)
      ⊢ (dat V c).Φ 0 := by
  rw [Phi0_eq, show (dat V c).Φ 0 = PhiS V c 0 (Nat.zero_le _) from rfl]; unfold PhiS
  iintro ⟨Hg, ⟨⟨%d0, H0⟩, ⟨%d1, H1⟩⟩, Hr⟩
  iexists d0, d1; iframe; ipureintro; exact fun h => absurd rfl h

theorem phi_out :
    (dat V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [Phi0_eq, show (dat V c).Φ (Fin.last cfg0.N) = PhiS V c (Fin.last cfg0.N).val (Nat.le_of_lt_succ (Fin.last cfg0.N).isLt) from rfl]; unfold PhiS
  iintro ⟨%s0, %s1, -, H0, H1, Hr, Hg⟩
  iframe Hg Hr
  isplitl [H0]; · iexists _; iexact H0
  iexists _; iexact H1

end Cert.KernelIdeal.R0

end
-- ==== Proof.KI.R1.lean ====
import proofs.«418526_j20469814133046_3_alg».proof.Proof.KILaunch
import proofs.«418526_j20469814133046_3_alg».proof.Proof.Gen.KernelIdeal.Skeleton
import proofs.«418526_j20469814133046_3_alg».proof.Proof.Gen.KernelIdeal.Points
import proofs.«418526_j20469814133046_3_alg».proof.Proof.LibRegionRecord
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R1

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk (V : Valuation τ sig (Elt F)) (w : Fin cfg1.W) (t : Fin cfg1.N) :
    ((cfg1.win w).xblock (cfg1.grid.coords t)).Idx → Elt F (cfg1.win w).elt :=
  ((cfg1.win w).blk t).view.read (Elt F) (V (Pipeline.arrRef spec1 w))

def dat (V : Valuation τ sig (Elt F)) (c : Dev nD) : Pipeline.Dat τ (Elt F) Unit ℕ (UR sig nD τ) ℕ cfg1 c where
  A w := V (Pipeline.arrRef spec1 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => k1_pay1 (iblk V 0 t) (iblk V 1 t) (iblk V 2 t) (iblk V 3 t) (iblk V 4 t)
  Φ _ := Pipeline.ΦA spec1 c
  q _ := fullShare
  owed _ := 0

variable (V : Valuation τ sig (Elt F)) (c : Dev nD)

theorem dat_A (w : Fin cfg1.W) : (dat V c).A w = V (Pipeline.arrRef spec1 w) := rfl
theorem dat_q (w : Fin cfg1.W) : (dat V c).q w = fullShare := rfl
theorem dat_owed (t) : (dat V c).owed t = 0 := rfl
theorem dat_recorded : (dat V c).recorded 0 = Set.univ := rfl

theorem after_5 (t : Fin cfg1.N) :
    (dat V c).after 5 t = k1_pay1 (iblk V 0 t) (iblk V 1 t) (iblk V 2 t) (iblk V 3 t) (iblk V 4 t) := by dsimp only [dat]

theorem phi_in : (iprop((∃ r, prngReg c r) ∗ Pipeline.scopedRest (Ix := Unit) (Name := ℕ) (U := UR sig nD τ) (Lvl := ℕ) (Val := Elt F) spec1 c) : sProp 𝕄) ⊢ (dat V c).Φ 0 :=
  Cert.LibRegionRecord.ΦA_in spec1 c

theorem phi_out : (dat V c).Φ (Fin.last cfg1.N) ⊢ (iprop((∃ r, prngReg c r) ∗ Pipeline.scopedRest (Ix := Unit) (Name := ℕ) (U := UR sig nD τ) (Lvl := ℕ) (Val := Elt F) spec1 c) : sProp 𝕄) :=
  Cert.LibRegionRecord.ΦA_out spec1 c

theorem before_in (t : Fin cfg1.N) :
    (∀ d, (dat V c).before 0 t d = iblk V 0 t) ∧ (∀ d, (dat V c).before 1 t d = iblk V 1 t) ∧ (∀ d, (dat V c).before 2 t d = iblk V 2 t)
      ∧ (∀ d, (dat V c).before 3 t d = iblk V 3 t) ∧ (∀ d, (dat V c).before 4 t d = iblk V 4 t) := by
  refine ⟨?_, ?_, ?_, ?_, ?_⟩ <;> exact fun d =>
    ((dat V c).before_in_eq_fetched _ rfl (fun _ => rfl) (fun _ _ _ => rfl) (fun _ => rfl) t d).trans rfl

theorem hz : (![0, 0] : Fin 2 → Nat) = fun _ => 0 := funext fun a => by fin_cases a <;> rfl

/-- The body reads its five inputs whole and stores its value of them over the whole output. -/
theorem sound_kernel (E : Set ℕ) (i : grid1.Coords) {a1 a2 a3 a4 a5 a6} (h1 h2 h3 h4 h5 h6) (x0 x1 x2 x3 x4) (K : PUnit → sProp 𝕄) :
    let I : sProp 𝕄 := iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4)
    iprop(I ∗ (∃ d, owns (c : Thread nD τ) a6 fullShare d) ∗ ((I ∗ owns (c : Thread nD τ) a6 fullShare (k1_pay1 x0 x1 x2 x3 x4)) -∗ K ⟨⟩))
      ⊢ wp frame (wpE (defs₀ (F := F)) Variants.none c none) E (cc1__atom_fused_kernel i a1 h1 a2 h2 a3 h3 a4 h4 a5 h5 a6 h6) K := by
  simp only [cc1__atom_fused_kernel_eq_skeleton]; unfold cc1__atom_fused_kernel_skel owns
  iintro ⟨⟨⟨%f0, %e0, H0⟩, ⟨%f1, %e1, H1⟩, ⟨%f2, %e2, H2⟩, ⟨%f3, %e3, H3⟩, %f4, %e4, H4⟩, ⟨%d, %f5, -, H5⟩, Hk⟩
  subst e0 e1 e2 e3 e4
  sl_exec
  sl_step
  iapply Hk
  isplitr [H5]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  iexists _; isplitr
  swap; · iexact H5
  ipureintro
  rw [View.read_writes_eq_canon _ _ _ (View.cover_of_tiled _ S4096x256.size (by rfl)), View.canon_unit_zero hz]
  simp only [View.readAt_eq_ld, View.ld_unit_zero (S := S4096x64) hz, View.ld_unit_zero (S := S64x256) hz,
    View.ld_unit_zero (S := S1x256) hz]

/-- At every point the inputs hold their blocks, so the triple applies; the invariant and what is owed pass through unread. -/
theorem body : Pipeline.BodyObligation (dat V c) (defs₀ (F := F)) Variants.none () Set.univ := fun t => by
  obtain ⟨b0, b1, b2, b3, b4⟩ := before_in V c t
  rw [GenP.bigSep_W1, GenP.bigSep_W1]
  simp only [b0, b1, b2, b3, b4, (fun _ _ => rfl : ∀ w i, cfg1.idle w i = false)]
  dsimp only [dat]
  iintro ⟨HΦ, Ho, ⟨%d0, H0⟩, ⟨%d1, H1⟩, ⟨%d2, H2⟩, ⟨%d3, H3⟩, ⟨%d4, H4⟩, ⟨%d5, H5⟩⟩
  sl_whnfR [defs₀, Defs.onTc]
  iapply (sound_kernel c Set.univ (grid1.coords t) _ _ _ _ _ _ (iblk V 0 t) (iblk V 1 t) (iblk V 2 t) (iblk V 3 t) (iblk V 4 t) _)
  iframe H0 H1 H2 H3 H4
  isplitl [H5]; · iexists _; iexact H5
  iintro ⟨⟨H0, H1, H2, H3, H4⟩, H5⟩
  iframe HΦ H0 H1 H2 H3 H4 H5
  iexact Ho

end Cert.KernelIdeal.R1

end
-- ==== Proof.KI.R2Base.lean ====
import proofs.«418526_j20469814133046_3_alg».proof.Proof.KILaunch
import proofs.«418526_j20469814133046_3_alg».proof.Proof.Gen.KernelIdeal.Skeleton
import proofs.«418526_j20469814133046_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Pipeline.TableIdle
import Idealize.ShloMosaic.Lib.Ring
import Idealize.ShloMosaic.Lib.Tactic

noncomputable section

namespace Cert.KernelIdeal.R2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condReset (i : grid2.Coords) : Prop :=
  (Scalar.cmpi .ne (Scalar.extui (Scalar.cmpi .eq (BitVec.ofNat 32 (i 1).val) 0#32)) 0#32) = 1#1
abbrev condStore (i : grid2.Coords) : Prop := k2_cond2 i = 1#1

theorem hcondReset : ∀ t : Fin cfg2.N, condReset (grid2.coords t) ↔ t.val % 128 = 0 :=
  (by decide +kernel : ∀ t : Fin grid2.N, condReset (grid2.coords t) ↔ t.val % 128 = 0)
theorem hcondStore : ∀ t : Fin cfg2.N, condStore (grid2.coords t) ↔ t.val % 128 = 127 :=
  (by decide +kernel : ∀ t : Fin grid2.N, condStore (grid2.coords t) ↔ t.val % 128 = 127)

theorem idleOut : ∀ t : Fin cfg2.N, t.val % 128 ≠ 127 →
    (cfg2.idle 6 (grid2.coords t) = true ∧ (cfg2.win 6).flush t = false) ∧ (cfg2.idle 7 (grid2.coords t) = true ∧ (cfg2.win 7).flush t = false) := by decide +kernel
theorem liveOut : ∀ t : Fin cfg2.N, t.val % 128 = 127 → cfg2.idle 6 (grid2.coords t) = false ∧ cfg2.idle 7 (grid2.coords t) = false := by decide +kernel

abbrev ms0 (t : Fin cfg2.N) : Memref sig .tc .vmem S1x128x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x256x32 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x2048x2 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S64x256 .bf16 := win2_3.stage (cfg2.slots t 3)
abbrev hs3 (t : Fin cfg2.N) : (ms3 t).IsWhole := hstage2_3 ((cfg2.slots t 3).cast nbuf2_3)
abbrev ms4 (t : Fin cfg2.N) : Memref sig .tc .vmem S32x256 .bf16 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x256 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x1x256 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x1x256 .f32 := win2_7.stage (cfg2.slots t 7)
abbrev hs7 (t : Fin cfg2.N) : (ms7 t).IsWhole := hstage2_7 ((cfg2.slots t 7).cast nbuf2_7)
abbrev accS : Memref sig .tc .vmem S1x256 .f32 := Memref.whole cc2_scratch0
abbrev accQ : Memref sig .tc .vmem S1x256 .f32 := Memref.whole cc2_scratch1

def iblk (V : Valuation τ sig (Elt F)) (w : Fin cfg2.W) (t : Fin cfg2.N) :
    ((cfg2.win w).xblock (cfg2.grid.coords t)).Idx → Elt F (cfg2.win w).elt :=
  ((cfg2.win w).blk t).view.read (Elt F) (V (Pipeline.arrRef spec2 w))

theorem hz2 : (![0, 0] : Fin 2 → ℕ) = fun _ => 0 := by funext a; fin_cases a <;> rfl
theorem hz3 : (![0, 0, 0] : Fin 3 → ℕ) = fun _ => 0 := by funext a; fin_cases a <;> rfl

abbrev restBut (c : Dev nD) : sProp 𝕄 :=
  Pipeline.scopedRestBut (Ix := Unit) (Name := ℕ) (U := UR sig nD τ) (Lvl := ℕ) (Val := Elt F) spec2 c [cc2_scratch0, cc2_scratch1]

theorem scopedRest_eq (c : Dev nD) :
    (Pipeline.scopedRest (Ix := Unit) (Name := ℕ) (U := UR sig nD τ) (Lvl := ℕ) (Val := Elt F) spec2 c : sProp 𝕄)
      = iprop(iprop((∃ d, owns c accS fullShare d) ∗ (∃ d, owns c accQ fullShare d)) ∗ restBut (F := F) c) := by
  rw [scopedRest2_split]; simp only [accS, accQ, owns_whole]; try rfl

end Cert.KernelIdeal.R2

end
-- ==== Proof.KI.R2RunA.lean ====
import proofs.«418526_j20469814133046_3_alg».proof.Proof.KI.R2Base

noncomputable section

namespace Cert.KernelIdeal.R2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1x128x64 .f32) (harg2 : arg2.IsWhole) (arg3 : Memref sig .tc .vmem S1x256x32 .f32) (harg3 : arg3.IsWhole) (arg4 : Memref sig .tc .vmem S1x2048x2 .i32) (harg4 : arg4.IsWhole) (arg5 : Memref sig .tc .vmem S64x256 .bf16) (harg5 : arg5.IsWhole) (arg6 : Memref sig .tc .vmem S32x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256 .f32) (harg10 : arg10.IsWhole) (arg11 : Memref sig .tc .vmem S1x256 .f32) (harg11 : arg11.IsWhole)
  (hr : condReset i) (hs : ¬condStore i) (x0 : Vec F S1x128x64 .f32) (x1 : Vec F S1x256x32 .f32) (x2 : Vec F S1x2048x2 .i32) (x3 : Vec F S64x256 .bf16) (x4 : Vec F S32x256 .bf16) (x5 : Vec F S1x256 .f32)
include hr hs

theorem runA (y6 : Vec F S1x1x256 .f32) (y7 : Vec F S1x1x256 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
        ∗ (∃ d, owns c arg10 fullShare d) ∗ (∃ d, owns c arg11 fullShare d)
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
            ∗ owns c arg10 fullShare (k2_pay2 (k2_pay8 x0 x3 x5) (k2_pay9 x1 x4) (k2_pay11 x2) (k2_pay12 x2) (constant S2048x256 .f32 0x00000000#32) (k2_pay6 (F := F)))
            ∗ owns c arg11 fullShare (k2_pay3 (k2_pay8 x0 x3 x5) (k2_pay9 x1 x4) (k2_pay11 x2) (k2_pay12 x2) (constant S2048x256 .f32 0x00000000#32) (k2_pay7 (F := F)))) -∗ K ⟨⟩))
      ⊢ wp frame (wpE (defs₀ (F := F)) Variants.none c none) E (cc2__nei_stats_kernel i arg2 harg2 arg3 harg3 arg4 harg4 arg5 harg5 arg6 harg6 arg7 harg7 arg8 harg8 arg9 harg9 arg10 harg10 arg11 harg11) K := by
  simp only [cc2__nei_stats_kernel_eq_skeleton]; unfold cc2__nei_stats_kernel_skel
  simp only [owns_eq_rep]
  iintro ⟨H0, H1, H2, H3, H4, H5, H6, H7, ⟨%dS, HS⟩, ⟨%dQ, HQ⟩, Hk⟩
  sl_exec (disch := first | exact hr | exact hs)
  sl_step
  iapply Hk
  iframe H0 H1 H2 H3 H4 H5 H6 H7
  rw [← owns_eq_rep, ← owns_eq_rep]; unfold owns
  isplitl [HS]
  · iexists _; isplitr
    swap; · iexact HS
    ipureintro
    rw [View.read_writes_eq_canon _ _ _ (View.cover_of_tiledL _ S1x256.size (by sl_kernel_rfl))]
    sl_unfold_words
    rw [View.canon_cons_unit_zero (S := S1x256) hz2]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  iexists _; isplitr
  swap; · iexact HQ
  ipureintro
  rw [View.read_writes_eq_canon _ _ _ (View.cover_of_tiledL _ S1x256.size (by sl_kernel_rfl))]
  sl_unfold_words
  rw [View.canon_cons_unit_zero (S := S1x256) hz2]
  simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]

end Cert.KernelIdeal.R2

end
-- ==== Proof.KI.R2RunB.lean ====
import proofs.«418526_j20469814133046_3_alg».proof.Proof.KI.R2Base

noncomputable section

namespace Cert.KernelIdeal.R2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1x128x64 .f32) (harg2 : arg2.IsWhole) (arg3 : Memref sig .tc .vmem S1x256x32 .f32) (harg3 : arg3.IsWhole) (arg4 : Memref sig .tc .vmem S1x2048x2 .i32) (harg4 : arg4.IsWhole) (arg5 : Memref sig .tc .vmem S64x256 .bf16) (harg5 : arg5.IsWhole) (arg6 : Memref sig .tc .vmem S32x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256 .f32) (harg10 : arg10.IsWhole) (arg11 : Memref sig .tc .vmem S1x256 .f32) (harg11 : arg11.IsWhole)
  (hr : ¬condReset i) (hs : ¬condStore i) (x0 : Vec F S1x128x64 .f32) (x1 : Vec F S1x256x32 .f32) (x2 : Vec F S1x2048x2 .i32) (x3 : Vec F S64x256 .bf16) (x4 : Vec F S32x256 .bf16) (x5 : Vec F S1x256 .f32) (aS : Vec F S1x256 .f32) (aQ : Vec F S1x256 .f32)
include hr hs

theorem runB (y6 : Vec F S1x1x256 .f32) (y7 : Vec F S1x1x256 .f32) (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
        ∗ owns c arg10 fullShare aS ∗ owns c arg11 fullShare aQ
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare y6 ∗ owns c arg9 fullShare y7
            ∗ owns c arg10 fullShare (k2_pay2 (k2_pay8 x0 x3 x5) (k2_pay9 x1 x4) (k2_pay11 x2) (k2_pay12 x2) (constant S2048x256 .f32 0x00000000#32) aS)
            ∗ owns c arg11 fullShare (k2_pay3 (k2_pay8 x0 x3 x5) (k2_pay9 x1 x4) (k2_pay11 x2) (k2_pay12 x2) (constant S2048x256 .f32 0x00000000#32) aQ)) -∗ K ⟨⟩))
      ⊢ wp frame (wpE (defs₀ (F := F)) Variants.none c none) E (cc2__nei_stats_kernel i arg2 harg2 arg3 harg3 arg4 harg4 arg5 harg5 arg6 harg6 arg7 harg7 arg8 harg8 arg9 harg9 arg10 harg10 arg11 harg11) K := by
  simp only [cc2__nei_stats_kernel_eq_skeleton]; unfold cc2__nei_stats_kernel_skel
  simp only [owns_eq_rep]
  iintro ⟨H0, H1, H2, H3, H4, H5, H6, H7, HS, HQ, Hk⟩
  sl_exec (disch := first | exact hr | exact hs)
  sl_step
  iapply Hk
  iframe H0 H1 H2 H3 H4 H5 H6 H7
  rw [← owns_eq_rep, ← owns_eq_rep]; unfold owns
  isplitl [HS]
  · iexists _; isplitr
    swap; · iexact HS
    ipureintro
    rw [View.read_writes_eq_canon _ _ _ (View.cover_of_tiledL _ S1x256.size (by sl_kernel_rfl))]
    sl_unfold_words
    rw [View.canon_cons_unit_zero (S := S1x256) hz2]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  iexists _; isplitr
  swap; · iexact HQ
  ipureintro
  rw [View.read_writes_eq_canon _ _ _ (View.cover_of_tiledL _ S1x256.size (by sl_kernel_rfl))]
  sl_unfold_words
  rw [View.canon_cons_unit_zero (S := S1x256) hz2]
  simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]

end Cert.KernelIdeal.R2

end
-- ==== Proof.KI.R2RunC.lean ====
import proofs.«418526_j20469814133046_3_alg».proof.Proof.KI.R2Base

noncomputable section

namespace Cert.KernelIdeal.R2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S1x128x64 .f32) (harg2 : arg2.IsWhole) (arg3 : Memref sig .tc .vmem S1x256x32 .f32) (harg3 : arg3.IsWhole) (arg4 : Memref sig .tc .vmem S1x2048x2 .i32) (harg4 : arg4.IsWhole) (arg5 : Memref sig .tc .vmem S64x256 .bf16) (harg5 : arg5.IsWhole) (arg6 : Memref sig .tc .vmem S32x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256 .f32) (harg10 : arg10.IsWhole) (arg11 : Memref sig .tc .vmem S1x256 .f32) (harg11 : arg11.IsWhole)
  (hr : ¬condReset i) (hs : condStore i) (x0 : Vec F S1x128x64 .f32) (x1 : Vec F S1x256x32 .f32) (x2 : Vec F S1x2048x2 .i32) (x3 : Vec F S64x256 .bf16) (x4 : Vec F S32x256 .bf16) (x5 : Vec F S1x256 .f32) (aS : Vec F S1x256 .f32) (aQ : Vec F S1x256 .f32)
include hr hs

theorem runC (E : Set ℕ) (K : PUnit → sProp 𝕄) :
    iprop(owns c arg2 fullShare x0 ∗ owns c arg3 fullShare x1 ∗ owns c arg4 fullShare x2 ∗ owns c arg5 fullShare x3 ∗ owns c arg6 fullShare x4 ∗ owns c arg7 fullShare x5 ∗ (∃ d, owns c arg8 fullShare d) ∗ (∃ d, owns c arg9 fullShare d)
        ∗ owns c arg10 fullShare aS ∗ owns c arg11 fullShare aQ
        ∗ (iprop(owns c arg2 fullShare x0 ∗ owns c arg3 fullShare x1 ∗ owns c arg4 fullShare x2 ∗ owns c arg5 fullShare x3 ∗ owns c arg6 fullShare x4 ∗ owns c arg7 fullShare x5
            ∗ owns c arg8 fullShare (k2_pay4 (k2_pay2 (k2_pay8 x0 x3 x5) (k2_pay9 x1 x4) (k2_pay11 x2) (k2_pay12 x2) (constant S2048x256 .f32 0x00000000#32) aS))
            ∗ owns c arg9 fullShare (k2_pay5 (k2_pay3 (k2_pay8 x0 x3 x5) (k2_pay9 x1 x4) (k2_pay11 x2) (k2_pay12 x2) (constant S2048x256 .f32 0x00000000#32) aQ))
            ∗ owns c arg10 fullShare (k2_pay2 (k2_pay8 x0 x3 x5) (k2_pay9 x1 x4) (k2_pay11 x2) (k2_pay12 x2) (constant S2048x256 .f32 0x00000000#32) aS)
            ∗ owns c arg11 fullShare (k2_pay3 (k2_pay8 x0 x3 x5) (k2_pay9 x1 x4) (k2_pay11 x2) (k2_pay12 x2) (constant S2048x256 .f32 0x00000000#32) aQ)) -∗ K ⟨⟩))
      ⊢ wp frame (wpE (defs₀ (F := F)) Variants.none c none) E (cc2__nei_stats_kernel i arg2 harg2 arg3 harg3 arg4 harg4 arg5 harg5 arg6 harg6 arg7 harg7 arg8 harg8 arg9 harg9 arg10 harg10 arg11 harg11) K := by
  simp only [cc2__nei_stats_kernel_eq_skeleton]; unfold cc2__nei_stats_kernel_skel
  simp only [owns_eq_rep]
  iintro ⟨H0, H1, H2, H3, H4, H5, ⟨%d6, H6⟩, ⟨%d7, H7⟩, HS, HQ, Hk⟩
  sl_exec (disch := first | exact hr | exact hs)
  sl_step
  iapply Hk
  iframe H0 H1 H2 H3 H4 H5
  rw [← owns_eq_rep, ← owns_eq_rep, ← owns_eq_rep, ← owns_eq_rep]; unfold owns
  isplitl [H6]
  · iexists _; isplitr
    swap; · iexact H6
    ipureintro
    rw [View.read_writes_eq_canon _ _ _ (View.cover_of_tiledL _ S1x1x256.size (by sl_kernel_rfl))]
    sl_unfold_words
    rw [View.canon_cons_unit_zero (S := S1x1x256) hz3]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  isplitl [H7]
  · iexists _; isplitr
    swap; · iexact H7
    ipureintro
    rw [View.read_writes_eq_canon _ _ _ (View.cover_of_tiledL _ S1x1x256.size (by sl_kernel_rfl))]
    sl_unfold_words
    rw [View.canon_cons_unit_zero (S := S1x1x256) hz3]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2, View.readCov_unit_zero (S := S1x256) _ hz2]
  isplitl [HS]
  · iexists _; isplitr
    swap; · iexact HS
    ipureintro
    rw [View.read_writes_eq_canon _ _ _ (View.cover_of_tiledL _ S1x256.size (by sl_kernel_rfl))]
    sl_unfold_words
    rw [View.canon_cons_unit_zero (S := S1x256) hz2]
    simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2]
  iexists _; isplitr
  swap; · iexact HQ
  ipureintro
  rw [View.read_writes_eq_canon _ _ _ (View.cover_of_tiledL _ S1x256.size (by sl_kernel_rfl))]
  sl_unfold_words
  rw [View.canon_cons_unit_zero (S := S1x256) hz2]
  simp only [View.readAt_eq_ld, View.read_rep, View.ld_unit_zero (S := S1x128x64) hz3, View.ld_unit_zero (S := S1x256x32) hz3, View.ld_unit_zero (S := S1x2048x2) hz3, View.ld_unit_zero (S := S64x256) hz2, View.ld_unit_zero (S := S32x256) hz2, View.ld_unit_zero (S := S1x256) hz2]

end Cert.KernelIdeal.R2

end
-- ==== Proof.KI.R2.lean ====
import proofs.«418526_j20469814133046_3_alg».proof.Proof.KI.R2RunA
import proofs.«418526_j20469814133046_3_alg».proof.Proof.KI.R2RunB
import proofs.«418526_j20469814133046_3_alg».proof.Proof.KI.R2RunC

noncomputable section

namespace Cert.KernelIdeal.R2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Valuation τ sig (Elt F)) (c : Dev nD)

abbrev b0 (t : Fin cfg2.N) : Vec F S1x128x64 .f32 := iblk V 0 t
abbrev b1 (t : Fin cfg2.N) : Vec F S1x256x32 .f32 := iblk V 1 t
abbrev b2 (t : Fin cfg2.N) : Vec F S1x2048x2 .i32 := iblk V 2 t
abbrev b3 (t : Fin cfg2.N) : Vec F S64x256 .bf16 := iblk V 3 t
abbrev b4 (t : Fin cfg2.N) : Vec F S32x256 .bf16 := iblk V 4 t
abbrev b5 (t : Fin cfg2.N) : Vec F S1x256 .f32 := iblk V 5 t

-- One point's update of the running column sum and of the running column sum of squares.
def step (t : Fin cfg2.N) (a : Vec F S1x256 .f32 × Vec F S1x256 .f32) :
    Vec F S1x256 .f32 × Vec F S1x256 .f32 :=
  (k2_pay2 (k2_pay8 (b0 V t) (b3 V t) (b5 V t)) (k2_pay9 (b1 V t) (b4 V t)) (k2_pay11 (b2 V t)) (k2_pay12 (b2 V t)) (constant S2048x256 .f32 0x00000000#32) a.1,
   k2_pay3 (k2_pay8 (b0 V t) (b3 V t) (b5 V t)) (k2_pay9 (b1 V t) (b4 V t)) (k2_pay11 (b2 V t)) (k2_pay12 (b2 V t)) (constant S2048x256 .f32 0x00000000#32) a.2)

def zeroAcc : Vec F S1x256 .f32 × Vec F S1x256 .f32 := (k2_pay6 (F := F), k2_pay7 (F := F))

-- The accumulators after position n: restarted from zero at the first point of each half of the grid, carried on otherwise.
def acc : (n : ℕ) → n < cfg2.N → Vec F S1x256 .f32 × Vec F S1x256 .f32
  | 0, h => step V ⟨0, h⟩ zeroAcc
  | n + 1, h => if (n + 1) % 128 = 0 then step V ⟨n + 1, h⟩ zeroAcc else step V ⟨n + 1, h⟩ (acc n (Nat.lt_of_succ_lt h))

theorem acc_reset (t : Fin cfg2.N) (h : t.val % 128 = 0) : acc V t.val t.isLt = step V t zeroAcc := by
  obtain ⟨n, hn⟩ := t
  cases n with
  | zero => rfl
  | succ n => exact if_pos h

theorem acc_carry (t : Fin cfg2.N) (h : ¬t.val % 128 = 0) :
    acc V t.val t.isLt = step V t (acc V (t.val - 1) (Nat.lt_of_le_of_lt (Nat.sub_le _ _) t.isLt)) := by
  obtain ⟨n, hn⟩ := t
  cases n with
  | zero => exact absurd (Nat.zero_mod _) h
  | succ n => exact if_neg h

-- The invariant: before the first point what the region is entered with, afterwards the accumulators at what the point before left.
def Phi : (n : ℕ) → n ≤ cfg2.N → sProp 𝕄
  | 0, _ => iprop((∃ r, prngReg c r) ∗ Pipeline.scopedRest (Ix := Unit) (Name := ℕ) (U := UR sig nD τ) (Lvl := ℕ) (Val := Elt F) spec2 c)
  | n + 1, hn => iprop(iprop(owns c accS fullShare (acc V n hn).1 ∗ owns c accQ fullShare (acc V n hn).2)
      ∗ restBut (F := F) c ∗ (∃ r, prngReg c r))

theorem Phi_succ (n : ℕ) (hn : n < cfg2.N) :
    Phi V c (n + 1) hn = iprop(iprop(owns c accS fullShare (acc V n hn).1 ∗ owns c accQ fullShare (acc V n hn).2)
      ∗ restBut (F := F) c ∗ (∃ r, prngReg c r)) := rfl

theorem Phi_pos (n : ℕ) (h : n ≤ cfg2.N) (hz : n ≠ 0) :
    Phi V c n h = iprop(iprop(owns c accS fullShare (acc V (n - 1) (by omega)).1 ∗ owns c accQ fullShare (acc V (n - 1) (by omega)).2)
      ∗ restBut (F := F) c ∗ (∃ r, prngReg c r)) := by
  cases n with
  | zero => exact absurd rfl hz
  | succ n => rfl

theorem Phi_forget (n : ℕ) (h : n ≤ cfg2.N) :
    Phi V c n h ⊢ iprop(iprop((∃ d, owns c accS fullShare d) ∗ (∃ d, owns c accQ fullShare d))
      ∗ restBut (F := F) c ∗ (∃ r, prngReg c r)) := by
  cases n with
  | zero =>
    show iprop((∃ r, prngReg c r) ∗ Pipeline.scopedRest (Ix := Unit) (Name := ℕ) (U := UR sig nD τ) (Lvl := ℕ) (Val := Elt F) spec2 c) ⊢ _
    rw [scopedRest_eq]
    iintro ⟨Hg, ⟨Ha, Hr⟩⟩
    iframe Ha Hr Hg
  | succ n =>
    rw [Phi_succ]
    iintro ⟨⟨HS, HQ⟩, Hr, Hg⟩
    iframe Hr Hg
    isplitl [HS]
    · iexists _; iexact HS
    iexists _; iexact HQ

def dat : Pipeline.Dat τ (Elt F) Unit ℕ (UR sig nD τ) ℕ cfg2 c where
  A w := V (Pipeline.arrRef spec2 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => k2_pay4 (acc V t.val t.isLt).1
    | ⟨7, _⟩ => k2_pay5 (acc V t.val t.isLt).2
  Φ t := Phi V c t.val (Nat.le_of_lt_succ t.isLt)
  q _ := fullShare
  owed _ := 0

theorem dat_A (w : Fin cfg2.W) : (dat V c).A w = V (Pipeline.arrRef spec2 w) := by
  dsimp only [dat]
theorem dat_q (w : Fin cfg2.W) : (dat V c).q w = fullShare := rfl
theorem dat_owed (t) : (dat V c).owed t = 0 := rfl
theorem dat_recorded : (dat V c).recorded 0 = Set.univ := rfl

theorem after6 (t : Fin cfg2.N) : (dat V c).after 6 t = k2_pay4 (acc V t.val t.isLt).1 := by dsimp only [dat]
theorem after7 (t : Fin cfg2.N) : (dat V c).after 7 t = k2_pay5 (acc V t.val t.isLt).2 := by dsimp only [dat]

variable (t : Fin cfg2.N)

theorem before0 (d) : (dat V c).before 0 t d = iblk V 0 t :=
  (dat V c).before_in_eq_fetched 0 rfl (fun _ => rfl) (fun _ _ _ => rfl) (fun _ => rfl) t d
theorem before1 (d) : (dat V c).before 1 t d = iblk V 1 t :=
  (dat V c).before_in_eq_fetched 1 rfl (fun _ => rfl) (fun _ _ _ => rfl) (fun _ => rfl) t d
theorem before2 (d) : (dat V c).before 2 t d = iblk V 2 t :=
  (dat V c).before_in_eq_fetched 2 rfl (fun _ => rfl) (fun _ _ _ => rfl) (fun _ => rfl) t d
theorem before3 (d) : (dat V c).before 3 t d = iblk V 3 t :=
  (dat V c).before_in_eq_fetched 3 rfl (fun _ => rfl) (fun _ _ _ => rfl) (fun _ => rfl) t d
theorem before4 (d) : (dat V c).before 4 t d = iblk V 4 t :=
  (dat V c).before_in_eq_fetched 4 rfl (fun _ => rfl) (fun _ _ _ => rfl) (fun _ => rfl) t d
theorem before5 (d) : (dat V c).before 5 t d = iblk V 5 t :=
  (dat V c).before_in_eq_fetched 5 rfl (fun _ => rfl) (fun _ _ _ => rfl) (fun _ => rfl) t d

-- The inputs come back as they were; the accumulators restart from zero at a reset point and carry on otherwise; the outputs are written at a store point only.
theorem sound_body :
    iprop(Phi V c t.val (Nat.le_of_lt t.isLt) ∗ (dat V c).owesAt () t.castSucc
    ∗ (∃ d, owns c (ms0 t) fullShare ((dat V c).before 0 t d))
    ∗ (∃ d, owns c (ms1 t) fullShare ((dat V c).before 1 t d))
    ∗ (∃ d, owns c (ms2 t) fullShare ((dat V c).before 2 t d))
    ∗ (∃ d, owns c (ms3 t) fullShare ((dat V c).before 3 t d))
    ∗ (∃ d, owns c (ms4 t) fullShare ((dat V c).before 4 t d))
    ∗ (∃ d, owns c (ms5 t) fullShare ((dat V c).before 5 t d))
    ∗ (∃ d, owns c (ms6 t) fullShare ((dat V c).before 6 t d))
    ∗ (∃ d, owns c (ms7 t) fullShare ((dat V c).before 7 t d)))
      ⊢ wp frame (wpE (defs₀ (F := F)) Variants.none c none) Set.univ (bodyAt2 t) (fun _ => iprop(Phi V c (t.val + 1) t.isLt ∗ (dat V c).owesAt () t.castSucc
    ∗ owns c (ms0 t) fullShare (iblk V 0 t) ∗ owns c (ms1 t) fullShare (iblk V 1 t)
    ∗ owns c (ms2 t) fullShare (iblk V 2 t) ∗ owns c (ms3 t) fullShare (iblk V 3 t)
    ∗ owns c (ms4 t) fullShare (iblk V 4 t) ∗ owns c (ms5 t) fullShare (iblk V 5 t)
    ∗ (dat V c).leavesExact 6 t ∗ (dat V c).leavesExact 7 t)) := by
  unfold bodyAt2
  simp only [before0, before1, before2, before3, before4, before5]
  rw [Phi_succ]
  have hp := Nat.lt_of_le_of_lt (Nat.sub_le t.val 1) t.isLt
  by_cases h0 : t.val % 128 = 0
  · have h1 : ¬t.val % 128 = 127 := by omega
    obtain ⟨⟨i6, f6⟩, i7, f7⟩ := idleOut t h1
    rw [Dat.leavesExact_idle (dat V c) 6 t i6 f6, Dat.leavesExact_idle (dat V c) 7 t i7 f7, acc_reset V t h0]
    unfold step zeroAcc; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (Phi_forget V c t.val (Nat.le_of_lt t.isLt)) $$ HΦ
    icases HΦ' with ⟨⟨HS, HQ⟩, Hr, Hg⟩
    iapply (runA c (grid2.coords t) (ms0 t) (hs0 t) (ms1 t) (hs1 t) (ms2 t) (hs2 t) (ms3 t) (hs3 t) (ms4 t) (hs4 t) (ms5 t) (hs5 t) (ms6 t) (hs6 t) (ms7 t) (hs7 t) accS (Memref.isWhole_whole _) accQ (Memref.isWhole_whole _) ((hcondReset t).mpr h0) (mt (hcondStore t).mp h1) (b0 V t) (b1 V t) (b2 V t) (b3 V t) (b4 V t) (b5 V t) _ _ Set.univ _)
    iframe H0 H1 H2 H3 H4 H5 H6 H7 HS HQ
    iintro ⟨H0, H1, H2, H3, H4, H5, H6, H7, HS, HQ⟩
    iframe Ho H0 H1 H2 H3 H4 H5 Hr Hg HS HQ
    isplitl [H6]; · iexists _; iexact H6
    iexists _; iexact H7
  · rw [Phi_pos V c _ _ (fun e => h0 (by rw [e]))]
    by_cases h1 : t.val % 128 = 127
    · obtain ⟨l6, l7⟩ := liveOut t h1
      rw [show (dat V c).leavesExact 6 t = owns c (ms6 t) fullShare ((dat V c).after 6 t) from by
          unfold Dat.leavesExact; rw [l6], after6,
        show (dat V c).leavesExact 7 t = owns c (ms7 t) fullShare ((dat V c).after 7 t) from by
          unfold Dat.leavesExact; rw [l7], after7, acc_carry V t h0]
      unfold step; dsimp only
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid2.coords t) (ms0 t) (hs0 t) (ms1 t) (hs1 t) (ms2 t) (hs2 t) (ms3 t) (hs3 t) (ms4 t) (hs4 t) (ms5 t) (hs5 t) (ms6 t) (hs6 t) (ms7 t) (hs7 t) accS (Memref.isWhole_whole _) accQ (Memref.isWhole_whole _) (mt (hcondReset t).mp h0) ((hcondStore t).mpr h1) (b0 V t) (b1 V t) (b2 V t) (b3 V t) (b4 V t) (b5 V t) (acc V (t.val - 1) hp).1 (acc V (t.val - 1) hp).2 Set.univ _)
      iframe H0 H1 H2 H3 H4 H5 HS HQ
      isplitl [H6]; · iexists _; iexact H6
      isplitl [H7]; · iexists _; iexact H7
      iintro ⟨H0, H1, H2, H3, H4, H5, H6, H7, HS, HQ⟩
      iframe Ho H0 H1 H2 H3 H4 H5 H6 H7 Hr Hg HS HQ
    · obtain ⟨⟨i6, f6⟩, i7, f7⟩ := idleOut t h1
      rw [Dat.leavesExact_idle (dat V c) 6 t i6 f6, Dat.leavesExact_idle (dat V c) 7 t i7 f7, acc_carry V t h0]
      unfold step; dsimp only
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid2.coords t) (ms0 t) (hs0 t) (ms1 t) (hs1 t) (ms2 t) (hs2 t) (ms3 t) (hs3 t) (ms4 t) (hs4 t) (ms5 t) (hs5 t) (ms6 t) (hs6 t) (ms7 t) (hs7 t) accS (Memref.isWhole_whole _) accQ (Memref.isWhole_whole _) (mt (hcondReset t).mp h0) (mt (hcondStore t).mp h1) (b0 V t) (b1 V t) (b2 V t) (b3 V t) (b4 V t) (b5 V t) (acc V (t.val - 1) hp).1 (acc V (t.val - 1) hp).2 _ _ Set.univ _)
      iframe H0 H1 H2 H3 H4 H5 H6 H7 HS HQ
      iintro ⟨H0, H1, H2, H3, H4, H5, H6, H7, HS, HQ⟩
      iframe Ho H0 H1 H2 H3 H4 H5 Hr Hg HS HQ
      isplitl [H6]; · iexists _; iexact H6
      iexists _; iexact H7

theorem body : Pipeline.BodyObligation (dat V c) (defs₀ (F := F)) Variants.none () Set.univ := fun t => by
  rw [bigSep_W2, bigSep_W2]
  exact sound_body V c t

theorem phi_in :
    (iprop((∃ r, prngReg c r) ∗ Pipeline.scopedRest (Ix := Unit) (Name := ℕ) (U := UR sig nD τ) (Lvl := ℕ) (Val := Elt F) spec2 c) : sProp 𝕄)
      ⊢ (dat V c).Φ 0 :=
  Idealize.SL.BI.Entails.refl _

theorem phi_out :
    (dat V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [show (dat V c).Φ (Fin.last cfg2.N) = Phi V c (Fin.last cfg2.N).val (Nat.le_of_lt_succ (Fin.last cfg2.N).isLt) from rfl]
  refine (Phi_forget V c _ _).trans ?_
  rw [scopedRest_eq]
  iintro ⟨Ha, Hr, Hg⟩
  iframe Ha Hr Hg

end Cert.KernelIdeal.R2

end
-- ==== Proof.KI.R3.lean ====
import proofs.«418526_j20469814133046_3_alg».proof.Proof.KILaunch
import proofs.«418526_j20469814133046_3_alg».proof.Proof.Gen.KernelIdeal.Skeleton
import proofs.«418526_j20469814133046_3_alg».proof.Proof.Gen.KernelIdeal.Points
import proofs.«418526_j20469814133046_3_alg».proof.Proof.LibRegionRecord
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R3

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk (V : Valuation τ sig (Elt F)) (w : Fin cfg3.W) (t : Fin cfg3.N) :
    ((cfg3.win w).xblock (cfg3.grid.coords t)).Idx → Elt F (cfg3.win w).elt :=
  ((cfg3.win w).blk t).view.read (Elt F) (V (Pipeline.arrRef spec3 w))

def dat (V : Valuation τ sig (Elt F)) (c : Dev nD) : Pipeline.Dat τ (Elt F) Unit ℕ (UR sig nD τ) ℕ cfg3 c where
  A w := V (Pipeline.arrRef spec3 w)
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => iblk V 7 t
    | ⟨8, _⟩ => k3_pay1 (k3_pay2 (iblk V 0 t) (iblk V 3 t) (iblk V 5 t) (iblk V 1 t) (iblk V 4 t) (iblk V 2 t)) (iblk V 6 t) (iblk V 7 t)
  Φ _ := Pipeline.ΦA spec3 c
  q _ := fullShare
  owed _ := 0

variable (V : Valuation τ sig (Elt F)) (c : Dev nD)

theorem dat_A (w : Fin cfg3.W) : (dat V c).A w = V (Pipeline.arrRef spec3 w) := rfl
theorem dat_q (w : Fin cfg3.W) : (dat V c).q w = fullShare := rfl
theorem dat_owed (t) : (dat V c).owed t = 0 := rfl
theorem dat_recorded : (dat V c).recorded 0 = Set.univ := rfl

theorem after_8 (t : Fin cfg3.N) :
    (dat V c).after 8 t = k3_pay1 (k3_pay2 (iblk V 0 t) (iblk V 3 t) (iblk V 5 t) (iblk V 1 t) (iblk V 4 t) (iblk V 2 t)) (iblk V 6 t) (iblk V 7 t) := by dsimp only [dat]

theorem phi_in : (iprop((∃ r, prngReg c r) ∗ Pipeline.scopedRest (Ix := Unit) (Name := ℕ) (U := UR sig nD τ) (Lvl := ℕ) (Val := Elt F) spec3 c) : sProp 𝕄) ⊢ (dat V c).Φ 0 :=
  Cert.LibRegionRecord.ΦA_in spec3 c

theorem phi_out : (dat V c).Φ (Fin.last cfg3.N) ⊢ (iprop((∃ r, prngReg c r) ∗ Pipeline.scopedRest (Ix := Unit) (Name := ℕ) (U := UR sig nD τ) (Lvl := ℕ) (Val := Elt F) spec3 c) : sProp 𝕄) :=
  Cert.LibRegionRecord.ΦA_out spec3 c

theorem before_in (t : Fin cfg3.N) :
    (∀ d, (dat V c).before 0 t d = iblk V 0 t) ∧ (∀ d, (dat V c).before 1 t d = iblk V 1 t) ∧ (∀ d, (dat V c).before 2 t d = iblk V 2 t) ∧ (∀ d, (dat V c).before 3 t d = iblk V 3 t) ∧ (∀ d, (dat V c).before 4 t d = iblk V 4 t) ∧ (∀ d, (dat V c).before 5 t d = iblk V 5 t) ∧ (∀ d, (dat V c).before 6 t d = iblk V 6 t) ∧ (∀ d, (dat V c).before 7 t d = iblk V 7 t) := by
  refine ⟨?_, ?_, ?_, ?_, ?_, ?_, ?_, ?_⟩ <;> exact fun d =>
    ((dat V c).before_in_eq_fetched _ rfl (fun _ => rfl) (fun _ _ _ => rfl) (fun _ => rfl) t d).trans rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The body reads its eight inputs whole and stores its value of them over the whole output. -/
theorem sound_kernel (E : Set ℕ) (i : grid3.Coords) {a1 a2 a3 a4 a5 a6 a7 a8 a9} (h1 h2 h3 h4 h5 h6 h7 h8 h9) (x0 x1 x2 x3 x4 x5 x6 x7) (K : PUnit → sProp 𝕄) :
    let I : sProp 𝕄 := iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7)
    iprop(I ∗ (∃ d, owns (c : Thread nD τ) a9 fullShare d) ∗ ((I ∗ owns (c : Thread nD τ) a9 fullShare (k3_pay1 (k3_pay2 x0 x3 x5 x1 x4 x2) x6 x7)) -∗ K ⟨⟩))
      ⊢ wp frame (wpE (defs₀ (F := F)) Variants.none c none) E (cc3__nei_full_kernel i a1 h1 a2 h2 a3 h3 a4 h4 a5 h5 a6 h6 a7 h7 a8 h8 a9 h9) K := by
  simp only [cc3__nei_full_kernel_eq_skeleton]; unfold cc3__nei_full_kernel_skel
  simp only [k3_part1_eq_skeleton]; unfold k3_part1_skel owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, %f7, %e7, H7⟩, ⟨%d, %f8, -, H8⟩, Hk⟩
  subst e0 e1 e2 e3 e4 e5 e6 e7
  sl_exec
  sl_step
  iapply Hk
  isplitr [H8]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists f7; isplitr; · ipureintro; rfl
    iexact H7
  iexists _; isplitr
  swap; · iexact H8
  ipureintro
  rw [View.read_writes_eq_canon _ _ _ (View.cover_of_tiled _ S1x2048x256.size (by rfl)), View.canon_unit_zero hz3]
  simp only [View.readAt_eq_ld, View.ld_unit_zero (S := S1x128x64) hz3, View.ld_unit_zero (S := S1x256x32) hz3,
    View.ld_unit_zero (S := S1x2048x2) hz3, View.ld_unit_zero (S := S64x256) hz2, View.ld_unit_zero (S := S32x256) hz2,
    View.ld_unit_zero (S := S1x256) hz2]

/-- At every point the inputs hold their blocks, so the triple applies; the invariant and what is owed pass through unread. -/
theorem body : Pipeline.BodyObligation (dat V c) (defs₀ (F := F)) Variants.none () Set.univ := fun t => by
  obtain ⟨b0, b1, b2, b3, b4, b5, b6, b7⟩ := before_in V c t
  rw [bigSep_W3, bigSep_W3]
  simp only [b0, b1, b2, b3, b4, b5, b6, b7, (fun _ _ => rfl : ∀ w i, cfg3.idle w i = false)]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  sl_whnfR [defs₀, Defs.onTc]
  iapply (sound_kernel c Set.univ (grid3.coords t) _ _ _ _ _ _ _ _ _ (iblk V 0 t) (iblk V 1 t) (iblk V 2 t) (iblk V 3 t) (iblk V 4 t) (iblk V 5 t) (iblk V 6 t) (iblk V 7 t) _)
  iframe H0 H1 H2 H3 H4 H5 H6 H7
  isplitl [H8]; · iexists _; iexact H8
  iintro ⟨⟨H0, H1, H2, H3, H4, H5, H6, H7⟩, H8⟩
  iframe HΦ H0 H1 H2 H3 H4 H5 H6 H7 H8
  iexact Ho

end Cert.KernelIdeal.R3

end
-- ==== Proof.KI.HostW.lean ====
import proofs.«418526_j20469814133046_3_alg».proof.Proof.KILaunch

noncomputable section

namespace Cert.KernelIdeal.GenP

open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
-- each operation of the stretch writes one buffer, and that buffer is listed
theorem hostOps0_writes : (hostOps0 : List (HloOp τ sig (Elt F))).Forall fun op =>
    op.writes ⊆ (hostOps0_W.map (Proc.devRef (τ := τ) .tc)).toFinset := by
  simp only [List.Forall]; repeat' constructor
  all_goals exact Finset.singleton_subset_iff.mpr (List.mem_toFinset.mpr (List.mem_map_of_mem (by decide)))
theorem hostOps1_fresh : (hostOps1 : List (HloOp τ sig (Elt F))).Forall fun op => op.fresh = ∅ := by
  simp only [List.Forall]; repeat' constructor
abbrev hostOps1_W : List (Ref sig .tc) := [main_cst, main_v5, main_v6, main_cst_0, main_v7, main_v8, main_v9, main_v10, main_v11, main_cst_1, main_v12, main_v13, main_v14, main_v15, main_v16, main_v17, main_v18]
theorem hostOps1_writes : (hostOps1 : List (HloOp τ sig (Elt F))).Forall fun op =>
    op.writes ⊆ (hostOps1_W.map (Proc.devRef (τ := τ) .tc)).toFinset := by
  simp only [List.Forall]; repeat' constructor
  all_goals exact Finset.singleton_subset_iff.mpr (List.mem_toFinset.mpr (List.mem_map_of_mem (by decide)))
theorem hostOps2_fresh : (hostOps2 : List (HloOp τ sig (Elt F))).Forall fun op => op.fresh = ∅ := by
  simp only [List.Forall]; repeat' constructor
abbrev hostOps2_W : List (Ref sig .tc) := [main_v20, main_v21, main_v22, main_v23, main_v24, main_v25, main_v26, main_v27, main_v28, main_v29, main_v30, main_v31, main_v32]
theorem hostOps2_writes : (hostOps2 : List (HloOp τ sig (Elt F))).Forall fun op =>
    op.writes ⊆ (hostOps2_W.map (Proc.devRef (τ := τ) .tc)).toFinset := by
  simp only [List.Forall]; repeat' constructor
  all_goals exact Finset.singleton_subset_iff.mpr (List.mem_toFinset.mpr (List.mem_map_of_mem (by decide)))
theorem hostOps3_fresh : (hostOps3 : List (HloOp τ sig (Elt F))).Forall fun op => op.fresh = ∅ := by
  simp only [List.Forall]; repeat' constructor
abbrev hostOps3_W : List (Ref sig .tc) := [main_cst_2, main_v34, main_cst_3, main_v35, main_cst_4, main_v36, main_v37, main_cst_5, main_v38, main_v39, main_v40, main_v41, main_v42, main_cst_6, main_v43, main_v44, main_v45, main_v46, main_v47, main_v48, main_v49]
theorem hostOps3_writes : (hostOps3 : List (HloOp τ sig (Elt F))).Forall fun op =>
    op.writes ⊆ (hostOps3_W.map (Proc.devRef (τ := τ) .tc)).toFinset := by
  simp only [List.Forall]; repeat' constructor
  all_goals exact Finset.singleton_subset_iff.mpr (List.mem_toFinset.mpr (List.mem_map_of_mem (by decide)))
theorem hostOps4_fresh : (hostOps4 : List (HloOp τ sig (Elt F))).Forall fun op => op.fresh = ∅ := by
  simp only [List.Forall]; repeat' constructor
abbrev hostOps4_W : List (Ref sig .tc) := [main_v51]
theorem hostOps4_writes : (hostOps4 : List (HloOp τ sig (Elt F))).Forall fun op =>
    op.writes ⊆ (hostOps4_W.map (Proc.devRef (τ := τ) .tc)).toFinset := by
  simp only [List.Forall]; repeat' constructor
  all_goals exact Finset.singleton_subset_iff.mpr (List.mem_toFinset.mpr (List.mem_map_of_mem (by decide)))

end Cert.KernelIdeal.GenP

end
-- ==== Proof.KI.Program.lean ====
import proofs.«418526_j20469814133046_3_alg».proof.Proof.KI.R0
import proofs.«418526_j20469814133046_3_alg».proof.Proof.KI.R1
import proofs.«418526_j20469814133046_3_alg».proof.Proof.KI.R2
import proofs.«418526_j20469814133046_3_alg».proof.Proof.KI.R3
import proofs.«418526_j20469814133046_3_alg».proof.Proof.KI.HostW
import proofs.«418526_j20469814133046_3_alg».proof.Proof.LibRegionRecord

noncomputable section

namespace Cert.KernelIdeal.Prog

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)

abbrev W1 (c : Dev nD) : Valuation τ sig (Elt F) := StableHlo.after hostOps0 (W0 m c)

def W2 (c : Dev nD) : Valuation τ sig (Elt F) :=
  Pipeline.withArrays spec0 c (W1 m c) fun w => (R0.dat (W1 m c) c).arrAt w cfg0.N

abbrev W3 (c : Dev nD) : Valuation τ sig (Elt F) := StableHlo.after hostOps1 (W2 m c)

def W4 (c : Dev nD) : Valuation τ sig (Elt F) :=
  Pipeline.withArrays spec1 c (W3 m c) fun w => (R1.dat (W3 m c) c).arrAt w cfg1.N

abbrev W5 (c : Dev nD) : Valuation τ sig (Elt F) := StableHlo.after hostOps2 (W4 m c)

def W6 (c : Dev nD) : Valuation τ sig (Elt F) :=
  Pipeline.withArrays spec2 c (W5 m c) fun w => (R2.dat (W5 m c) c).arrAt w cfg2.N

abbrev W7 (c : Dev nD) : Valuation τ sig (Elt F) := StableHlo.after hostOps3 (W6 m c)

def W8 (c : Dev nD) : Valuation τ sig (Elt F) :=
  Pipeline.withArrays spec3 c (W7 m c) fun w => (R3.dat (W7 m c) c).arrAt w cfg3.N

abbrev W9 (c : Dev nD) : Valuation τ sig (Elt F) := StableHlo.after hostOps4 (W8 m c)

theorem W2_arr (c : Dev nD) (w : Fin cfg0.W) :
    W2 m c (Proc.devRef .tc (Pipeline.arrRef spec0 w)) = (R0.dat (W1 m c) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (R1.dat (W3 m c) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (R2.dat (W5 m c) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W8_arr (c : Dev nD) (w : Fin cfg3.W) :
    W8 m c (Proc.devRef .tc (Pipeline.arrRef spec3 w)) = (R3.dat (W7 m c) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => R0.dat (W1 m c) c
  | ⟨1, _⟩ => fun c => R1.dat (W3 m c) c
  | ⟨2, _⟩ => fun c => R2.dat (W5 m c) c
  | ⟨3, _⟩ => fun c => R3.dat (W7 m c) c

abbrev L : GSem nD τ sig → Finset Unit := fun _ => ∅
abbrev lv : GSem nD τ sig → Unit → ℕ := fun _ _ => 0

set_option backward.isDefEq.respectTransparency.types false in

def reg0 : RegionSeg (pcfgs (F := F)) adm (pdats m) () defs₀ Variants.none L lv 0 :=
  Cert.LibRegionRecord.regionRecord (pcfgs (F := F)) adm (pdats m) () defs₀ Variants.none L lv 0
    launch0.win.to₀ launch0.win launch0.block_pos launch0.arr_whole launch0.stage_whole
    (by dsimp only [pcfgs]; exact Fin.isEmpty')
    (fun c w => R0.dat_q (W1 m c) c w) (fun c t => R0.dat_owed (W1 m c) c t) (fun c => R0.dat_recorded (W1 m c) c)
    (fun c => R0.body (W1 m c) c)
    (fun c => W1 m c) (fun c => W2 m c)
    (fun c w => R0.dat_A (W1 m c) c w)
    (fun c w => (W2_arr m c w).symm)
    (fun c b hb => W2_of_ne m c b fun w e => hb (Finset.mem_image.mpr ⟨w, Finset.mem_univ _, e⟩))
    (fun c => R0.phi_in (W1 m c) c) (fun c => R0.phi_out (W1 m c) c)

set_option backward.isDefEq.respectTransparency.types false in

def reg1 : RegionSeg (pcfgs (F := F)) adm (pdats m) () defs₀ Variants.none L lv 1 :=
  Cert.LibRegionRecord.regionRecord (pcfgs (F := F)) adm (pdats m) () defs₀ Variants.none L lv 1
    launch1.win.to₀ launch1.win launch1.block_pos launch1.arr_whole launch1.stage_whole
    (by dsimp only [pcfgs]; exact Fin.isEmpty')
    (fun c w => R1.dat_q (W3 m c) c w) (fun c t => R1.dat_owed (W3 m c) c t) (fun c => R1.dat_recorded (W3 m c) c)
    (fun c => R1.body (W3 m c) c)
    (fun c => W3 m c) (fun c => W4 m c)
    (fun c w => R1.dat_A (W3 m c) c w)
    (fun c w => (W4_arr m c w).symm)
    (fun c b hb => W4_of_ne m c b fun w e => hb (Finset.mem_image.mpr ⟨w, Finset.mem_univ _, e⟩))
    (fun c => R1.phi_in (W3 m c) c) (fun c => R1.phi_out (W3 m c) c)

set_option backward.isDefEq.respectTransparency.types false in

def reg2 : RegionSeg (pcfgs (F := F)) adm (pdats m) () defs₀ Variants.none L lv 2 :=
  Cert.LibRegionRecord.regionRecord (pcfgs (F := F)) adm (pdats m) () defs₀ Variants.none L lv 2
    launch2.win.to₀ launch2.win launch2.block_pos launch2.arr_whole launch2.stage_whole
    (by dsimp only [pcfgs]; exact Fin.isEmpty')
    (fun c w => R2.dat_q (W5 m c) c w) (fun c t => R2.dat_owed (W5 m c) c t) (fun c => R2.dat_recorded (W5 m c) c)
    (fun c => R2.body (W5 m c) c)
    (fun c => W5 m c) (fun c => W6 m c)
    (fun c w => R2.dat_A (W5 m c) c w)
    (fun c w => (W6_arr m c w).symm)
    (fun c b hb => W6_of_ne m c b fun w e => hb (Finset.mem_image.mpr ⟨w, Finset.mem_univ _, e⟩))
    (fun c => R2.phi_in (W5 m c) c) (fun c => R2.phi_out (W5 m c) c)

set_option backward.isDefEq.respectTransparency.types false in

def reg3 : RegionSeg (pcfgs (F := F)) adm (pdats m) () defs₀ Variants.none L lv 3 :=
  Cert.LibRegionRecord.regionRecord (pcfgs (F := F)) adm (pdats m) () defs₀ Variants.none L lv 3
    launch3.win.to₀ launch3.win launch3.block_pos launch3.arr_whole launch3.stage_whole
    (by dsimp only [pcfgs]; exact Fin.isEmpty')
    (fun c w => R3.dat_q (W7 m c) c w) (fun c t => R3.dat_owed (W7 m c) c t) (fun c => R3.dat_recorded (W7 m c) c)
    (fun c => R3.body (W7 m c) c)
    (fun c => W7 m c) (fun c => W8 m c)
    (fun c w => R3.dat_A (W7 m c) c w)
    (fun c w => (W8_arr m c w).symm)
    (fun c b hb => W8_of_ne m c b fun w e => hb (Finset.mem_image.mpr ⟨w, Finset.mem_univ _, e⟩))
    (fun c => R3.phi_in (W7 m c) c) (fun c => R3.phi_out (W7 m c) c)

abbrev rest (c : Dev nD) : sProp 𝕄 := Cert.LibRegionRecord.rest (Ix := Unit) (Name := ℕ) (U := UR sig nD τ) (Lvl := ℕ) (Val := Elt F) (τ := τ) (sig := sig) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W rest

abbrev segs : List (Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem last_chain (c : Dev nD) :
    (iprop(StableHlo.held (c : Thread nD τ) (Pipeline.ucRefs τ sig) (W9 m c) ∗ rest c) : sProp 𝕄)
      ⊢ iprop(iprop(StableHlo.held (c : Thread nD τ) (Pipeline.ucRefs τ sig) (W9 m c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

theorem main_run (c : Dev nD) : main (F := F) c = Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) :=
  Pipeline.θ_run_regions_kit (pcfgs (F := F)) adm (pdats m) () cellOf_inj emb₁ defs₀ Variants.none L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem keep0 (c : Dev nD) (b : Ref sig .tc) (h : b ∉ hostOps0_W) : W1 m c b = W0 m c b :=
  StableHlo.after_of_writes_sub hostOps0 _ hostOps0_writes h
theorem keep1 (c : Dev nD) (b : Ref sig .tc) (h : b ∉ hostOps1_W) : W3 m c b = W2 m c b :=
  StableHlo.after_of_writes_sub hostOps1 _ hostOps1_writes h
theorem keep2 (c : Dev nD) (b : Ref sig .tc) (h : b ∉ hostOps2_W) : W5 m c b = W4 m c b :=
  StableHlo.after_of_writes_sub hostOps2 _ hostOps2_writes h
theorem keep3 (c : Dev nD) (b : Ref sig .tc) (h : b ∉ hostOps3_W) : W7 m c b = W6 m c b :=
  StableHlo.after_of_writes_sub hostOps3 _ hostOps3_writes h
theorem keep4 (c : Dev nD) (b : Ref sig .tc) (h : b ∉ hostOps4_W) : W9 m c b = W8 m c b :=
  StableHlo.after_of_writes_sub hostOps4 _ hostOps4_writes h

theorem W2_in (c : Dev nD) (w : Fin cfg0.W) (hin : (cfg0.win w).isOut = false) :
    W2 m c (Pipeline.arrRef spec0 w) = W1 m c (Pipeline.arrRef spec0 w) :=
  (W2_arr m c w).trans (((R0.dat (W1 m c) c).arrAt_in w hin _).trans (R0.dat_A (W1 m c) c w))
theorem W6_in (c : Dev nD) (w : Fin cfg2.W) (hin : (cfg2.win w).isOut = false) :
    W6 m c (Pipeline.arrRef spec2 w) = W5 m c (Pipeline.arrRef spec2 w) :=
  (W6_arr m c w).trans (((R2.dat (W5 m c) c).arrAt_in w hin _).trans (R2.dat_A (W5 m c) c w))
theorem W8_in (c : Dev nD) (w : Fin cfg3.W) (hin : (cfg3.win w).isOut = false) :
    W8 m c (Pipeline.arrRef spec3 w) = W7 m c (Pipeline.arrRef spec3 w) :=
  (W8_arr m c w).trans (((R3.dat (W7 m c) c).arrAt_in w hin _).trans (R3.dat_A (W7 m c) c w))

theorem W9_arg (c : Dev nD) (b : Ref sig .tc) (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    W9 m c b = m ((c : Thread nD τ).loc b) :=
  (keep4 m c b h4).trans <| (W8_of_ne m c b a3).trans <| (keep3 m c b h3).trans <| (W6_of_ne m c b a2).trans <| (keep2 m c b h2).trans <|
    (W4_of_ne m c b a1).trans <| (keep1 m c b h1).trans <| (W2_of_ne m c b a0).trans <| (keep0 m c b h0).trans rfl

theorem W9_main_arg0 (c : Dev nD) : W9 m c main_arg0 = m ((c : Thread nD τ).loc main_arg0) :=
  (keep4 m c main_arg0 (by decide)).trans <| (W8_in m c 0 rfl).trans <| (keep3 m c main_arg0 (by decide)).trans <| (W6_in m c 0 rfl).trans <|
    (keep2 m c main_arg0 (by decide)).trans <| (W4_of_ne m c main_arg0 (by decide)).trans <| (keep1 m c main_arg0 (by decide)).trans <|
    (W2_of_ne m c main_arg0 (by decide)).trans <| (keep0 m c main_arg0 (by decide)).trans rfl
theorem W9_main_arg1 (c : Dev nD) : W9 m c main_arg1 = m ((c : Thread nD τ).loc main_arg1) :=
  (keep4 m c main_arg1 (by decide)).trans <| (W8_in m c 1 rfl).trans <| (keep3 m c main_arg1 (by decide)).trans <| (W6_in m c 1 rfl).trans <|
    (keep2 m c main_arg1 (by decide)).trans <| (W4_of_ne m c main_arg1 (by decide)).trans <| (keep1 m c main_arg1 (by decide)).trans <|
    (W2_of_ne m c main_arg1 (by decide)).trans <| (keep0 m c main_arg1 (by decide)).trans rfl
theorem W9_main_arg2 (c : Dev nD) : W9 m c main_arg2 = m ((c : Thread nD τ).loc main_arg2) :=
  W9_arg m c main_arg2 (by decide) (by decide) (by decide) (by decide) (by decide) (by decide) (by decide) (by decide) (by decide)
theorem W9_main_arg3 (c : Dev nD) : W9 m c main_arg3 = m ((c : Thread nD τ).loc main_arg3) :=
  W9_arg m c main_arg3 (by decide) (by decide) (by decide) (by decide) (by decide) (by decide) (by decide) (by decide) (by decide)
theorem W9_main_arg4 (c : Dev nD) : W9 m c main_arg4 = m ((c : Thread nD τ).loc main_arg4) :=
  W9_arg m c main_arg4 (by decide) (by decide) (by decide) (by decide) (by decide) (by decide) (by decide) (by decide) (by decide)
theorem W9_main_arg5 (c : Dev nD) : W9 m c main_arg5 = m ((c : Thread nD τ).loc main_arg5) :=
  W9_arg m c main_arg5 (by decide) (by decide) (by decide) (by decide) (by decide) (by decide) (by decide) (by decide) (by decide)
theorem W9_main_arg6 (c : Dev nD) : W9 m c main_arg6 = m ((c : Thread nD τ).loc main_arg6) :=
  W9_arg m c main_arg6 (by decide) (by decide) (by decide) (by decide) (by decide) (by decide) (by decide) (by decide) (by decide)
theorem W9_main_arg7 (c : Dev nD) : W9 m c main_arg7 = m ((c : Thread nD τ).loc main_arg7) :=
  W9_arg m c main_arg7 (by decide) (by decide) (by decide) (by decide) (by decide) (by decide) (by decide) (by decide) (by decide)
theorem W9_main_arg8 (c : Dev nD) : W9 m c main_arg8 = m ((c : Thread nD τ).loc main_arg8) :=
  W9_arg m c main_arg8 (by decide) (by decide) (by decide) (by decide) (by decide) (by decide) (by decide) (by decide) (by decide)
theorem W9_main_arg9 (c : Dev nD) : W9 m c main_arg9 = m ((c : Thread nD τ).loc main_arg9) :=
  W9_arg m c main_arg9 (by decide) (by decide) (by decide) (by decide) (by decide) (by decide) (by decide) (by decide) (by decide)
theorem W9_main_arg10 (c : Dev nD) : W9 m c main_arg10 = m ((c : Thread nD τ).loc main_arg10) :=
  W9_arg m c main_arg10 (by decide) (by decide) (by decide) (by decide) (by decide) (by decide) (by decide) (by decide) (by decide)
theorem W9_main_arg11 (c : Dev nD) : W9 m c main_arg11 = m ((c : Thread nD τ).loc main_arg11) :=
  W9_arg m c main_arg11 (by decide) (by decide) (by decide) (by decide) (by decide) (by decide) (by decide) (by decide) (by decide)

-- the twelve arguments hold what they held at launch
abbrev Kept (mem : (ℓ : Loc nD τ sig) → Buf (Elt F) ℓ) (c : Dev nD) : Prop :=
  mem ((c.tc : Thread nD τ).loc main_arg0) = m ((c.tc : Thread nD τ).loc main_arg0) ∧
  mem ((c.tc : Thread nD τ).loc main_arg1) = m ((c.tc : Thread nD τ).loc main_arg1) ∧
  mem ((c.tc : Thread nD τ).loc main_arg2) = m ((c.tc : Thread nD τ).loc main_arg2) ∧
  mem ((c.tc : Thread nD τ).loc main_arg3) = m ((c.tc : Thread nD τ).loc main_arg3) ∧
  mem ((c.tc : Thread nD τ).loc main_arg4) = m ((c.tc : Thread nD τ).loc main_arg4) ∧
  mem ((c.tc : Thread nD τ).loc main_arg5) = m ((c.tc : Thread nD τ).loc main_arg5) ∧
  mem ((c.tc : Thread nD τ).loc main_arg6) = m ((c.tc : Thread nD τ).loc main_arg6) ∧
  mem ((c.tc : Thread nD τ).loc main_arg7) = m ((c.tc : Thread nD τ).loc main_arg7) ∧
  mem ((c.tc : Thread nD τ).loc main_arg8) = m ((c.tc : Thread nD τ).loc main_arg8) ∧
  mem ((c.tc : Thread nD τ).loc main_arg9) = m ((c.tc : Thread nD τ).loc main_arg9) ∧
  mem ((c.tc : Thread nD τ).loc main_arg10) = m ((c.tc : Thread nD τ).loc main_arg10) ∧
  mem ((c.tc : Thread nD τ).loc main_arg11) = m ((c.tc : Thread nD τ).loc main_arg11)

-- the run with the two results named and every argument as launched: no item writes an argument
theorem run_named : θ_run defs (onTc (τ := τ) (main (F := F))) ⟨m, fun _ => 0, ρ⟩ (fun r => ∀ c : Dev nD,
      r.2.mem ((c.tc : Thread nD τ).loc main_v20) = W9 m c main_v20 ∧ r.2.mem ((c.tc : Thread nD τ).loc main_v51) = W9 m c main_v51 ∧ Kept m r.2.mem c) :=
  (θ_run defs _ _).mono (fun r h c =>
    ⟨h c _ (mem_uc main_v20 (by decide)), h c _ (mem_uc main_v51 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c)⟩)
    (run_all m ρ)

theorem frame : θ_run defs (onTc (τ := τ) (main (F := F))) ⟨m, fun _ => 0, ρ⟩ (fun r => ∀ c : Dev nD, Kept m r.2.mem c) :=
  (θ_run defs _ _).mono (fun r h c => (h c).2.2) (run_named m ρ)

end Cert.KernelIdeal.Prog

end
-- ==== Proof.Ref.Terms.lean ====
import proofs.«418526_j20469814133046_3_alg».proof.ReferenceIdeal

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F] [Cert.ReferenceIdeal.Facts]

def batchIota : IVec S256x1x1 32 :=
  broadcastInDim S256x1x1 ![0] bcast_S256_S256x1x1_0 (iotaInDim S256 32 0)

def batchIx : IVec S256x1x1 32 :=
  select (cmpi .slt batchIota (broadcastInDim S256x1x1 ![] bcast_S_S256x1x1 (constantI S_ 32 0#32)))
    (addi batchIota (broadcastInDim S256x1x1 ![] bcast_S_S256x1x1 (constantI S_ 32 256#32))) batchIota

-- An index below zero counts from the end of an axis of length n.
def wrapIx (n : BitVec 32) (a : IVec S256x128x16 32) : IVec S256x128x16 32 :=
  select (cmpi .slt a (broadcastInDim S256x128x16 ![] bcast_S_S256x128x16 (constantI S_ 32 0#32)))
    (addi a (broadcastInDim S256x128x16 ![] bcast_S_S256x128x16 (constantI S_ 32 n))) a

-- For each (batch, atom, neighbour slot) the pair (batch, wrapped row) a gather starts from.
def gatherIx (n : BitVec 32) (a : IVec S256x128x16 32) : IVec S256x128x16x2 32 :=
  concatenate S256x128x16x2 3
    [⟨S256x128x16x1, broadcastInDim S256x128x16x1 ![0, 1, 2] bcast_S256x128x16_S256x128x16x1_0_1_2
        (broadcastInDim S256x128x16 ![0, 1, 2] bcast_S256x1x1_S256x128x16_0_1_2 batchIx)⟩,
     ⟨S256x128x16x1, broadcastInDim S256x128x16x1 ![0, 1, 2] bcast_S256x128x16_S256x128x16x1_0_1_2 (wrapIx n a)⟩]
    concatenates_S256x128x16x1_S256x128x16x1_S256x128x16x2_d3

def gatheredAtom (a0 : FVec F S256x128x64 .f32) (a2 : IVec S256x128x16 32) : FVec F S256x128x16x64 .f32 :=
  Host.gather gather_S256x128x64_S256x128x16x2_S256x128x16x64_3_01_n_n_01_3_1164 a0 (gatherIx 128#32 a2)

def gatheredBond (a1 : FVec F S256x256x32 .f32) (a3 : IVec S256x128x16 32) : FVec F S256x128x16x32 .f32 :=
  Host.gather gather_S256x256x32_S256x128x16x2_S256x128x16x32_3_01_n_n_01_3_1132 a1 (gatherIx 256#32 a3)

def neiFeat (a0 : FVec F S256x128x64 .f32) (a1 : FVec F S256x256x32 .f32) (a2 a3 : IVec S256x128x16 32) :
    FVec F S256x128x16x96 .f32 :=
  concatenate S256x128x16x96 3
    [⟨S256x128x16x64, gatheredAtom a0 a2⟩, ⟨S256x128x16x32, gatheredBond a1 a3⟩]
    concatenates_S256x128x16x64_S256x128x16x32_S256x128x16x96_d3

def chanNei (v : FVec F S256 .f32) : FVec F S256x128x16x256 .f32 :=
  broadcastInDim S256x128x16x256 ![0, 1, 2, 3] bcast_S1x1x1x256_S256x128x16x256_0_1_2_3
    (broadcastInDim S1x1x1x256 ![3] bcast_S256_S1x1x1x256_3 v)

def chanAtom (v : FVec F S256 .f32) : FVec F S256x128x256 .f32 :=
  broadcastInDim S256x128x256 ![0, 1, 2] bcast_S1x1x256_S256x128x256_0_1_2
    (broadcastInDim S1x1x256 ![2] bcast_S256_S1x1x256_2 v)

def yNei (x : FVec F S256x128x16x96 .f32) (a8 : FVec F S256x96 .f32) (a9 : FVec F S256 .f32) :
    FVec F S256x128x16x256 .f32 :=
  addf (Host.dotGeneral (F := F) dot_S256x128x16x96_S256x96_S256x128x16x256_3_1_012_0_n_n none x a8) (chanNei a9)

def yAtom (a0 : FVec F S256x128x64 .f32) (a4 : FVec F S256x64 .f32) (a5 : FVec F S256 .f32) :
    FVec F S256x128x256 .f32 :=
  addf (Host.dotGeneral (F := F) dot_S256x128x64_S256x64_S256x128x256_2_1_01_0_n_n none a0 a4) (chanAtom a5)

def flatNei (y : FVec F S256x128x16x256 .f32) : FVec F S524288x256 .f32 :=
  shapeCast S524288x256 y shapeCasts_S256x128x16x256_S524288x256

def flatAtom (y : FVec F S256x128x256 .f32) : FVec F S32768x256 .f32 :=
  shapeCast S32768x256 y shapeCasts_S256x128x256_S32768x256

def colSumNei (x : FVec F S524288x256 .f32) : FVec F S256 .f32 :=
  Host.reduceAdd (F := F) x (constant (F := F) S_ .f32 0x00000000#32) reducesTo_S524288x256_S256_d0 h_S_

def colSumAtom (x : FVec F S32768x256 .f32) : FVec F S256 .f32 :=
  Host.reduceAdd (F := F) x (constant (F := F) S_ .f32 0x00000000#32) reducesTo_S32768x256_S256_d0 h_S_

def meanNei (x : FVec F S524288x256 .f32) : FVec F S256 .f32 :=
  Host.divf (F := F) (colSumNei x) (broadcastInDim S256 ![] bcast_S_S256 (constant (F := F) S_ .f32 0x49000000#32))

def meanAtom (x : FVec F S32768x256 .f32) : FVec F S256 .f32 :=
  Host.divf (F := F) (colSumAtom x) (broadcastInDim S256 ![] bcast_S_S256 (constant (F := F) S_ .f32 0x47000000#32))

def centredNei (x : FVec F S524288x256 .f32) : FVec F S524288x256 .f32 :=
  subf x (broadcastInDim S524288x256 ![0, 1] bcast_S1x256_S524288x256_0_1
    (Host.divf (F := F) (broadcastInDim S1x256 ![1] bcast_S256_S1x256_1 (colSumNei x))
      (broadcastInDim S1x256 ![] bcast_S_S1x256 (constant (F := F) S_ .f32 0x49000000#32))))

def centredAtom (x : FVec F S32768x256 .f32) : FVec F S32768x256 .f32 :=
  subf x (broadcastInDim S32768x256 ![0, 1] bcast_S1x256_S32768x256_0_1
    (Host.divf (F := F) (broadcastInDim S1x256 ![1] bcast_S256_S1x256_1 (colSumAtom x))
      (broadcastInDim S1x256 ![] bcast_S_S1x256 (constant (F := F) S_ .f32 0x47000000#32))))

def dofNei : FVec F S_ .f32 :=
  subf (constant (F := F) S_ .f32 0x49000000#32) (sitofp (F := F) .f32 (constantI S_ 32 0#32))

def dofAtom : FVec F S_ .f32 :=
  subf (constant (F := F) S_ .f32 0x47000000#32) (sitofp (F := F) .f32 (constantI S_ 32 0#32))

-- A vector kept where a scalar condition holds, not-a-number elsewhere.
def guarded (p : IVec S_ 1) (v : FVec F S256 .f32) : FVec F S256 .f32 :=
  select (broadcastInDim S256 ![] bcast_S_S256 p) v
    (broadcastInDim S256 ![] bcast_S_S256 (constant (F := F) S_ .f32 0x7FC00000#32))

-- The biased column variance: the mean of the squared deviations, guarded by a positive divisor.
def varNei (x : FVec F S524288x256 .f32) : FVec F S256 .f32 :=
  guarded (cmpf (F := F) .ogt dofNei (constant (F := F) S_ .f32 0x00000000#32))
    (Host.divf (F := F) (colSumNei (mulf (centredNei x) (centredNei x))) (broadcastInDim S256 ![] bcast_S_S256 dofNei))

def varAtom (x : FVec F S32768x256 .f32) : FVec F S256 .f32 :=
  guarded (cmpf (F := F) .ogt dofAtom (constant (F := F) S_ .f32 0x00000000#32))
    (Host.divf (F := F) (colSumAtom (mulf (centredAtom x) (centredAtom x))) (broadcastInDim S256 ![] bcast_S_S256 dofAtom))

-- γ / √(variance + ε), channel by channel.
def scaleOf (var g : FVec F S256 .f32) : FVec F S256 .f32 :=
  Host.divf (F := F) g
    (Host.sqrt (F := F) (addf var (broadcastInDim S256 ![] bcast_S_S256 (constant (F := F) S_ .f32 0x358637BD#32))))

def bnNei (y : FVec F S256x128x16x256 .f32) (mean var g be : FVec F S256 .f32) : FVec F S256x128x16x256 .f32 :=
  addf (mulf (subf y (chanNei mean)) (chanNei (scaleOf var g))) (chanNei be)

def bnAtom (y : FVec F S256x128x256 .f32) (mean var g be : FVec F S256 .f32) : FVec F S256x128x256 .f32 :=
  addf (mulf (subf y (chanAtom mean)) (chanAtom (scaleOf var g))) (chanAtom be)

def lreluNei (z : FVec F S256x128x16x256 .f32) : FVec F S256x128x16x256 .f32 :=
  select (cmpf (F := F) .oge z (broadcastInDim S256x128x16x256 ![] bcast_S_S256x128x16x256 (constant (F := F) S_ .f32 0x00000000#32)))
    z (mulf (broadcastInDim S256x128x16x256 ![] bcast_S_S256x128x16x256 (constant (F := F) S_ .f32 0x3C23D70A#32)) z)

def lreluAtom (z : FVec F S256x128x256 .f32) : FVec F S256x128x256 .f32 :=
  select (cmpf (F := F) .oge z (broadcastInDim S256x128x256 ![] bcast_S_S256x128x256 (constant (F := F) S_ .f32 0x00000000#32)))
    z (mulf (broadcastInDim S256x128x256 ![] bcast_S_S256x128x256 (constant (F := F) S_ .f32 0x3C23D70A#32)) z)

def normNei (y : FVec F S256x128x16x256 .f32) (g be : FVec F S256 .f32) : FVec F S256x128x16x256 .f32 :=
  lreluNei (bnNei y (meanNei (flatNei y)) (varNei (flatNei y)) g be)

def normAtom (y : FVec F S256x128x256 .f32) (g be : FVec F S256 .f32) : FVec F S256x128x256 .f32 :=
  lreluAtom (bnAtom y (meanAtom (flatAtom y)) (varAtom (flatAtom y)) g be)

-- Atom branch: linear map, batch normalisation, leaky rectifier.
def resAtom (a0 : FVec F S256x128x64 .f32) (a4 : FVec F S256x64 .f32) (a5 a6 a7 : FVec F S256 .f32) :
    FVec F S256x128x256 .f32 :=
  normAtom (yAtom a0 a4 a5) a6 a7

-- Neighbour branch: gather and join the features, linear map, batch normalisation, leaky rectifier.
def resNei (a0 : FVec F S256x128x64 .f32) (a1 : FVec F S256x256x32 .f32) (a2 a3 : IVec S256x128x16 32)
    (a8 : FVec F S256x96 .f32) (a9 a10 a11 : FVec F S256 .f32) : FVec F S256x128x16x256 .f32 :=
  normNei (yNei (neiFeat a0 a1 a2 a3) a8 a9) a10 a11

end Cert.ReferenceIdeal.RefRun

end
-- ==== Proof.Ref.RunBase.lean ====
import Idealize.ShloMosaic.Lib.StableHlo.Run

noncomputable section

namespace Cert.ReferenceIdeal.RefRun

open Idealize.ShloMosaic Idealize.ShloMosaic.StableHlo

variable {τ : Topo} {sig : RefSig} {Val : EltTy → Type}

-- An operation that writes one reference outside a list writes no listed reference.
theorem nw {y : Ref sig .tc} {P : List (Ref sig .tc)} (h : y ∉ P) :
    ∀ r ∈ P, Proc.devRef (τ := τ) .tc r ∉ ({Proc.devRef .tc y} : Finset (DevRef τ sig)) :=
  fun r hr hm => h (Proc.devRef_injective _ (Finset.mem_singleton.1 hm) ▸ hr)

-- A listed reference keeps its contents across a line none of whose operations writes a listed reference.
theorem keep {l : List (HloOp τ sig Val)} {P : List (Ref sig .tc)}
    (h : l.Forall fun op => ∀ r ∈ P, Proc.devRef (τ := τ) .tc r ∉ op.writes) (V : Valuation τ sig Val)
    {r : Ref sig .tc} (hr : r ∈ P := by decide) : after l V (Proc.devRef .tc r) = V (Proc.devRef .tc r) :=
  after_of_forall_not_mem l V fun op ho => List.forall_iff_forall_mem.1 h op ho r hr

end Cert.ReferenceIdeal.RefRun

end
-- ==== Proof.Ref.Ops.lean ====
import proofs.«418526_j20469814133046_3_alg».proof.ReferenceIdeal
import proofs.«418526_j20469814133046_3_alg».proof.Proof.Ref.RunBase

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- The contents of a buffer of shape `s` and element type `e`.
abbrev T (s : Shape) (e : EltTy) : Type := (⟨s, e⟩ : BufTy).Contents (Elt F)

-- Operations 1 … 40: the index arithmetic and the two gathers.
abbrev opsP : List (HloOp τ sig (Elt F)) :=
  [
    StableHlo.nullary main_v0 (iotaInDim S256 32 0),
    StableHlo.unary main_v0 main_v1 (broadcastInDim S256x1x1 ![0] bcast_S256_S256x1x1_0 : T S256 .i32 → T S256x1x1 .i32),
    StableHlo.nullary main_c (constantI S_ 32 0#32),
    StableHlo.unary main_c main_v2 (broadcastInDim S256x1x1 ![] bcast_S_S256x1x1 : T S_ .i32 → T S256x1x1 .i32),
    StableHlo.binary main_v1 main_v2 main_v3 (cmpi .slt : T S256x1x1 .i32 → T S256x1x1 .i32 → T S256x1x1 .i1),
    StableHlo.nullary main_c_0 (constantI S_ 32 256#32),
    StableHlo.unary main_c_0 main_v4 (broadcastInDim S256x1x1 ![] bcast_S_S256x1x1 : T S_ .i32 → T S256x1x1 .i32),
    StableHlo.binary main_v1 main_v4 main_v5 (addi : T S256x1x1 .i32 → T S256x1x1 .i32 → T S256x1x1 .i32),
    StableHlo.ternary main_v3 main_v5 main_v1 main_v6 (select : T S256x1x1 .i1 → T S256x1x1 .i32 → T S256x1x1 .i32 → T S256x1x1 .i32),
    StableHlo.nullary main_c_1 (constantI S_ 32 0#32),
    StableHlo.unary main_c_1 main_v7 (broadcastInDim S256x128x16 ![] bcast_S_S256x128x16 : T S_ .i32 → T S256x128x16 .i32),
    StableHlo.binary main_arg2 main_v7 main_v8 (cmpi .slt : T S256x128x16 .i32 → T S256x128x16 .i32 → T S256x128x16 .i1),
    StableHlo.nullary main_c_2 (constantI S_ 32 128#32),
    StableHlo.unary main_c_2 main_v9 (broadcastInDim S256x128x16 ![] bcast_S_S256x128x16 : T S_ .i32 → T S256x128x16 .i32),
    StableHlo.binary main_arg2 main_v9 main_v10 (addi : T S256x128x16 .i32 → T S256x128x16 .i32 → T S256x128x16 .i32),
    StableHlo.ternary main_v8 main_v10 main_arg2 main_v11 (select : T S256x128x16 .i1 → T S256x128x16 .i32 → T S256x128x16 .i32 → T S256x128x16 .i32),
    StableHlo.unary main_v6 main_v12 (broadcastInDim S256x128x16 ![0, 1, 2] bcast_S256x1x1_S256x128x16_0_1_2 : T S256x1x1 .i32 → T S256x128x16 .i32),
    StableHlo.unary main_v12 main_v13 (broadcastInDim S256x128x16x1 ![0, 1, 2] bcast_S256x128x16_S256x128x16x1_0_1_2 : T S256x128x16 .i32 → T S256x128x16x1 .i32),
    StableHlo.unary main_v11 main_v14 (broadcastInDim S256x128x16x1 ![0, 1, 2] bcast_S256x128x16_S256x128x16x1_0_1_2 : T S256x128x16 .i32 → T S256x128x16x1 .i32),
    StableHlo.binary main_v13 main_v14 main_v15 ((fun a b => concatenate S256x128x16x2 3 [⟨S256x128x16x1, a⟩, ⟨S256x128x16x1, b⟩] concatenates_S256x128x16x1_S256x128x16x1_S256x128x16x2_d3) : T S256x128x16x1 .i32 → T S256x128x16x1 .i32 → T S256x128x16x2 .i32),
    StableHlo.binary main_arg0 main_v15 main_v16 ((fun x i => Host.gather gather_S256x128x64_S256x128x16x2_S256x128x16x64_3_01_n_n_01_3_1164 x i) : T S256x128x64 .f32 → T S256x128x16x2 .i32 → T S256x128x16x64 .f32),
    StableHlo.nullary main_c_3 (constantI S_ 32 0#32),
    StableHlo.unary main_c_3 main_v17 (broadcastInDim S256x1x1 ![] bcast_S_S256x1x1 : T S_ .i32 → T S256x1x1 .i32),
    StableHlo.binary main_v1 main_v17 main_v18 (cmpi .slt : T S256x1x1 .i32 → T S256x1x1 .i32 → T S256x1x1 .i1),
    StableHlo.nullary main_c_4 (constantI S_ 32 256#32),
    StableHlo.unary main_c_4 main_v19 (broadcastInDim S256x1x1 ![] bcast_S_S256x1x1 : T S_ .i32 → T S256x1x1 .i32),
    StableHlo.binary main_v1 main_v19 main_v20 (addi : T S256x1x1 .i32 → T S256x1x1 .i32 → T S256x1x1 .i32),
    StableHlo.ternary main_v18 main_v20 main_v1 main_v21 (select : T S256x1x1 .i1 → T S256x1x1 .i32 → T S256x1x1 .i32 → T S256x1x1 .i32),
    StableHlo.nullary main_c_5 (constantI S_ 32 0#32),
    StableHlo.unary main_c_5 main_v22 (broadcastInDim S256x128x16 ![] bcast_S_S256x128x16 : T S_ .i32 → T S256x128x16 .i32),
    StableHlo.binary main_arg3 main_v22 main_v23 (cmpi .slt : T S256x128x16 .i32 → T S256x128x16 .i32 → T S256x128x16 .i1),
    StableHlo.nullary main_c_6 (constantI S_ 32 256#32),
    StableHlo.unary main_c_6 main_v24 (broadcastInDim S256x128x16 ![] bcast_S_S256x128x16 : T S_ .i32 → T S256x128x16 .i32),
    StableHlo.binary main_arg3 main_v24 main_v25 (addi : T S256x128x16 .i32 → T S256x128x16 .i32 → T S256x128x16 .i32),
    StableHlo.ternary main_v23 main_v25 main_arg3 main_v26 (select : T S256x128x16 .i1 → T S256x128x16 .i32 → T S256x128x16 .i32 → T S256x128x16 .i32),
    StableHlo.unary main_v21 main_v27 (broadcastInDim S256x128x16 ![0, 1, 2] bcast_S256x1x1_S256x128x16_0_1_2 : T S256x1x1 .i32 → T S256x128x16 .i32),
    StableHlo.unary main_v27 main_v28 (broadcastInDim S256x128x16x1 ![0, 1, 2] bcast_S256x128x16_S256x128x16x1_0_1_2 : T S256x128x16 .i32 → T S256x128x16x1 .i32),
    StableHlo.unary main_v26 main_v29 (broadcastInDim S256x128x16x1 ![0, 1, 2] bcast_S256x128x16_S256x128x16x1_0_1_2 : T S256x128x16 .i32 → T S256x128x16x1 .i32),
    StableHlo.binary main_v28 main_v29 main_v30 ((fun a b => concatenate S256x128x16x2 3 [⟨S256x128x16x1, a⟩, ⟨S256x128x16x1, b⟩] concatenates_S256x128x16x1_S256x128x16x1_S256x128x16x2_d3) : T S256x128x16x1 .i32 → T S256x128x16x1 .i32 → T S256x128x16x2 .i32),
    StableHlo.binary main_arg1 main_v30 main_v31 ((fun x i => Host.gather gather_S256x256x32_S256x128x16x2_S256x128x16x32_3_01_n_n_01_3_1132 x i) : T S256x256x32 .f32 → T S256x128x16x2 .i32 → T S256x128x16x32 .f32) ]

-- Operations 41 … 95: the neighbour branch.
abbrev opsN : List (HloOp τ sig (Elt F)) :=
  [
    StableHlo.binary main_v16 main_v31 main_v32 ((fun a b => concatenate S256x128x16x96 3 [⟨S256x128x16x64, a⟩, ⟨S256x128x16x32, b⟩] concatenates_S256x128x16x64_S256x128x16x32_S256x128x16x96_d3) : T S256x128x16x64 .f32 → T S256x128x16x32 .f32 → T S256x128x16x96 .f32),
    StableHlo.binary main_v32 main_arg8 main_v33 ((fun l r => Host.dotGeneral dot_S256x128x16x96_S256x96_S256x128x16x256_3_1_012_0_n_n none l r) : T S256x128x16x96 .f32 → T S256x96 .f32 → T S256x128x16x256 .f32),
    StableHlo.unary main_arg9 main_v34 (broadcastInDim S1x1x1x256 ![3] bcast_S256_S1x1x1x256_3 : T S256 .f32 → T S1x1x1x256 .f32),
    StableHlo.unary main_v34 main_v35 (broadcastInDim S256x128x16x256 ![0, 1, 2, 3] bcast_S1x1x1x256_S256x128x16x256_0_1_2_3 : T S1x1x1x256 .f32 → T S256x128x16x256 .f32),
    StableHlo.binary main_v33 main_v35 main_v36 (addf : T S256x128x16x256 .f32 → T S256x128x16x256 .f32 → T S256x128x16x256 .f32),
    StableHlo.reshape main_v36 main_v37 rfl shapeCasts_S256x128x16x256_S524288x256,
    StableHlo.nullary main_cst (constant S_ .f32 0x00000000#32),
    StableHlo.binary main_v37 main_cst main_v38 ((fun x v => Host.reduceAdd x v reducesTo_S524288x256_S256_d0 h_S_) : T S524288x256 .f32 → T S_ .f32 → T S256 .f32),
    StableHlo.nullary main_cst_7 (constant S_ .f32 0x49000000#32),
    StableHlo.unary main_cst_7 main_v39 (broadcastInDim S256 ![] bcast_S_S256 : T S_ .f32 → T S256 .f32),
    StableHlo.binary main_v38 main_v39 main_v40 (Host.divf : T S256 .f32 → T S256 .f32 → T S256 .f32),
    StableHlo.nullary main_c_8 (constantI S_ 32 0#32),
    StableHlo.TRef.nullary main_call0.cst (constant S_ .f32 0x00000000#32),
    StableHlo.TRef.binary (.of main_v37 : StableHlo.TRef sig ⟨S524288x256, .f32⟩) main_call0.cst main_call0.v0 (fun x v => Host.reduceAdd x v reducesTo_S524288x256_S256_d0 h_S_),
    StableHlo.TRef.unary main_call0.v0 main_call0.v1 (broadcastInDim S1x256 ![1] bcast_S256_S1x256_1),
    StableHlo.TRef.nullary main_call0.cst_0 (constant S_ .f32 0x49000000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S524288x256 ![0, 1] bcast_S1x256_S524288x256_0_1),
    StableHlo.TRef.binary (.of main_v37 : StableHlo.TRef sig ⟨S524288x256, .f32⟩) main_call0.v4 main_call0.v5 subf,
    StableHlo.TRef.binary main_call0.v5 main_call0.v5 main_call0.v6 mulf,
    StableHlo.TRef.unary (.of main_c_8 : StableHlo.TRef sig ⟨S_, .i32⟩) main_call0.v7 (sitofp .f32),
    StableHlo.TRef.nullary main_call0.cst_1 (constant S_ .f32 0x49000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S524288x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v40 main_v42 (broadcastInDim S1x1x1x256 ![3] bcast_S256_S1x1x1x256_3 : T S256 .f32 → T S1x1x1x256 .f32),
    StableHlo.unary main_v42 main_v43 (broadcastInDim S256x128x16x256 ![0, 1, 2, 3] bcast_S1x1x1x256_S256x128x16x256_0_1_2_3 : T S1x1x1x256 .f32 → T S256x128x16x256 .f32),
    StableHlo.binary main_v36 main_v43 main_v44 (subf : T S256x128x16x256 .f32 → T S256x128x16x256 .f32 → T S256x128x16x256 .f32),
    StableHlo.nullary main_cst_9 (constant S_ .f32 0x358637BD#32),
    StableHlo.unary main_cst_9 main_v45 (broadcastInDim S256 ![] bcast_S_S256 : T S_ .f32 → T S256 .f32),
    StableHlo.binary main_v41 main_v45 main_v46 (addf : T S256 .f32 → T S256 .f32 → T S256 .f32),
    StableHlo.unary main_v46 main_v47 (Host.sqrt : T S256 .f32 → T S256 .f32),
    StableHlo.binary main_arg10 main_v47 main_v48 (Host.divf : T S256 .f32 → T S256 .f32 → T S256 .f32),
    StableHlo.unary main_v48 main_v49 (broadcastInDim S1x1x1x256 ![3] bcast_S256_S1x1x1x256_3 : T S256 .f32 → T S1x1x1x256 .f32),
    StableHlo.unary main_v49 main_v50 (broadcastInDim S256x128x16x256 ![0, 1, 2, 3] bcast_S1x1x1x256_S256x128x16x256_0_1_2_3 : T S1x1x1x256 .f32 → T S256x128x16x256 .f32),
    StableHlo.binary main_v44 main_v50 main_v51 (mulf : T S256x128x16x256 .f32 → T S256x128x16x256 .f32 → T S256x128x16x256 .f32),
    StableHlo.unary main_arg11 main_v52 (broadcastInDim S1x1x1x256 ![3] bcast_S256_S1x1x1x256_3 : T S256 .f32 → T S1x1x1x256 .f32),
    StableHlo.unary main_v52 main_v53 (broadcastInDim S256x128x16x256 ![0, 1, 2, 3] bcast_S1x1x1x256_S256x128x16x256_0_1_2_3 : T S1x1x1x256 .f32 → T S256x128x16x256 .f32),
    StableHlo.binary main_v51 main_v53 main_v54 (addf : T S256x128x16x256 .f32 → T S256x128x16x256 .f32 → T S256x128x16x256 .f32),
    StableHlo.nullary main_cst_10 (constant S_ .f32 0x00000000#32),
    StableHlo.unary main_cst_10 main_v55 (broadcastInDim S256x128x16x256 ![] bcast_S_S256x128x16x256 : T S_ .f32 → T S256x128x16x256 .f32),
    StableHlo.binary main_v54 main_v55 main_v56 (cmpf .oge : T S256x128x16x256 .f32 → T S256x128x16x256 .f32 → T S256x128x16x256 .i1),
    StableHlo.nullary main_cst_11 (constant S_ .f32 0x3C23D70A#32),
    StableHlo.unary main_cst_11 main_v57 (broadcastInDim S256x128x16x256 ![] bcast_S_S256x128x16x256 : T S_ .f32 → T S256x128x16x256 .f32),
    StableHlo.binary main_v57 main_v54 main_v58 (mulf : T S256x128x16x256 .f32 → T S256x128x16x256 .f32 → T S256x128x16x256 .f32),
    StableHlo.TRef.ternary (.of main_v56 : StableHlo.TRef sig ⟨S256x128x16x256, .i1⟩) (.of main_v54 : StableHlo.TRef sig ⟨S256x128x16x256, .f32⟩) (.of main_v58 : StableHlo.TRef sig ⟨S256x128x16x256, .f32⟩) main_call1.v0 select ]

-- Operations 96 … 149: the atom branch.
abbrev opsM : List (HloOp τ sig (Elt F)) :=
  [
    StableHlo.binary main_arg0 main_arg4 main_v60 ((fun l r => Host.dotGeneral dot_S256x128x64_S256x64_S256x128x256_2_1_01_0_n_n none l r) : T S256x128x64 .f32 → T S256x64 .f32 → T S256x128x256 .f32),
    StableHlo.unary main_arg5 main_v61 (broadcastInDim S1x1x256 ![2] bcast_S256_S1x1x256_2 : T S256 .f32 → T S1x1x256 .f32),
    StableHlo.unary main_v61 main_v62 (broadcastInDim S256x128x256 ![0, 1, 2] bcast_S1x1x256_S256x128x256_0_1_2 : T S1x1x256 .f32 → T S256x128x256 .f32),
    StableHlo.binary main_v60 main_v62 main_v63 (addf : T S256x128x256 .f32 → T S256x128x256 .f32 → T S256x128x256 .f32),
    StableHlo.reshape main_v63 main_v64 rfl shapeCasts_S256x128x256_S32768x256,
    StableHlo.nullary main_cst_12 (constant S_ .f32 0x00000000#32),
    StableHlo.binary main_v64 main_cst_12 main_v65 ((fun x v => Host.reduceAdd x v reducesTo_S32768x256_S256_d0 h_S_) : T S32768x256 .f32 → T S_ .f32 → T S256 .f32),
    StableHlo.nullary main_cst_13 (constant S_ .f32 0x47000000#32),
    StableHlo.unary main_cst_13 main_v66 (broadcastInDim S256 ![] bcast_S_S256 : T S_ .f32 → T S256 .f32),
    StableHlo.binary main_v65 main_v66 main_v67 (Host.divf : T S256 .f32 → T S256 .f32 → T S256 .f32),
    StableHlo.nullary main_c_14 (constantI S_ 32 0#32),
    StableHlo.TRef.nullary main_call2.cst (constant S_ .f32 0x00000000#32),
    StableHlo.TRef.binary (.of main_v64 : StableHlo.TRef sig ⟨S32768x256, .f32⟩) main_call2.cst main_call2.v0 (fun x v => Host.reduceAdd x v reducesTo_S32768x256_S256_d0 h_S_),
    StableHlo.TRef.unary main_call2.v0 main_call2.v1 (broadcastInDim S1x256 ![1] bcast_S256_S1x256_1),
    StableHlo.TRef.nullary main_call2.cst_0 (constant S_ .f32 0x47000000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S32768x256 ![0, 1] bcast_S1x256_S32768x256_0_1),
    StableHlo.TRef.binary (.of main_v64 : StableHlo.TRef sig ⟨S32768x256, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32768x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v67 main_v69 (broadcastInDim S1x1x256 ![2] bcast_S256_S1x1x256_2 : T S256 .f32 → T S1x1x256 .f32),
    StableHlo.unary main_v69 main_v70 (broadcastInDim S256x128x256 ![0, 1, 2] bcast_S1x1x256_S256x128x256_0_1_2 : T S1x1x256 .f32 → T S256x128x256 .f32),
    StableHlo.binary main_v63 main_v70 main_v71 (subf : T S256x128x256 .f32 → T S256x128x256 .f32 → T S256x128x256 .f32),
    StableHlo.nullary main_cst_15 (constant S_ .f32 0x358637BD#32),
    StableHlo.unary main_cst_15 main_v72 (broadcastInDim S256 ![] bcast_S_S256 : T S_ .f32 → T S256 .f32),
    StableHlo.binary main_v68 main_v72 main_v73 (addf : T S256 .f32 → T S256 .f32 → T S256 .f32),
    StableHlo.unary main_v73 main_v74 (Host.sqrt : T S256 .f32 → T S256 .f32),
    StableHlo.binary main_arg6 main_v74 main_v75 (Host.divf : T S256 .f32 → T S256 .f32 → T S256 .f32),
    StableHlo.unary main_v75 main_v76 (broadcastInDim S1x1x256 ![2] bcast_S256_S1x1x256_2 : T S256 .f32 → T S1x1x256 .f32),
    StableHlo.unary main_v76 main_v77 (broadcastInDim S256x128x256 ![0, 1, 2] bcast_S1x1x256_S256x128x256_0_1_2 : T S1x1x256 .f32 → T S256x128x256 .f32),
    StableHlo.binary main_v71 main_v77 main_v78 (mulf : T S256x128x256 .f32 → T S256x128x256 .f32 → T S256x128x256 .f32),
    StableHlo.unary main_arg7 main_v79 (broadcastInDim S1x1x256 ![2] bcast_S256_S1x1x256_2 : T S256 .f32 → T S1x1x256 .f32),
    StableHlo.unary main_v79 main_v80 (broadcastInDim S256x128x256 ![0, 1, 2] bcast_S1x1x256_S256x128x256_0_1_2 : T S1x1x256 .f32 → T S256x128x256 .f32),
    StableHlo.binary main_v78 main_v80 main_v81 (addf : T S256x128x256 .f32 → T S256x128x256 .f32 → T S256x128x256 .f32),
    StableHlo.nullary main_cst_16 (constant S_ .f32 0x00000000#32),
    StableHlo.unary main_cst_16 main_v82 (broadcastInDim S256x128x256 ![] bcast_S_S256x128x256 : T S_ .f32 → T S256x128x256 .f32),
    StableHlo.binary main_v81 main_v82 main_v83 (cmpf .oge : T S256x128x256 .f32 → T S256x128x256 .f32 → T S256x128x256 .i1),
    StableHlo.nullary main_cst_17 (constant S_ .f32 0x3C23D70A#32),
    StableHlo.unary main_cst_17 main_v84 (broadcastInDim S256x128x256 ![] bcast_S_S256x128x256 : T S_ .f32 → T S256x128x256 .f32),
    StableHlo.binary main_v84 main_v81 main_v85 (mulf : T S256x128x256 .f32 → T S256x128x256 .f32 → T S256x128x256 .f32),
    StableHlo.TRef.ternary (.of main_v83 : StableHlo.TRef sig ⟨S256x128x256, .i1⟩) (.of main_v81 : StableHlo.TRef sig ⟨S256x128x256, .f32⟩) (.of main_v85 : StableHlo.TRef sig ⟨S256x128x256, .f32⟩) main_call3.v0 select ]

abbrev ops : List (HloOp τ sig (Elt F)) := opsP ++ (opsN ++ opsM)

theorem ops_sub : (ops (F := F)).Forall fun op => op.bufs ⊆ tcRefs τ sig := by
  repeat' first
    | constructor | with_reducible exact nullary_bufs_sub .. | with_reducible exact unary_bufs_sub ..
    | with_reducible exact binary_bufs_sub .. | with_reducible exact ternary_bufs_sub .. | with_reducible exact reshape_bufs_sub .. | rw [List.Forall]

theorem ops_fresh : (ops (F := F)).Forall fun op => op.fresh = ∅ := by repeat' constructor

def args : List (Ref sig .tc) :=
  [main_arg0, main_arg1, main_arg2, main_arg3, main_arg4, main_arg5, main_arg6, main_arg7, main_arg8, main_arg9, main_arg10, main_arg11]

-- No operation writes an argument.
theorem ops_args : (ops (F := F)).Forall fun op => ∀ r ∈ args, Proc.devRef (τ := τ) .tc r ∉ op.writes := by
  repeat' first | constructor | exact nw (by decide)

-- The atom branch does not write the neighbour result.
theorem opsM_v59 : (opsM (F := F)).Forall fun op => ∀ r ∈ [main_v59], Proc.devRef (τ := τ) .tc r ∉ op.writes := by
  repeat' first | constructor | exact nw (by decide)

end Cert.ReferenceIdeal.RefRun

end
-- ==== Proof.Ref.Run.lean ====
import proofs.«418526_j20469814133046_3_alg».proof.Proof.Ref.Terms
import proofs.«418526_j20469814133046_3_alg».proof.Proof.Ref.Ops
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- The index arithmetic and the first gather leave the atom rows at the wrapped neighbour indices.
theorem P_v16 (V : Valuation τ sig (Elt F)) :
    after (opsP (F := F)) V (Proc.devRef .tc main_v16) = gatheredAtom (V (Proc.devRef .tc main_arg0)) (V (Proc.devRef .tc main_arg2)) := by
  after_results_simp <;> rfl

-- Likewise the second gather leaves the bond rows at the wrapped bond indices.
theorem P_v31 (V : Valuation τ sig (Elt F)) :
    after (opsP (F := F)) V (Proc.devRef .tc main_v31) = gatheredBond (V (Proc.devRef .tc main_arg1)) (V (Proc.devRef .tc main_arg3)) := by
  after_results_simp <;> rfl

-- The neighbour branch whole, from the two gathered pieces: linear map, batch statistics, normalisation, leaky rectifier.
theorem N_v59 (W : Valuation τ sig (Elt F)) :
    after (opsN (F := F)) W (Proc.devRef .tc main_v59)
      = normNei (yNei (concatenate S256x128x16x96 3 [⟨S256x128x16x64, W (Proc.devRef .tc main_v16)⟩, ⟨S256x128x16x32, W (Proc.devRef .tc main_v31)⟩]
            concatenates_S256x128x16x64_S256x128x16x32_S256x128x16x96_d3) (W (Proc.devRef .tc main_arg8)) (W (Proc.devRef .tc main_arg9)))
          (W (Proc.devRef .tc main_arg10)) (W (Proc.devRef .tc main_arg11)) := by
  after_results_simp <;> first | rfl | (simp only [TRef.ofBuf, TRef.toBuf, cast_eq]; rfl)

-- The atom branch whole: linear map, batch statistics, normalisation, leaky rectifier.
theorem M_v86 (W : Valuation τ sig (Elt F)) :
    after (opsM (F := F)) W (Proc.devRef .tc main_v86)
      = resAtom (W (Proc.devRef .tc main_arg0)) (W (Proc.devRef .tc main_arg4)) (W (Proc.devRef .tc main_arg5)) (W (Proc.devRef .tc main_arg6)) (W (Proc.devRef .tc main_arg7)) := by
  after_results_simp <;> first | rfl | (simp only [TRef.ofBuf, TRef.toBuf, cast_eq]; rfl)

-- The reference program, its called functions' bodies unfolded, is that straight line of operations.
theorem main_eq (c : Dev nD) : main (F := F) c = seq (ops (F := F)) := by
  chain_rfl

theorem after_ops (V : Valuation τ sig (Elt F)) :
    after (ops (F := F)) V = after (opsM (F := F)) (after (opsN (F := F)) (after (opsP (F := F)) V)) :=
  (StableHlo.after_append _ _ V).trans (StableHlo.after_append _ _ _)

-- An argument comes through the first piece unchanged.
theorem keepP (V : Valuation τ sig (Elt F)) {r : Ref sig .tc} (hr : r ∈ args := by decide) :
    after (opsP (F := F)) V (Proc.devRef .tc r) = V (Proc.devRef .tc r) :=
  keep (List.forall_append.1 ops_args).1 V hr

-- And through the second after it.
theorem keepPN (V : Valuation τ sig (Elt F)) {r : Ref sig .tc} (hr : r ∈ args := by decide) :
    after (opsN (F := F)) (after (opsP (F := F)) V) (Proc.devRef .tc r) = V (Proc.devRef .tc r) :=
  (keep (List.forall_append.1 (List.forall_append.1 ops_args).2).1 _ hr).trans (keepP V hr)

theorem v59_eq (V : Valuation τ sig (Elt F)) :
    after (ops (F := F)) V (Proc.devRef .tc main_v59)
      = resNei (V (Proc.devRef .tc main_arg0)) (V (Proc.devRef .tc main_arg1)) (V (Proc.devRef .tc main_arg2)) (V (Proc.devRef .tc main_arg3)) (V (Proc.devRef .tc main_arg8)) (V (Proc.devRef .tc main_arg9)) (V (Proc.devRef .tc main_arg10)) (V (Proc.devRef .tc main_arg11)) := by
  rw [after_ops, keep opsM_v59 _ (r := main_v59), N_v59, P_v16, P_v31, keepP V (r := main_arg8), keepP V (r := main_arg9),
    keepP V (r := main_arg10), keepP V (r := main_arg11)]
  rfl

theorem v86_eq (V : Valuation τ sig (Elt F)) :
    after (ops (F := F)) V (Proc.devRef .tc main_v86)
      = resAtom (V (Proc.devRef .tc main_arg0)) (V (Proc.devRef .tc main_arg4)) (V (Proc.devRef .tc main_arg5)) (V (Proc.devRef .tc main_arg6)) (V (Proc.devRef .tc main_arg7)) := by
  rw [after_ops, M_v86, keepPN V (r := main_arg0), keepPN V (r := main_arg4), keepPN V (r := main_arg5),
    keepPN V (r := main_arg6), keepPN V (r := main_arg7)]

-- Every execution of the reference ends with the two results at their terms of the launch contents and the arguments unchanged.
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v86) = resAtom (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v59) = resNei (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v86).trans (v86_eq _), (h c main_v59).trans (v59_eq _),
      (h c main_arg0).trans (keep ops_args _), (h c main_arg1).trans (keep ops_args _), (h c main_arg2).trans (keep ops_args _), (h c main_arg3).trans (keep ops_args _),
      (h c main_arg4).trans (keep ops_args _), (h c main_arg5).trans (keep ops_args _), (h c main_arg6).trans (keep ops_args _), (h c main_arg7).trans (keep ops_args _),
      (h c main_arg8).trans (keep ops_args _), (h c main_arg9).trans (keep ops_args _), (h c main_arg10).trans (keep ops_args _), (h c main_arg11).trans (keep ops_args _)⟩)
    (run_seq (by decide) (by decide) defs main (fun _ => ops) main_eq (fun _ => ops_sub) m ρ
      (fun _ => List.forall_iff_forall_mem.1 ops_fresh))

end Cert.ReferenceIdeal.RefRun

end
-- ==== Proof.Pre.Decode.lean ====
import proofs.«418526_j20469814133046_3_alg».proof.Pre_finite_inputs
import proofs.«418526_j20469814133046_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

namespace Cert.PreDecode

open Idealize.ShloMosaic

instance scalarIdx_subsingleton : Subsingleton (⟨0, ![]⟩ : Shape).Idx :=
  ⟨fun _ _ => funext fun d => d.elim0⟩

theorem posInf_pattern : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem real_of_test (x : EReal)
    (h : FloatOps.cmpf (F := Ideal) (φ := FTy.f32) CmpFPredicate.olt (FloatOps.hostAbsf x)
          (FloatOps.ofBits FTy.f32 0x7F800000#32) = 1#1) :
    ∃ r : ℝ, x = (r : EReal) := by
  have h' : Ideal.cmp .olt (max x (-x)) (Ideal.ofBits .f32 0x7F800000#32) = 1#1 := h
  rw [posInf_pattern] at h'
  simp only [Ideal.cmp, StableHlo.Predicate.ofBool_eq_one_iff, decide_eq_true_eq] at h'
  exact real_of_abs_lt_top x h'

theorem toInt_lit0 : (0#32 : BitVec 32).toInt = 0 := by decide
theorem toInt_lit128 : (128#32 : BitVec 32).toInt = 128 := by decide
theorem toInt_lit256 : (256#32 : BitVec 32).toInt = 256 := by decide

theorem all_real {s : Shape} {ax : List (Fin s.rank)} (hb : (⟨0, ![]⟩ : Shape).BroadcastsInDim s ![])
    (hr : s.ReducesTo ax ⟨0, ![]⟩) (h0 : 0 < (⟨0, ![]⟩ : Shape).numel) (a : FVec Ideal s .f32)
    (h : Host.reduce IntOp.andi
          (cmpf .olt (Host.absf a) (broadcastInDim s ![] hb (constant ⟨0, ![]⟩ .f32 0x7F800000#32)))
          (constantI ⟨0, ![]⟩ 1 1#1) hr h0 ValueIdx.ix0 = 1#1) :
    ∀ i, ∃ r : ℝ, a i = (r : EReal) := by
  intro i
  have e := Host.reduce_andi_all _ _ hr h0 ValueIdx.ix0 h i
  exact real_of_test (a i) e

theorem all_range {s : Shape} {ax : List (Fin s.rank)} (hb : (⟨0, ![]⟩ : Shape).BroadcastsInDim s ![])
    (hr : s.ReducesTo ax ⟨0, ![]⟩) (h0 : 0 < (⟨0, ![]⟩ : Shape).numel) (lo hi : BitVec 32) (a : IVec s 32)
    (h : Host.reduce IntOp.andi
          (andi (cmpi .sge a (broadcastInDim s ![] hb (constantI ⟨0, ![]⟩ 32 lo)))
                (cmpi .slt a (broadcastInDim s ![] hb (constantI ⟨0, ![]⟩ 32 hi))))
          (constantI ⟨0, ![]⟩ 1 1#1) hr h0 ValueIdx.ix0 = 1#1) :
    ∀ i, lo.toInt ≤ (a i).toInt ∧ (a i).toInt < hi.toInt := by
  intro i
  have e := Host.reduce_andi_all _ _ hr h0 ValueIdx.ix0 h i
  have e' : IntOp.andi (IntOp.cmpi .sge (a i) lo) (IntOp.cmpi .slt (a i) hi) = 1#1 := e
  obtain ⟨e1, e2⟩ := IntOp.andi_eq_one.1 e'
  exact ⟨IntOp.cmpi_sge.1 e1, IntOp.cmpi_slt.1 e2⟩

theorem andi_scalar (x y : IVec ⟨0, ![]⟩ 1) (h : andi x y ValueIdx.ix0 = 1#1) :
    x ValueIdx.ix0 = 1#1 ∧ y ValueIdx.ix0 = 1#1 := by
  have h' : IntOp.andi (x ValueIdx.ix0) (y ValueIdx.ix0) = 1#1 := h
  exact IntOp.andi_eq_one.1 h'

-- the precondition, one conjunct at a time: every float input entry is a real, every index is in range
open Cert.Pre_finite_inputs in
theorem of_pre [Facts] (a0 : FVec Ideal S256x128x64 .f32) (a1 : FVec Ideal S256x256x32 .f32) (a2 a3 : IVec S256x128x16 32)
    (a4 : FVec Ideal S256x64 .f32) (a5 a6 a7 : FVec Ideal S256 .f32) (a8 : FVec Ideal S256x96 .f32)
    (a9 a10 a11 : FVec Ideal S256 .f32)
    (h : fn (F := Ideal) a0 a1 a2 a3 a4 a5 a6 a7 a8 a9 a10 a11 = fun _ => 1#1) :
    (∀ i, ∃ x : ℝ, a0 i = (x : EReal)) ∧ (∀ i, ∃ x : ℝ, a1 i = (x : EReal)) ∧ (∀ i, ∃ x : ℝ, a4 i = (x : EReal))
    ∧ (∀ i, ∃ x : ℝ, a5 i = (x : EReal)) ∧ (∀ i, ∃ x : ℝ, a6 i = (x : EReal)) ∧ (∀ i, ∃ x : ℝ, a7 i = (x : EReal))
    ∧ (∀ i, ∃ x : ℝ, a8 i = (x : EReal)) ∧ (∀ i, ∃ x : ℝ, a9 i = (x : EReal)) ∧ (∀ i, ∃ x : ℝ, a10 i = (x : EReal))
    ∧ (∀ i, ∃ x : ℝ, a11 i = (x : EReal))
    ∧ (∀ i, 0 ≤ (a2 i).toInt ∧ (a2 i).toInt < 128) ∧ (∀ i, 0 ≤ (a3 i).toInt ∧ (a3 i).toInt < 256) := by
  have h0 : fn (F := Ideal) a0 a1 a2 a3 a4 a5 a6 a7 a8 a9 a10 a11 ValueIdx.ix0 = 1#1 := congrFun h ValueIdx.ix0
  dsimp only [fn, fn_part1, fn_part2, fn_part3] at h0
  obtain ⟨h0, t3⟩ := andi_scalar _ _ h0
  obtain ⟨h0, t2⟩ := andi_scalar _ _ h0
  obtain ⟨h0, t11⟩ := andi_scalar _ _ h0
  obtain ⟨h0, t10⟩ := andi_scalar _ _ h0
  obtain ⟨h0, t9⟩ := andi_scalar _ _ h0
  obtain ⟨h0, t8⟩ := andi_scalar _ _ h0
  obtain ⟨h0, t7⟩ := andi_scalar _ _ h0
  obtain ⟨h0, t6⟩ := andi_scalar _ _ h0
  obtain ⟨h0, t5⟩ := andi_scalar _ _ h0
  obtain ⟨h0, t4⟩ := andi_scalar _ _ h0
  obtain ⟨t0, t1⟩ := andi_scalar _ _ h0
  have r2 := all_range _ _ _ 0#32 128#32 a2 t2
  have r3 := all_range _ _ _ 0#32 256#32 a3 t3
  rw [toInt_lit0, toInt_lit128] at r2
  rw [toInt_lit0, toInt_lit256] at r3
  exact ⟨all_real _ _ _ a0 t0, all_real _ _ _ a1 t1, all_real _ _ _ a4 t4, all_real _ _ _ a5 t5,
    all_real _ _ _ a6 t6, all_real _ _ _ a7 t7, all_real _ _ _ a8 t8, all_real _ _ _ a9 t9,
    all_real _ _ _ a10 t10, all_real _ _ _ a11 t11, r2, r3⟩

end Cert.PreDecode
-- ==== Proof.LibPlainDot.lean ====
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

theorem plain_lhs_row (j : (⟨2, ![M, N]⟩ : Shape).Idx) (q : (DotDims.plain M K N).contr.Idx) :
    ((DotDims.plain M K N).lhsIdx j q 0).val = (j 0).val := rfl

theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_rhs_col (j : (⟨2, ![M, N]⟩ : Shape).Idx) (q : (DotDims.plain M K N).contr.Idx) :
    ((DotDims.plain M K N).rhsIdx j q 1).val = (j 1).val := rfl

-- a column [M, 1] broadcast over N columns, read at an entry
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
import proofs.«418526_j20469814133046_3_alg».proof.Proof.LibPlainDot

noncomputable section

namespace Cert.LibPlainAny

open Idealize.ShloMosaic Idealize.ShloMosaic.ValueIdx

variable (M K N : Nat)

theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

-- a plain product into the zero array is the sum over the inner index, whatever formats the operands carry
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainAny

end
-- ==== Proof.KI.R0Math.lean ====
import proofs.«418526_j20469814133046_3_alg».proof.Proof.Gen.KernelIdeal.Skeleton
import proofs.«418526_j20469814133046_3_alg».proof.Proof.LibPlainAny
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.R0

open Cert.KernelIdeal Cert.KernelIdeal.Gen
open Idealize.ShloMosaic Idealize.ShloMosaic.ValueIdx

variable (x : FVec Ideal S4096x64 .f32) (w : FVec Ideal S64x256 .bf16) (b s : FVec Ideal S1x256 .f32) (r : Fin 4096) (f : Fin 256)

-- The linear layer y = x w + b at a row and a channel: a plain product into zero, plus the bias row laid along every row.
theorem pay3_at : k0_pay3 (F := Ideal) x w b (ix2 r f)
      = (∑ k : Fin 64, (x (ix2 r k) : EReal) * (w (ix2 k f) : EReal)) + (b (ix2 (0 : Fin 1) f) : EReal) := by
  unfold k0_pay3
  simp only [shapeCast_self]
  rw [addf_apply]
  exact congrArg₂ (fun u v : EReal => u + v)
    (Cert.LibPlainAny.matmul_plain_zero_any 4096 64 256 (truncf .bf16 x bitsLt_bf16_f32) w r f)
    (broadcastTo_1b_ab_apply b broadcasts_S1x256_S4096x256 r f)

-- A row plus the column sums of a 4096 x 256 array, at a channel: the reduction's inserted index at row r is (r, f).
theorem acc_at (y : FVec Ideal S4096x256 .f32) :
    addf s (shapeCast S1x256 (multiReduction .add [0] S256 y 0x00000000#32 reduces_S4096x256_S256 (.inl rfl) rfl) shapeCasts_S256_S1x256) (ix2 (0 : Fin 1) f)
      = (s (ix2 (0 : Fin 1) f) : EReal) + ∑ r : Fin 4096, (y (ix2 r f) : EReal) := by
  rw [addf_apply, shapeCast_a_1a_apply]
  refine congrArg (fun v : EReal => (s (ix2 (0 : Fin 1) f) : EReal) + v)
    ((Ideal.multiReduction_add_single y 0x00000000#32 reduces_S4096x256_S256 (.inl rfl) rfl (ix1 f)).trans
      (Finset.sum_congr rfl fun r _ => congrArg y (funext fun a => Fin.ext ?_)))
  match a with
  | ⟨0, _⟩ => rfl
  | ⟨1, _⟩ => rfl

theorem pay4_at : k0_pay4 (F := Ideal) x w b s (ix2 (0 : Fin 1) f)
      = (s (ix2 (0 : Fin 1) f) : EReal) + ∑ r : Fin 4096, (k0_pay3 (F := Ideal) x w b (ix2 r f) : EReal) := by
  unfold k0_pay4
  simp only [shapeCast_self]
  exact acc_at s f _

theorem pay5_at : k0_pay5 (F := Ideal) x w b s (ix2 (0 : Fin 1) f)
      = (s (ix2 (0 : Fin 1) f) : EReal)
        + ∑ r : Fin 4096, (k0_pay3 (F := Ideal) x w b (ix2 r f) : EReal) * (k0_pay3 (F := Ideal) x w b (ix2 r f) : EReal) := by
  unfold k0_pay5
  simp only [shapeCast_self]
  exact acc_at s f (mulf _ _)

-- Both running sums are reset to the zero block.
theorem pay1_at (j : S1x256.Idx) : (k0_pay1 (F := Ideal) j : EReal) = 0 := by
  unfold k0_pay1
  simp only [shapeCast_self]
  exact Ideal.ofBits_zero_f32
theorem pay2_at (j : S1x256.Idx) : (k0_pay2 (F := Ideal) j : EReal) = 0 := pay1_at j

end Cert.KernelIdeal.R0

end
-- ==== Proof.LibColPool.lean ====
import Idealize.ShloMosaic.PureOps.Ideal.Laws
import Idealize.ShloMosaic.Lib.ValueIdx
import Idealize.ShloMosaic.Lib.Pipeline.Value

noncomputable section

open scoped BigOperators

namespace Cert.LibColPool

open Idealize.ShloMosaic Idealize.ShloMosaic.ValueIdx

-- the bit "b = g" read unsigned is 1 when b read signed is g, else 0
theorem onehot_weight (b : BitVec 32) (g : Nat) (hg : g < 2 ^ 31) :
    (((IntOp.cmpi .eq b (BitVec.ofNat 32 g)).toNat : ℝ) : EReal) = if b.toInt = (g : Int) then 1 else 0 := by
  have hgi : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  by_cases h : b = BitVec.ofNat 32 g
  · subst h
    rw [if_pos hgi]
    have : IntOp.cmpi .eq (BitVec.ofNat 32 g) (BitVec.ofNat 32 g) = 1#1 := by simp [IntOp.cmpi]
    rw [this]; simp
  · have hne : ¬ b.toInt = (g : Int) := fun e => h (BitVec.eq_of_toInt_eq (e.trans hgi.symm))
    rw [if_neg hne]
    have : IntOp.cmpi .eq b (BitVec.ofNat 32 g) = 0#1 := by
      unfold IntOp.cmpi
      rw [show (b == BitVec.ofNat 32 g) = false from beq_eq_false_iff_ne.mpr h]
      rfl
    rw [this]; simp

def blockRow {T R : Nat} (t : Fin T) (r : Fin R) : Fin (T * R) :=
  ⟨t.val * R + r.val, by
    have h1 : t.val * R + r.val < (t.val + 1) * R := by rw [Nat.succ_mul]; exact Nat.add_lt_add_left r.isLt _
    exact Nat.lt_of_lt_of_le h1 (Nat.mul_le_mul_right R t.isLt)⟩

-- a sum over T * R rows, block by block: row r of block t is row t * R + r
theorem sum_blocks {M : Type*} [AddCommMonoid M] (T R : Nat) (f : Fin (T * R) → M) :
    ∑ n : Fin (T * R), f n = ∑ t : Fin T, ∑ r : Fin R, f (blockRow t r) := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

end Cert.LibColPool

end
-- ==== Proof.KI.R0Value.lean ====
import proofs.«418526_j20469814133046_3_alg».proof.Proof.KI.R0
import proofs.«418526_j20469814133046_3_alg».proof.Proof.KI.R0Math
import proofs.«418526_j20469814133046_3_alg».proof.Proof.LibColPool

set_option maxRecDepth 16384

noncomputable section

open scoped BigOperators

namespace Cert.KernelIdeal.R0

open Cert.KernelIdeal Cert.KernelIdeal.Gen Cert.KernelIdeal.GenP
open Idealize.ShloMosaic Idealize.ShloMosaic.TcCoe Idealize.ShloMosaic.ValueIdx

variable (V : Valuation τ sig (Elt Ideal)) (f : Fin 256)

abbrev arrX : FVec Ideal S32768x64 .f32 := V main_v0
abbrev arrW : FVec Ideal S64x256 .bf16 := V main_v2
abbrev arrB : FVec Ideal S1x256 .f32 := V main_v3

-- The linear layer at a row, at the channel f.
def lin (r : Fin 32768) : EReal :=
  (∑ k : Fin 64, (arrX V (ix2 r k) : EReal) * (arrW V (ix2 k f) : EReal)) + (arrB V (ix2 (0 : Fin 1) f) : EReal)

def row (t : Fin 8) (r : Fin 4096) : Fin 32768 := Cert.LibColPool.blockRow t r

-- Block t's rows of g, summed; zero past the last block.
def blk (g : Fin 32768 → EReal) (t : ℕ) : EReal := if h : t < 8 then ∑ r : Fin 4096, g (row ⟨t, h⟩ r) else 0

-- Addition on the extended reals is commutative and associative, so the 8 blocks regroup to all rows with no finiteness asked.
theorem blk_total (g : Fin 32768 → EReal) : ∑ t ∈ Finset.range 8, blk g t = ∑ r, g r := by
  rw [show ∑ r, g r = ∑ t : Fin 8, ∑ r : Fin 4096, g (row t r) from Cert.LibColPool.sum_blocks 8 4096 g,
    ← Fin.sum_univ_eq_sum_range (blk g) 8]
  refine Finset.sum_congr rfl fun t _ => ?_
  rw [blk, dif_pos t.isLt]

-- A sequence that starts from zero and adds one block's total at each point holds the totals of the blocks so far.
theorem run_at (g : Fin 32768 → EReal) (A : (n : ℕ) → n < cfg0.N → EReal)
    (h0 : ∀ hn, A 0 hn = 0 + blk g 0)
    (hS : ∀ n hn, A (n + 1) hn = A n (Nat.lt_of_succ_lt hn) + blk g (n + 1)) :
    ∀ n hn, A n hn = ∑ t ∈ Finset.range (n + 1), blk g t
  | 0, hn => by rw [h0, zero_add, Finset.sum_range_one]
  | n + 1, hn => by rw [hS, run_at g A h0 hS n, Finset.sum_range_succ _ (n + 1)]

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

-- y at row r of block t is the linear layer at row 4096 t + r: each block read off its array.
theorem y_at (t : Fin cfg0.N) (r : Fin 4096) :
    (k0_pay3 (F := Ideal) (iblk V 0 t) (iblk V 1 t) (iblk V 2 t) (ix2 r f) : EReal)
      = lin V f (row ⟨t.val, lt_of_lt_of_eq t.isLt N_0⟩ r) := by
  obtain ⟨e0, e1, e2, e3, e4, e5, -⟩ := idx_facts t
  rw [pay3_at]
  refine congrArg₂ (fun u v : EReal => u + v) (Finset.sum_congr rfl fun k _ => congrArg₂ (fun u v : EReal => u * v) ?_ ?_) ?_
  · show arrX V (((cfg0.win 0).blk t).view.emb (ix2 r k)) = _
    refine congrArg _ (funext fun a => Fin.ext ?_)
    match a with
    | ⟨0, _⟩ => show win0_0.index t (0 : Fin 2) * 4096 + 1 * r.val = t.val * 4096 + r.val; omega
    | ⟨1, _⟩ => show win0_0.index t (1 : Fin 2) * 64 + 1 * k.val = k.val; omega
  · show arrW V (((cfg0.win 1).blk t).view.emb (ix2 k f)) = _
    refine congrArg _ (funext fun a => Fin.ext ?_)
    match a with
    | ⟨0, _⟩ => show win0_1.index t (0 : Fin 2) * 64 + 1 * k.val = k.val; omega
    | ⟨1, _⟩ => show win0_1.index t (1 : Fin 2) * 256 + 1 * f.val = f.val; omega
  · show arrB V (((cfg0.win 2).blk t).view.emb (ix2 (0 : Fin 1) f)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * f.val = f.val; omega

-- One point adds its block's total of the linear layer to the running sum, of its square to the running sum of squares.
theorem step4 (t : Fin cfg0.N) (s : FVec Ideal S1x256 .f32) :
    (k0_pay4 (F := Ideal) (iblk V 0 t) (iblk V 1 t) (iblk V 2 t) s (ix2 (0 : Fin 1) f) : EReal)
      = (s (ix2 (0 : Fin 1) f) : EReal) + blk (lin V f) t.val := by
  rw [pay4_at, blk, dif_pos (lt_of_lt_of_eq t.isLt N_0)]
  simp only [y_at V f t]
theorem step5 (t : Fin cfg0.N) (s : FVec Ideal S1x256 .f32) :
    (k0_pay5 (F := Ideal) (iblk V 0 t) (iblk V 1 t) (iblk V 2 t) s (ix2 (0 : Fin 1) f) : EReal)
      = (s (ix2 (0 : Fin 1) f) : EReal) + blk (fun r => lin V f r * lin V f r) t.val := by
  rw [pay5_at, blk, dif_pos (lt_of_lt_of_eq t.isLt N_0)]
  simp only [y_at V f t]

theorem h7N : 7 < cfg0.N := by rw [show cfg0.N = 8 from N_0]; decide

-- The last point's block is the whole 1 x 256 array, entry for entry.
theorem out3_eq (c : Dev nD) : (dat V c).arrAt 3 cfg0.N = sumAt V 7 h7N := by
  have hE : ∀ j, ((cfg0.win 3).blk ⟨7, h7N⟩).view.emb j = j := fun j => funext fun a => Fin.ext (by
    obtain ⟨-, -, -, -, -, -, e0, e1, -⟩ := idx_facts ⟨7, h7N⟩
    match a with
    | ⟨0, _⟩ => show win0_3.index ⟨7, h7N⟩ (0 : Fin 2) * 1 + 1 * (j 0).val = (j 0).val; omega
    | ⟨1, _⟩ => show win0_3.index ⟨7, h7N⟩ (1 : Fin 2) * 256 + 1 * (j 1).val = (j 1).val; omega)
  refine (dat V c).arrAt_eq_of_cover 3 _ (fun t hf => ?_)
    (fun i => ⟨⟨7, h7N⟩, (flush0_3 _).mpr rfl, by rw [← hE i]; exact ((cfg0.win 3).blk _).view.emb_mem_set i⟩)
  obtain rfl : t = ⟨7, h7N⟩ := Fin.ext (by show t.val = 7; have := (flush0_3 t).mp hf; have := lt_of_lt_of_eq t.isLt N_0; omega)
  show (cfg0.win 3).cut (grid0.coords _) ((dat V c).after 3 _) = _
  rw [after_3]
  funext j
  show sumAt V 7 h7N j = sumAt V 7 h7N (((cfg0.win 3).blk ⟨7, h7N⟩).view.emb j)
  rw [hE]
theorem out4_eq (c : Dev nD) : (dat V c).arrAt 4 cfg0.N = sqAt V 7 h7N := by
  have hE : ∀ j, ((cfg0.win 4).blk ⟨7, h7N⟩).view.emb j = j := fun j => funext fun a => Fin.ext (by
    obtain ⟨-, -, -, -, -, -, -, -, e0, e1⟩ := idx_facts ⟨7, h7N⟩
    match a with
    | ⟨0, _⟩ => show win0_4.index ⟨7, h7N⟩ (0 : Fin 2) * 1 + 1 * (j 0).val = (j 0).val; omega
    | ⟨1, _⟩ => show win0_4.index ⟨7, h7N⟩ (1 : Fin 2) * 256 + 1 * (j 1).val = (j 1).val; omega)
  refine (dat V c).arrAt_eq_of_cover 4 _ (fun t hf => ?_)
    (fun i => ⟨⟨7, h7N⟩, (flush0_4 _).mpr rfl, by rw [← hE i]; exact ((cfg0.win 4).blk _).view.emb_mem_set i⟩)
  obtain rfl : t = ⟨7, h7N⟩ := Fin.ext (by show t.val = 7; have := (flush0_4 t).mp hf; have := lt_of_lt_of_eq t.isLt N_0; omega)
  show (cfg0.win 4).cut (grid0.coords _) ((dat V c).after 4 _) = _
  rw [after_4]
  funext j
  show sqAt V 7 h7N j = sqAt V 7 h7N (((cfg0.win 4).blk ⟨7, h7N⟩).view.emb j)
  rw [hE]

-- The first output at channel f: the linear layer summed over all rows; the second: its square.
theorem sum_apply (c : Dev nD) :
    ((dat V c).arrAt 3 cfg0.N (ix2 (0 : Fin 1) f) : EReal) = ∑ r, lin V f r := by
  rw [out3_eq V c]
  exact (run_at (lin V f) (fun n hn => sumAt V n hn (ix2 (0 : Fin 1) f))
    (fun hn => (step4 V f ⟨0, hn⟩ _).trans (congrArg (· + _) (pay1_at _)))
    (fun n hn => step4 V f ⟨n + 1, hn⟩ _) 7 h7N).trans (blk_total _)
theorem sq_apply (c : Dev nD) :
    ((dat V c).arrAt 4 cfg0.N (ix2 (0 : Fin 1) f) : EReal) = ∑ r, lin V f r * lin V f r := by
  rw [out4_eq V c]
  exact (run_at (fun r => lin V f r * lin V f r) (fun n hn => sqAt V n hn (ix2 (0 : Fin 1) f))
    (fun hn => (step5 V f ⟨0, hn⟩ _).trans (congrArg (· + _) (pay2_at _)))
    (fun n hn => step5 V f ⟨n + 1, hn⟩ _) 7 h7N).trans (blk_total _)

end Cert.KernelIdeal.R0

end
-- ==== Proof.Spec.lean ====
import Idealize.ShloMosaic.PureOps.Ideal
import Mathlib.Algebra.BigOperators.Group.Finset.Basic

noncomputable section

namespace Cert.Spec

open Idealize.ShloMosaic

-- the leaky rectifier with slope 0.01 (as a binary word), and batch normalisation with batch statistics in the
-- two arrangements: centred first (bnRef), or from the sum and the sum of squares (bnKer)
def lrelu (z : EReal) : EReal :=
  Scalar.select (FloatOps.cmpf (F := Ideal) (φ := .f32) .oge z (Ideal.ofBits .f32 0x00000000#32)) z (Ideal.ofBits .f32 0x3C23D70A#32 * z)

variable {R : Type} [Fintype R]

def mean (y : R → EReal) (N : EReal) : EReal := Ideal.div ((0 : EReal) + ∑ r, y r) N

def var (y : R → EReal) (N : EReal) : EReal :=
  Ideal.div ((0 : EReal) + ∑ r, (y r - mean y N) * (y r - mean y N)) N

def bnRef (y : R → EReal) (N eps g b : EReal) (r : R) : EReal :=
  lrelu ((y r - mean y N) * Ideal.div g (Ideal.sqrt (var y N + eps)) + b)

def bnKer (s q N eps g b yr : EReal) : EReal :=
  lrelu (yr * Ideal.div g (Ideal.sqrt ((Ideal.div q N - Ideal.div s N * Ideal.div s N) + eps))
    + (b - Ideal.div s N * Ideal.div g (Ideal.sqrt ((Ideal.div q N - Ideal.div s N * Ideal.div s N) + eps))))

end Cert.Spec

end
-- ==== Proof.KI.R1Pay.lean ====
import proofs.«418526_j20469814133046_3_alg».proof.Proof.KI.R0Math
import proofs.«418526_j20469814133046_3_alg».proof.Proof.Spec

noncomputable section

namespace Cert.KernelIdeal.R1

open Cert.KernelIdeal Cert.KernelIdeal.Gen
open Idealize.ShloMosaic Idealize.ShloMosaic.ValueIdx

-- Two indices of a rank-2 array with the same coordinates read the same entry.
theorem at2 {n0 n1 : ℕ} {α : Type} (A : (⟨2, ![n0, n1]⟩ : Shape).Idx → α) {i j : (⟨2, ![n0, n1]⟩ : Shape).Idx}
    (h0 : (i 0).val = (j 0).val) (h1 : (i 1).val = (j 1).val) : A i = A j :=
  congrArg A (funext fun a => Fin.ext (by
    match a with
    | ⟨0, _⟩ => exact h0
    | ⟨1, _⟩ => exact h1))

-- The body is the statistics body's linear layer, times the scale row, plus the shift row, each laid along every row, then LeakyReLU.
theorem pay_apply (x0 : FVec Ideal S4096x64 .f32) (x1 : FVec Ideal S64x256 .bf16) (x2 x3 x4 : FVec Ideal S1x256 .f32)
    (p : Fin 4096) (q : Fin 256) :
    k1_pay1 (F := Ideal) x0 x1 x2 x3 x4 (ix2 p q)
      = Cert.Spec.lrelu (((∑ k : Fin 64, (x0 (ix2 p k) : EReal) * (x1 (ix2 k q) : EReal)) + x2 (ix2 (0 : Fin 1) q))
          * x3 (ix2 (0 : Fin 1) q) + x4 (ix2 (0 : Fin 1) q)) := by
  refine (show k1_pay1 (F := Ideal) x0 x1 x2 x3 x4 (ix2 p q)
      = Cert.Spec.lrelu (k0_pay3 (F := Ideal) x0 x1 x2 (ix2 p q)
          * broadcastTo S4096x256 (shapeCast S1x256 x3 shapeCasts_S1x256_S1x256) broadcasts_S1x256_S4096x256 (ix2 p q)
          + broadcastTo S4096x256 (shapeCast S1x256 x4 shapeCasts_S1x256_S1x256) broadcasts_S1x256_S4096x256 (ix2 p q)) from rfl).trans ?_
  rw [R0.pay3_at, shapeCast_self, shapeCast_self, broadcastTo_1b_ab_apply, broadcastTo_1b_ab_apply]

end Cert.KernelIdeal.R1

end
-- ==== Proof.KI.R1Value.lean ====
import proofs.«418526_j20469814133046_3_alg».proof.Proof.KI.R1
import proofs.«418526_j20469814133046_3_alg».proof.Proof.KI.R1Pay

set_option maxRecDepth 16384

noncomputable section

namespace Cert.KernelIdeal.R1

open Cert.KernelIdeal Cert.KernelIdeal.Gen Cert.KernelIdeal.GenP
open Idealize.ShloMosaic Idealize.ShloMosaic.TcCoe Idealize.ShloMosaic.ValueIdx

variable (V : Valuation τ sig (Elt Ideal))

abbrev arrX : FVec Ideal S32768x64 .f32 := V main_v0
abbrev arrW : FVec Ideal S64x256 .bf16 := V main_v2
abbrev arrB : FVec Ideal S1x256 .f32 := V main_v3
abbrev arrG : FVec Ideal S1x256 .f32 := V main_v15
abbrev arrS : FVec Ideal S1x256 .f32 := V main_v18

-- Entry (r, f) of the result, from the entry contents of the five input arrays.
def outAt (r : Fin 32768) (f : Fin 256) : EReal :=
  Cert.Spec.lrelu (((∑ k : Fin 64, arrX V (ix2 r k) * arrW V (ix2 k f)) + arrB V (ix2 (0 : Fin 1) f))
    * arrG V (ix2 (0 : Fin 1) f) + arrS V (ix2 (0 : Fin 1) f))

def outArr : S32768x256.Idx → EReal := fun i => outAt V (i 0) (i 1)

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

-- The body at point t's blocks, at (p, q), is the result at row 4096 t + p: each block read off its array.
theorem pay_at (t : Fin cfg1.N) (p : Fin 4096) (q : Fin 256) (r : Fin 32768) (hr : r.val = t.val * 4096 + p.val) :
    k1_pay1 (F := Ideal) (iblk V 0 t) (iblk V 1 t) (iblk V 2 t) (iblk V 3 t) (iblk V 4 t) (ix2 p q) = outAt V r q := by
  obtain ⟨e0, e1, e2, e3, e4, e5, e6, e7, e8, e9, -⟩ := idx_facts t
  rw [pay_apply]
  refine congrArg Cert.Spec.lrelu (congrArg₂ (fun u v : EReal => u + v) (congrArg₂ (fun u v : EReal => u * v)
    (congrArg₂ (fun u v : EReal => u + v) (Finset.sum_congr rfl fun k _ => congrArg₂ (fun u v : EReal => u * v) ?_ ?_) ?_) ?_) ?_)
  · exact at2 (arrX V) (i := ((cfg1.win 0).blk t).view.emb (ix2 p k)) (by show win1_0.index t (0 : Fin 2) * 4096 + 1 * p.val = r.val; omega) (by show win1_0.index t (1 : Fin 2) * 64 + 1 * k.val = k.val; omega)
  · exact at2 (arrW V) (i := ((cfg1.win 1).blk t).view.emb (ix2 k q)) (by show win1_1.index t (0 : Fin 2) * 64 + 1 * k.val = k.val; omega) (by show win1_1.index t (1 : Fin 2) * 256 + 1 * q.val = q.val; omega)
  · exact at2 (arrB V) (i := ((cfg1.win 2).blk t).view.emb (ix2 (0 : Fin 1) q)) (by show win1_2.index t (0 : Fin 2) * 1 + 1 * 0 = 0; omega) (by show win1_2.index t (1 : Fin 2) * 256 + 1 * q.val = q.val; omega)
  · exact at2 (arrG V) (i := ((cfg1.win 3).blk t).view.emb (ix2 (0 : Fin 1) q)) (by show win1_3.index t (0 : Fin 2) * 1 + 1 * 0 = 0; omega) (by show win1_3.index t (1 : Fin 2) * 256 + 1 * q.val = q.val; omega)
  · exact at2 (arrS V) (i := ((cfg1.win 4).blk t).view.emb (ix2 (0 : Fin 1) q)) (by show win1_4.index t (0 : Fin 2) * 1 + 1 * 0 = 0; omega) (by show win1_4.index t (1 : Fin 2) * 256 + 1 * q.val = q.val; omega)

-- Entry j of block t is the body at j, which is the result at the array index under j.
theorem flushed_eq (c : Dev nD) (t : Fin cfg1.N) :
    (dat V c).flushed 5 t = ((cfg1.win 5).blk t).view.read (Elt Ideal) (outArr V) := by
  show (cfg1.win 5).cut (grid1.coords t) ((dat V c).after 5 t) = _
  rw [after_5]
  obtain ⟨-, -, -, -, -, -, -, -, -, -, e0, e1⟩ := idx_facts t
  funext j
  show k1_pay1 (F := Ideal) (iblk V 0 t) (iblk V 1 t) (iblk V 2 t) (iblk V 3 t) (iblk V 4 t) ((cfg1.win 5).xinj (grid1.coords t) j)
      = outArr V (((cfg1.win 5).blk t).view.emb j)
  rw [eq_ix2 (n0 := 4096) (n1 := 256) ((cfg1.win 5).xinj (grid1.coords t) j)]
  refine (pay_at V t _ _ (((cfg1.win 5).blk t).view.emb j 0) ?_).trans (congrArg (outAt V _) (Fin.ext ?_))
  · show win1_5.index t (0 : Fin 2) * 4096 + 1 * (j 0).val = t.val * 4096 + (j 0).val; omega
  · show (j 1).val = win1_5.index t (1 : Fin 2) * 256 + 1 * (j 1).val; omega

-- Row r of the array is row r % 4096 of block r / 4096.
theorem cover (i : S32768x256.Idx) :
    ∃ t : Fin cfg1.N, (cfg1.win 5).flush t = true ∧ i ∈ ((cfg1.win 5).blk t).view.set := by
  have hi0 := idx2_lt0 i
  let t : Fin cfg1.N := ⟨(i 0).val / 4096, by rw [show cfg1.N = 8 from N_1]; omega⟩
  obtain ⟨-, -, -, -, -, -, -, -, -, -, e0, e1⟩ := idx_facts t
  have e0' : win1_5.index t (0 : Fin 2) = (i 0).val / 4096 := e0
  have h : ((cfg1.win 5).blk t).view.emb (ix2 ⟨(i 0).val % 4096, by omega⟩ (i 1)) = i := funext fun a => Fin.ext (by
    match a with
    | ⟨0, _⟩ => show win1_5.index t (0 : Fin 2) * 4096 + 1 * ((i 0).val % 4096) = (i 0).val; omega
    | ⟨1, _⟩ => show win1_5.index t (1 : Fin 2) * 256 + 1 * (i 1).val = (i 1).val; omega)
  exact ⟨t, flush1_5 t, h ▸ ((cfg1.win 5).blk t).view.emb_mem_set _⟩

-- The blocks tile the array, so after the region it holds the result everywhere.
theorem out_apply (c : Dev nD) (r : Fin 32768) (f : Fin 256) : (dat V c).arrAt 5 cfg1.N (ix2 r f) = outAt V r f :=
  congrFun ((dat V c).arrAt_eq_of_cover 5 _ (fun t _ => flushed_eq V c t) cover) (ix2 r f)

end Cert.KernelIdeal.R1

end
-- ==== Proof.KI.HostA.lean ====
import proofs.«418526_j20469814133046_3_alg».proof.Proof.KILaunch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HostVal

open Cert.KernelIdeal Cert.KernelIdeal.Gen Cert.KernelIdeal.GenP
open Idealize.ShloMosaic Idealize.ShloMosaic.TcCoe Idealize.ShloMosaic.ValueIdx

variable (V : Valuation τ sig (Elt Ideal))

-- The features flattened: row r is atom r % 128 of graph r / 128.
theorem v0_apply (r : Fin 32768) (k : Fin 64) :
    (StableHlo.after (hostOps0 (F := Ideal)) V main_v0 : FVec Ideal S32768x64 .f32) (ix2 r k)
      = V main_arg0 (ix3 ⟨r.val / 128, by omega⟩ ⟨r.val % 128, by omega⟩ k) := by
  simp only [hostOps0]; after_results
  refine shapeCast_apply (s := S256x128x64) (t := S32768x64) _ _ _ _ ?_
  rw [Shape.rowMajor_val_three, Shape.rowMajor_val_two]
  show (r.val / 128 * 128 + r.val % 128) * 64 + k.val = r.val * 64 + k.val
  omega

-- The weight transposed; narrowing is the identity on extended reals.
theorem v2_apply (k : Fin 64) (f : Fin 256) :
    (StableHlo.after (hostOps0 (F := Ideal)) V main_v2 : FVec Ideal S64x256 .bf16) (ix2 k f) = V main_arg4 (ix2 f k) := by
  simp only [hostOps0]; after_results
  exact transpose_ix2_apply (a := 256) (b := 64) _ _ k f

-- The bias as a row.
theorem v3_apply (f : Fin 256) :
    (StableHlo.after (hostOps0 (F := Ideal)) V main_v3 : FVec Ideal S1x256 .f32) (ix2 (0 : Fin 1) f) = V main_arg5 (ix1 f) := by
  simp only [hostOps0]; after_results
  exact shapeCast_a_1a_apply _ _ 0 f

-- The result read as [256, 128, 256]: entry (n, a, f) is row n * 128 + a.
theorem v20_apply (n : Fin 256) (a : Fin 128) (f : Fin 256) :
    (StableHlo.after (hostOps2 (F := Ideal)) V main_v20 : FVec Ideal S256x128x256 .f32) (ix3 n a f)
      = V main_v19 (ix2 ⟨n.val * 128 + a.val, by omega⟩ f) := by
  simp only [hostOps2]; after_results
  refine shapeCast_apply (s := S32768x256) (t := S256x128x256) _ _ _ _ ?_
  rw [Shape.rowMajor_val_three, Shape.rowMajor_val_two]
  rfl

end Cert.KernelIdeal.HostVal

end
-- ==== Proof.KI.HostA1.lean ====
import proofs.«418526_j20469814133046_3_alg».proof.Proof.KILaunch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HostVal

open Cert.KernelIdeal Cert.KernelIdeal.Gen Cert.KernelIdeal.GenP
open Idealize.ShloMosaic Idealize.ShloMosaic.TcCoe Idealize.ShloMosaic.ValueIdx

-- The scale the host forms from the two column moments s, q and the weight g.
def atomScale (s q g : EReal) : EReal :=
  Ideal.div g (Ideal.sqrt ((Ideal.div q (Ideal.ofBits .f32 0x47000000#32)
    - Ideal.div s (Ideal.ofBits .f32 0x47000000#32) * Ideal.div s (Ideal.ofBits .f32 0x47000000#32)) + Ideal.ofBits .f32 0x358637BD#32))

theorem hostSqrt_apply {s : Shape} {φ : FTy} (a : FVec Ideal s φ) (i : s.Idx) : Host.sqrt a i = Ideal.sqrt (a i) := rfl

variable (V : Valuation τ sig (Elt Ideal)) (f : Fin 256)

abbrev bufSum : FVec Ideal S1x256 .f32 := V main_v4_0
abbrev bufSq : FVec Ideal S1x256 .f32 := V main_v4_1
abbrev bufGamma : FVec Ideal S256 .f32 := V main_arg6
abbrev bufBeta : FVec Ideal S256 .f32 := V main_arg7

theorem v15_apply :
    (StableHlo.after (hostOps1 (F := Ideal)) V main_v15 : FVec Ideal S1x256 .f32) (ix2 (0 : Fin 1) f)
      = atomScale (bufSum V (ix2 (0 : Fin 1) f)) (bufSq V (ix2 (0 : Fin 1) f)) (bufGamma V (ix1 f)) := by
  simp only [hostOps1]; after_results
  simp only [atomScale, hostDivf_apply, hostSqrt_apply, addf_apply, subf_apply, mulf_apply]
  rw [broadcastInDim_scalar_apply, broadcastInDim_scalar_apply, constant_apply, constant_apply]
  exact congrArg (Ideal.div · _) (shapeCast_a_1a_apply _ _ 0 f)

theorem v18_apply :
    (StableHlo.after (hostOps1 (F := Ideal)) V main_v18 : FVec Ideal S1x256 .f32) (ix2 (0 : Fin 1) f)
      = bufBeta V (ix1 f) - Ideal.div (bufSum V (ix2 (0 : Fin 1) f)) (Ideal.ofBits .f32 0x47000000#32)
          * atomScale (bufSum V (ix2 (0 : Fin 1) f)) (bufSq V (ix2 (0 : Fin 1) f)) (bufGamma V (ix1 f)) := by
  simp only [hostOps1]; after_results_simp
  simp only [atomScale, hostDivf_apply, hostSqrt_apply, addf_apply, subf_apply, mulf_apply]
  rw [broadcastInDim_scalar_apply, broadcastInDim_scalar_apply, constant_apply, constant_apply]
  exact congrArg₂ (fun u v : EReal => u - _ * Ideal.div v _) (shapeCast_a_1a_apply _ _ 0 f) (shapeCast_a_1a_apply _ _ 0 f)

end Cert.KernelIdeal.HostVal

end
-- ==== Proof.KI.ValAtom.lean ====
import proofs.«418526_j20469814133046_3_alg».proof.Proof.KI.Program
import proofs.«418526_j20469814133046_3_alg».proof.Proof.KI.R0Value
import proofs.«418526_j20469814133046_3_alg».proof.Proof.KI.R1Value
import proofs.«418526_j20469814133046_3_alg».proof.Proof.KI.HostA
import proofs.«418526_j20469814133046_3_alg».proof.Proof.KI.HostA1
import proofs.«418526_j20469814133046_3_alg».proof.Proof.Spec
import Idealize.ShloMosaic.Lib.ValueIdx

noncomputable section

open scoped BigOperators

namespace Cert.KernelIdeal.Prog

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (c : Dev nD)

abbrev A0 : FVec Ideal S256x128x64 .f32 := m ((c : Thread nD τ).loc main_arg0)
abbrev A4 : FVec Ideal S256x64 .f32 := m ((c : Thread nD τ).loc main_arg4)
abbrev A5 : FVec Ideal S256 .f32 := m ((c : Thread nD τ).loc main_arg5)
abbrev A6 : FVec Ideal S256 .f32 := m ((c : Thread nD τ).loc main_arg6)
abbrev A7 : FVec Ideal S256 .f32 := m ((c : Thread nD τ).loc main_arg7)

def yA (r : Fin 32768) (f : Fin 256) : EReal :=
  (∑ k : Fin 64, A0 m c (ix3 (⟨r.val / 128, by omega⟩ : Fin 256) (⟨r.val % 128, Nat.mod_lt _ (by decide)⟩ : Fin 128) k) * A4 m c (ix2 f k)) + A5 m c (ix1 f)

variable (r : Fin 32768) (f : Fin 256)

-- The statistics region finds the launch features flattened, the weight transposed, the bias as a row.
theorem lin1_eq : R0.lin (W1 m c) f r = yA m c r f :=
  congrArg₂ (fun u v : EReal => u + v)
    (Finset.sum_congr rfl fun k _ => congrArg₂ (fun u v : EReal => u * v) (HostVal.v0_apply (W0 m c) r k) (HostVal.v2_apply (W0 m c) k f))
    (HostVal.v3_apply (W0 m c) f)

-- The fused region finds the same three operands.
theorem W3_X : R1.arrX (W3 m c) = R1.arrX (W1 m c) := (keep1 m c main_v0 (by decide)).trans (W2_in m c 0 rfl)
theorem W3_W : R1.arrW (W3 m c) = R1.arrW (W1 m c) := (keep1 m c main_v2 (by decide)).trans (W2_in m c 1 rfl)
theorem W3_B : R1.arrB (W3 m c) = R1.arrB (W1 m c) := (keep1 m c main_v3 (by decide)).trans (W2_in m c 2 rfl)

theorem lin3_eq :
    (∑ k : Fin 64, R1.arrX (W3 m c) (ix2 r k) * R1.arrW (W3 m c) (ix2 k f)) + R1.arrB (W3 m c) (ix2 (0 : Fin 1) f)
      = yA m c r f := by
  rw [W3_X m c, W3_W m c, W3_B m c]
  exact lin1_eq m c r f

-- The two moments the statistics region leaves are those of the linear layer over all rows.
theorem sum_eq : HostVal.bufSum (W2 m c) (ix2 (0 : Fin 1) f) = ∑ r : Fin 32768, yA m c r f := by
  rw [show HostVal.bufSum (W2 m c) = (R0.dat (W1 m c) c).arrAt 3 cfg0.N from W2_arr m c 3, R0.sum_apply]
  simp only [lin1_eq]
theorem sq_eq : HostVal.bufSq (W2 m c) (ix2 (0 : Fin 1) f) = ∑ r : Fin 32768, yA m c r f * yA m c r f := by
  rw [show HostVal.bufSq (W2 m c) = (R0.dat (W1 m c) c).arrAt 4 cfg0.N from W2_arr m c 4, R0.sq_apply]
  simp only [lin1_eq]

-- The two batch-norm parameters reach the second host stretch as launched.
theorem W2_gamma : HostVal.bufGamma (W2 m c) = A6 m c :=
  (W2_of_ne m c main_arg6 (by decide)).trans ((keep0 m c main_arg6 (by decide)).trans rfl)
theorem W2_beta : HostVal.bufBeta (W2 m c) = A7 m c :=
  (W2_of_ne m c main_arg7 (by decide)).trans ((keep0 m c main_arg7 (by decide)).trans rfl)

theorem W9_v20 : (W9 m c main_v20 : FVec Ideal S256x128x256 .f32) = W5 m c main_v20 :=
  (keep4 m c main_v20 (by decide)).trans <| (W8_of_ne m c main_v20 (by decide)).trans <|
    (keep3 m c main_v20 (by decide)).trans (W6_of_ne m c main_v20 (by decide))

-- The result is the fused region's array at row n * 128 + a, its scale and shift formed by the host from the two moments.
theorem atom_apply (n : Fin 256) (a : Fin 128) (f : Fin 256) :
    (W9 m c main_v20 : FVec Ideal S256x128x256 .f32) (ix3 n a f)
      = Cert.Spec.bnKer (∑ r : Fin 32768, yA m c r f) (∑ r : Fin 32768, yA m c r f * yA m c r f)
          (Ideal.ofBits .f32 0x47000000#32) (Ideal.ofBits .f32 0x358637BD#32) (A6 m c (ix1 f)) (A7 m c (ix1 f))
          (yA m c ⟨n.val * 128 + a.val, by omega⟩ f) := by
  refine (congrFun (W9_v20 m c) (ix3 n a f)).trans ((HostVal.v20_apply (W4 m c) n a f).trans ?_)
  refine (congrFun (show (W4 m c main_v19 : FVec Ideal S32768x256 .f32) = (R1.dat (W3 m c) c).arrAt 5 cfg1.N from W4_arr m c 5) _).trans
    ((R1.out_apply (W3 m c) c _ f).trans ?_)
  refine congrArg Cert.Spec.lrelu (congrArg₂ (fun u v : EReal => u + v) (congrArg₂ (fun u v : EReal => u * v) (lin3_eq m c _ f)
    ((HostVal.v15_apply (W2 m c) f).trans ?_)) ((HostVal.v18_apply (W2 m c) f).trans ?_))
  · rw [sum_eq m c f, sq_eq m c f, W2_gamma m c]; rfl
  · rw [sum_eq m c f, sq_eq m c f, W2_gamma m c, W2_beta m c]; rfl

end Cert.KernelIdeal.Prog

end
-- ==== Proof.KI.R3Pay.lean ====
import proofs.«418526_j20469814133046_3_alg».proof.Proof.Gen.KernelIdeal.Skeleton
import proofs.«418526_j20469814133046_3_alg».proof.Proof.Spec
import Idealize.ShloMosaic.Lib.ValueLayout
import Idealize.ShloMosaic.Lib.Pipeline.Value

noncomputable section

open scoped BigOperators

namespace Cert.KernelIdeal.R3

open Cert.KernelIdeal Cert.KernelIdeal.Gen
open Idealize.ShloMosaic Idealize.ShloMosaic.ValueIdx

-- The first payload, entry by entry: scale row, shift row, leaky rectifier.
theorem pay1_apply (y : FVec Ideal S2048x256 .f32) (sc sh : FVec Ideal S1x256 .f32) (r : Fin 2048) (f : Fin 256) :
    k3_pay1 (F := Ideal) y sc sh (ix3 0 r f) = Cert.Spec.lrelu (y (ix2 r f) * sc (ix2 0 f) + sh (ix2 0 f)) := by
  unfold k3_pay1
  refine (shapeCast_ab_1ab_apply _ _ 0 r f).trans ?_
  have hb : ∀ v : FVec Ideal S1x256 .f32, broadcastTo S2048x256 (shapeCast S1x256 v shapeCasts_S1x256_S1x256) broadcasts_S1x256_S2048x256 (ix2 r f) = v (ix2 0 f) := fun v => by
    rw [shapeCast_self v]; exact broadcastTo_1b_ab_apply _ _ r f
  show Cert.Spec.lrelu (y (ix2 r f)
      * broadcastTo S2048x256 (shapeCast S1x256 sc shapeCasts_S1x256_S1x256) broadcasts_S1x256_S2048x256 (ix2 r f)
      + broadcastTo S2048x256 (shapeCast S1x256 sh shapeCasts_S1x256_S1x256) broadcasts_S1x256_S2048x256 (ix2 r f)) = _
  rw [hb sc, hb sh]

end Cert.KernelIdeal.R3

end
-- ==== Proof.KI.Nlin.lean ====
import proofs.«418526_j20469814133046_3_alg».proof.Proof.Gen.KernelIdeal.Skeleton
import proofs.«418526_j20469814133046_3_alg».proof.Proof.LibPlainAny
import proofs.«418526_j20469814133046_3_alg».proof.Proof.LibPlainDot
import proofs.«418526_j20469814133046_3_alg».proof.Proof.LibColPool
import Idealize.ShloMosaic.Lib.ValueLayout
import Idealize.ShloMosaic.Lib.Pipeline.Value
import Idealize.ShloMosaic.PureOps.Ideal.Laws

noncomputable section

namespace Cert.Spec

open Idealize.ShloMosaic Idealize.ShloMosaic.TcCoe Idealize.ShloMosaic.ValueIdx
open Cert.KernelIdeal Cert.KernelIdeal.Gen
open scoped BigOperators

def nlin (af : FVec Ideal S256x128x64 .f32) (bf : FVec Ideal S256x256x32 .f32) (ix : IVec S256x2048x2 32)
    (wa : FVec Ideal S64x256 .bf16) (wb : FVec Ideal S32x256 .bf16) (b : FVec Ideal S1x256 .f32)
    (n : Fin 256) (r : Fin 2048) (f : Fin 256) : EReal :=
  ((∑ k : Fin 64, af (ix3 n ⟨(ix (ix3 n r 0)).toNat % 128, Nat.mod_lt _ (by decide)⟩ k) * wa (ix2 k f))
      + b (ix2 0 f))
    + ∑ k : Fin 32, bf (ix3 n ⟨(ix (ix3 n r 1)).toNat % 256, Nat.mod_lt _ (by decide)⟩ k) * wb (ix2 k f)

abbrev nlinV (V : Valuation τ sig (Elt Ideal)) : Fin 256 → Fin 2048 → Fin 256 → EReal :=
  nlin (V main_arg0) (V main_arg1) (V main_v25) (V main_v28) (V main_v31) (V main_v32)

theorem bit_toInt (b : BitVec 1) : (b.setWidth 32).toInt = (b.toNat : Int) := by
  rcases BitVec.eq_zero_or_eq_one b with h | h <;> subst h <;> decide

-- Of the N terms only the one at column w survives: every other bit is 0, and 0 * x = 0 on the extended reals.
theorem sum_onehot_pick {N : ℕ} (w : BitVec 32) (hw : w.toNat < N) (hN : N ≤ 2 ^ 31) (h : Fin N → EReal) :
    ∑ a : Fin N, (((IntOp.cmpi .eq w (BitVec.ofNat 32 a.val)).toNat : ℝ) : EReal) * h a = h ⟨w.toNat, hw⟩ := by
  have hwi : w.toInt = (w.toNat : Int) := by
    rw [BitVec.toInt_eq_msb_cond, BitVec.msb_eq_false_iff_two_mul_lt.mpr (by omega)]; simp
  rw [Finset.sum_eq_single (⟨w.toNat, hw⟩ : Fin N)]
  · rw [Cert.LibColPool.onehot_weight _ _ (by omega), if_pos hwi, one_mul]
  · intro a _ hne
    rw [Cert.LibColPool.onehot_weight _ _ (by have := a.isLt; omega), if_neg, zero_mul]
    intro e
    apply hne
    apply Fin.ext
    show a.val = w.toNat
    omega
  · intro hmem; exact absurd (Finset.mem_univ _) hmem

-- An equality test widened, converted and narrowed is, entry by entry, the test's bit.
theorem onehot_at {s : Shape} (X Y : IVec s 32) (i : s.Idx) :
    (truncf (F := Ideal) .bf16 (sitofp .f32 (extui 32 (cmpi .eq X Y) natLt_1_32)) bitsLt_bf16_f32 i : EReal)
      = (((IntOp.cmpi .eq (X i) (Y i)).toNat : ℝ) : EReal) := by
  show ((((IntOp.cmpi .eq (X i) (Y i)).setWidth 32).toInt : ℝ) : EReal) = _
  rw [bit_toInt, Int.cast_natCast]

theorem pay8_apply (x0 : FVec Ideal S1x128x64 .f32) (x3 : FVec Ideal S64x256 .bf16) (x5 : FVec Ideal S1x256 .f32)
    (a : Fin 128) (f : Fin 256) :
    (k2_pay8 (F := Ideal) x0 x3 x5 (ix2 a f) : EReal)
      = (∑ k : Fin 64, (x0 (ix3 0 a k) : EReal) * (x3 (ix2 k f) : EReal)) + (x5 (ix2 0 f) : EReal) := by
  unfold k2_pay8
  have e1 := Cert.LibPlainAny.matmul_plain_zero_any 128 64 256
    (truncf (F := Ideal) .bf16 (shapeCast S128x64 x0 shapeCasts_S1x128x64_S128x64) bitsLt_bf16_f32)
    (shapeCast S64x256 x3 shapeCasts_S64x256_S64x256) a f
  have e2 := broadcastTo_1b_ab_apply (shapeCast S1x256 x5 shapeCasts_S1x256_S1x256) broadcasts_S1x256_S128x256 a f
  refine (congrArg₂ (fun (p q : EReal) => p + q) e1 e2).trans ?_
  refine congrArg₂ (fun (p q : EReal) => p + q) (Finset.sum_congr rfl fun k _ => ?_) (congrFun (shapeCast_self x5 _) _)
  exact congrArg₂ (fun (p q : EReal) => p * q) (shapeCast_1ab_ab_apply x0 _ a k) (congrFun (shapeCast_self x3 _) _)

theorem pay9_apply (x1 : FVec Ideal S1x256x32 .f32) (x4 : FVec Ideal S32x256 .bf16) (b : Fin 256) (f : Fin 256) :
    (k2_pay9 (F := Ideal) x1 x4 (ix2 b f) : EReal) = ∑ k : Fin 32, (x1 (ix3 0 b k) : EReal) * (x4 (ix2 k f) : EReal) := by
  unfold k2_pay9
  have e1 := Cert.LibPlainAny.matmul_plain_zero_any 256 32 256
    (truncf (F := Ideal) .bf16 (shapeCast S256x32 x1 shapeCasts_S1x256x32_S256x32) bitsLt_bf16_f32)
    (shapeCast S32x256 x4 shapeCasts_S32x256_S32x256) b f
  refine e1.trans (Finset.sum_congr rfl fun k _ => ?_)
  exact congrArg₂ (fun (p q : EReal) => p * q) (shapeCast_1ab_ab_apply x1 _ b k) (congrFun (shapeCast_self x4 _) _)

theorem pay11_apply (x2 : IVec S1x2048x2 32) (r : Fin 2048) (a : Fin 128) :
    (k2_pay11 (F := Ideal) x2 (ix2 r a) : EReal)
      = (((IntOp.cmpi .eq (x2 (ix3 0 r 0)) (BitVec.ofNat 32 a.val)).toNat : ℝ) : EReal) := by
  exact (onehot_at _ _ (ix2 r a)).trans (congrArg₂ (fun u v : BitVec 32 => (((IntOp.cmpi .eq u v).toNat : ℝ) : EReal))
    ((Cert.LibPlainDot.broadcast_col (M := 2048) (N := 128) _ _ r a).trans
      ((slice2_axis1_apply 0 _ _ r 0 0 rfl).trans (shapeCast_1ab_ab_apply x2 _ r 0))) (iota_single_apply _ _ _ _ _ _))

theorem pay12_apply (x2 : IVec S1x2048x2 32) (r : Fin 2048) (b : Fin 256) :
    (k2_pay12 (F := Ideal) x2 (ix2 r b) : EReal)
      = (((IntOp.cmpi .eq (x2 (ix3 0 r 1)) (BitVec.ofNat 32 b.val)).toNat : ℝ) : EReal) := by
  exact (onehot_at _ _ (ix2 r b)).trans (congrArg₂ (fun u v : BitVec 32 => (((IntOp.cmpi .eq u v).toNat : ℝ) : EReal))
    ((Cert.LibPlainDot.broadcast_col (M := 2048) (N := 256) _ _ r b).trans
      ((slice2_axis1_apply 1 _ _ r 0 1 rfl).trans (shapeCast_1ab_ab_apply x2 _ r 1))) (iota_single_apply _ _ _ _ _ _))

-- Each one-hot row picks one row of its projected table; the blocks are then read off the arrays they are cut from.
theorem row_nlin (af : FVec Ideal S256x128x64 .f32) (bf : FVec Ideal S256x256x32 .f32) (ix : IVec S256x2048x2 32)
    (wa : FVec Ideal S64x256 .bf16) (wb : FVec Ideal S32x256 .bf16) (b : FVec Ideal S1x256 .f32)
    (x0 : FVec Ideal S1x128x64 .f32) (x1 : FVec Ideal S1x256x32 .f32) (x2 : IVec S1x2048x2 32)
    (x3 : FVec Ideal S64x256 .bf16) (x4 : FVec Ideal S32x256 .bf16) (x5 : FVec Ideal S1x256 .f32)
    (n : Fin 256) (r : Fin 2048) (f : Fin 256)
    (e0 : ∀ a k, x0 (ix3 0 a k) = af (ix3 n a k)) (e1 : ∀ a k, x1 (ix3 0 a k) = bf (ix3 n a k))
    (e2 : ∀ q, x2 (ix3 0 r q) = ix (ix3 n r q)) (e3 : ∀ k, x3 (ix2 k f) = wa (ix2 k f))
    (e4 : ∀ k, x4 (ix2 k f) = wb (ix2 k f)) (e5 : x5 (ix2 0 f) = b (ix2 0 f))
    (hA : (ix (ix3 n r 0)).toNat < 128) (hB : (ix (ix3 n r 1)).toNat < 256) :
    (k2_pay1 (F := Ideal) (k2_pay8 (F := Ideal) x0 x3 x5) (k2_pay9 (F := Ideal) x1 x4) (k2_pay11 (F := Ideal) x2)
        (k2_pay12 (F := Ideal) x2) (constant (F := Ideal) S2048x256 .f32 0x00000000#32) (ix2 r f) : EReal)
      = nlin af bf ix wa wb b n r f := by
  have h0 : (x2 (ix3 0 r 0)).toNat < 128 := by rw [e2 0]; exact hA
  have h1 : (x2 (ix3 0 r 1)).toNat < 256 := by rw [e2 1]; exact hB
  have iA : (⟨(x2 (ix3 0 r 0)).toNat, h0⟩ : Fin 128) = ⟨(ix (ix3 n r 0)).toNat % 128, Nat.mod_lt _ (by decide)⟩ :=
    Fin.ext ((congrArg BitVec.toNat (e2 0)).trans (Nat.mod_eq_of_lt hA).symm)
  have iB : (⟨(x2 (ix3 0 r 1)).toNat, h1⟩ : Fin 256) = ⟨(ix (ix3 n r 1)).toNat % 256, Nat.mod_lt _ (by decide)⟩ :=
    Fin.ext ((congrArg BitVec.toNat (e2 1)).trans (Nat.mod_eq_of_lt hB).symm)
  unfold k2_pay1 nlin
  refine congrArg₂ (fun (p q : EReal) => p + q)
    ((Cert.LibPlainAny.matmul_plain_zero_any 2048 128 256 (k2_pay11 (F := Ideal) x2) (k2_pay8 (F := Ideal) x0 x3 x5) r f).trans ?_)
    ((Cert.LibPlainAny.matmul_plain_zero_any 2048 256 256 (k2_pay12 (F := Ideal) x2) (k2_pay9 (F := Ideal) x1 x4) r f).trans ?_)
  · refine (Finset.sum_congr rfl fun a _ =>
      congrArg (fun q : EReal => q * (k2_pay8 (F := Ideal) x0 x3 x5 (ix2 a f) : EReal)) (pay11_apply x2 r a)).trans ?_
    refine (sum_onehot_pick (x2 (ix3 0 r 0)) h0 (by norm_num)
      (fun a => (k2_pay8 (F := Ideal) x0 x3 x5 (ix2 a f) : EReal))).trans ?_
    refine (pay8_apply x0 x3 x5 _ f).trans ?_
    exact congrArg₂ (fun (p q : EReal) => p + q) (Finset.sum_congr rfl fun k _ => congrArg₂ (fun (p q : EReal) => p * q)
      ((e0 _ k).trans (congrArg (fun a => af (ix3 n a k)) iA)) (e3 k)) e5
  · refine (Finset.sum_congr rfl fun c _ =>
      congrArg (fun q : EReal => q * (k2_pay9 (F := Ideal) x1 x4 (ix2 c f) : EReal)) (pay12_apply x2 r c)).trans ?_
    refine (sum_onehot_pick (x2 (ix3 0 r 1)) h1 (by norm_num)
      (fun c => (k2_pay9 (F := Ideal) x1 x4 (ix2 c f) : EReal))).trans ?_
    refine (pay9_apply x1 x4 _ f).trans ?_
    exact Finset.sum_congr rfl fun k _ => congrArg₂ (fun (p q : EReal) => p * q)
      ((e1 _ k).trans (congrArg (fun a => bf (ix3 n a k)) iB)) (e4 k)

end Cert.Spec

end
-- ==== Proof.KI.R3Value.lean ====
import proofs.«418526_j20469814133046_3_alg».proof.Proof.KI.R3
import proofs.«418526_j20469814133046_3_alg».proof.Proof.KI.R3Pay
import proofs.«418526_j20469814133046_3_alg».proof.Proof.KI.Nlin

noncomputable section

open scoped BigOperators

namespace Cert.KernelIdeal.R3

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)
open Cert.Spec (nlinV)

theorem idx_facts : ∀ t : Fin cfg3.N,
    (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 3) = t.val ∧ win3_8.index t (1 : Fin 3) = 0 ∧ win3_8.index t (2 : Fin 3) = 0) :=
  (by decide +kernel : ∀ t : Fin grid3.N, _)

theorem tlt (t : Fin cfg3.N) : t.val < 256 := lt_of_lt_of_eq t.isLt (show cfg3.N = 256 from N_3)

variable (V : Valuation τ sig (Elt Ideal))

abbrev a0 : FVec Ideal S256x128x64 .f32 := V main_arg0
abbrev a1 : FVec Ideal S256x256x32 .f32 := V main_arg1
abbrev a2 : IVec S256x2048x2 32 := V main_v25
abbrev a3 : FVec Ideal S64x256 .bf16 := V main_v28
abbrev a4 : FVec Ideal S32x256 .bf16 := V main_v31
abbrev a5 : FVec Ideal S1x256 .f32 := V main_v32
abbrev a6 : FVec Ideal S1x256 .f32 := V main_v46
abbrev a7 : FVec Ideal S1x256 .f32 := V main_v49

abbrev b0 (t : Fin cfg3.N) : FVec Ideal S1x128x64 .f32 := iblk V 0 t
abbrev b1 (t : Fin cfg3.N) : FVec Ideal S1x256x32 .f32 := iblk V 1 t
abbrev b2 (t : Fin cfg3.N) : IVec S1x2048x2 32 := iblk V 2 t
abbrev b3 (t : Fin cfg3.N) : FVec Ideal S64x256 .bf16 := iblk V 3 t
abbrev b4 (t : Fin cfg3.N) : FVec Ideal S32x256 .bf16 := iblk V 4 t
abbrev b5 (t : Fin cfg3.N) : FVec Ideal S1x256 .f32 := iblk V 5 t
abbrev b6 (t : Fin cfg3.N) : FVec Ideal S1x256 .f32 := iblk V 6 t
abbrev b7 (t : Fin cfg3.N) : FVec Ideal S1x256 .f32 := iblk V 7 t

theorem blk0_apply (t : Fin cfg3.N) (n : Fin 256) (hn : n.val = t.val) (a : Fin 128) (k : Fin 64) :
    b0 V t (ix3 0 a k) = a0 V (ix3 n a k) := by
  obtain ⟨⟨e0, e1, e2⟩, -⟩ := idx_facts t
  show a0 V (((cfg3.win 0).blk t).view.emb (ix3 0 a k)) = _
  refine congrArg _ (funext fun ax => Fin.ext ?_)
  match ax with
  | ⟨0, _⟩ => show win3_0.index t (0 : Fin 3) * 1 + 1 * 0 = n.val; omega
  | ⟨1, _⟩ => show win3_0.index t (1 : Fin 3) * 128 + 1 * a.val = a.val; omega
  | ⟨2, _⟩ => show win3_0.index t (2 : Fin 3) * 64 + 1 * k.val = k.val; omega

theorem blk1_apply (t : Fin cfg3.N) (n : Fin 256) (hn : n.val = t.val) (a : Fin 256) (k : Fin 32) :
    b1 V t (ix3 0 a k) = a1 V (ix3 n a k) := by
  obtain ⟨-, ⟨e0, e1, e2⟩, -⟩ := idx_facts t
  show a1 V (((cfg3.win 1).blk t).view.emb (ix3 0 a k)) = _
  refine congrArg _ (funext fun ax => Fin.ext ?_)
  match ax with
  | ⟨0, _⟩ => show win3_1.index t (0 : Fin 3) * 1 + 1 * 0 = n.val; omega
  | ⟨1, _⟩ => show win3_1.index t (1 : Fin 3) * 256 + 1 * a.val = a.val; omega
  | ⟨2, _⟩ => show win3_1.index t (2 : Fin 3) * 32 + 1 * k.val = k.val; omega

theorem blk2_apply (t : Fin cfg3.N) (n : Fin 256) (hn : n.val = t.val) (a : Fin 2048) (k : Fin 2) :
    b2 V t (ix3 0 a k) = a2 V (ix3 n a k) := by
  obtain ⟨-, -, ⟨e0, e1, e2⟩, -⟩ := idx_facts t
  show a2 V (((cfg3.win 2).blk t).view.emb (ix3 0 a k)) = _
  refine congrArg _ (funext fun ax => Fin.ext ?_)
  match ax with
  | ⟨0, _⟩ => show win3_2.index t (0 : Fin 3) * 1 + 1 * 0 = n.val; omega
  | ⟨1, _⟩ => show win3_2.index t (1 : Fin 3) * 2048 + 1 * a.val = a.val; omega
  | ⟨2, _⟩ => show win3_2.index t (2 : Fin 3) * 2 + 1 * k.val = k.val; omega

theorem blk3_apply (t : Fin cfg3.N) (a : Fin 64) (k : Fin 256) :
    b3 V t (ix2 a k) = a3 V (ix2 a k) := by
  obtain ⟨-, -, -, ⟨e0, e1⟩, -⟩ := idx_facts t
  show a3 V (((cfg3.win 3).blk t).view.emb (ix2 a k)) = _
  refine congrArg _ (funext fun ax => Fin.ext ?_)
  match ax with
  | ⟨0, _⟩ => show win3_3.index t (0 : Fin 2) * 64 + 1 * a.val = a.val; omega
  | ⟨1, _⟩ => show win3_3.index t (1 : Fin 2) * 256 + 1 * k.val = k.val; omega

theorem blk4_apply (t : Fin cfg3.N) (a : Fin 32) (k : Fin 256) :
    b4 V t (ix2 a k) = a4 V (ix2 a k) := by
  obtain ⟨-, -, -, -, ⟨e0, e1⟩, -⟩ := idx_facts t
  show a4 V (((cfg3.win 4).blk t).view.emb (ix2 a k)) = _
  refine congrArg _ (funext fun ax => Fin.ext ?_)
  match ax with
  | ⟨0, _⟩ => show win3_4.index t (0 : Fin 2) * 32 + 1 * a.val = a.val; omega
  | ⟨1, _⟩ => show win3_4.index t (1 : Fin 2) * 256 + 1 * k.val = k.val; omega

theorem blk5_apply (t : Fin cfg3.N) (a : Fin 1) (k : Fin 256) :
    b5 V t (ix2 a k) = a5 V (ix2 a k) := by
  obtain ⟨-, -, -, -, -, ⟨e0, e1⟩, -⟩ := idx_facts t
  show a5 V (((cfg3.win 5).blk t).view.emb (ix2 a k)) = _
  refine congrArg _ (funext fun ax => Fin.ext ?_)
  match ax with
  | ⟨0, _⟩ => show win3_5.index t (0 : Fin 2) * 1 + 1 * a.val = a.val; omega
  | ⟨1, _⟩ => show win3_5.index t (1 : Fin 2) * 256 + 1 * k.val = k.val; omega

theorem blk6_apply (t : Fin cfg3.N) (a : Fin 1) (k : Fin 256) :
    b6 V t (ix2 a k) = a6 V (ix2 a k) := by
  obtain ⟨-, -, -, -, -, -, ⟨e0, e1⟩, -⟩ := idx_facts t
  show a6 V (((cfg3.win 6).blk t).view.emb (ix2 a k)) = _
  refine congrArg _ (funext fun ax => Fin.ext ?_)
  match ax with
  | ⟨0, _⟩ => show win3_6.index t (0 : Fin 2) * 1 + 1 * a.val = a.val; omega
  | ⟨1, _⟩ => show win3_6.index t (1 : Fin 2) * 256 + 1 * k.val = k.val; omega

theorem blk7_apply (t : Fin cfg3.N) (a : Fin 1) (k : Fin 256) :
    b7 V t (ix2 a k) = a7 V (ix2 a k) := by
  obtain ⟨-, -, -, -, -, -, -, ⟨e0, e1⟩, -⟩ := idx_facts t
  show a7 V (((cfg3.win 7).blk t).view.emb (ix2 a k)) = _
  refine congrArg _ (funext fun ax => Fin.ext ?_)
  match ax with
  | ⟨0, _⟩ => show win3_7.index t (0 : Fin 2) * 1 + 1 * a.val = a.val; omega
  | ⟨1, _⟩ => show win3_7.index t (1 : Fin 2) * 256 + 1 * k.val = k.val; omega

def pt (n : Fin 256) : Fin cfg3.N := ⟨n.val, by rw [show cfg3.N = 256 from N_3]; exact n.isLt⟩

def outBlk (t : Fin cfg3.N) : FVec Ideal S1x2048x256 .f32 :=
  k3_pay1 (k3_pay2 (b0 V t) (b3 V t) (b5 V t) (b1 V t) (b4 V t) (b2 V t)) (b6 V t) (b7 V t)

def G : FVec Ideal S256x2048x256 .f32 := fun i => outBlk V (pt (i 0)) (ix3 0 (i 1) (i 2))

theorem emb8 (t : Fin cfg3.N) (r : Fin 2048) (f : Fin 256) :
    ((cfg3.win 8).blk t).view.emb (ix3 0 r f) = ix3 (⟨t.val, tlt t⟩ : Fin 256) r f := by
  obtain ⟨-, -, -, -, -, -, -, -, e0, e1, e2⟩ := idx_facts t
  funext ax; apply Fin.ext
  match ax with
  | ⟨0, _⟩ => show win3_8.index t (0 : Fin 3) * 1 + 1 * 0 = t.val; omega
  | ⟨1, _⟩ => show win3_8.index t (1 : Fin 3) * 2048 + 1 * r.val = r.val; omega
  | ⟨2, _⟩ => show win3_8.index t (2 : Fin 3) * 256 + 1 * f.val = f.val; omega

theorem flushed_eq (c : Dev nD) (t : Fin cfg3.N) :
    (dat V c).flushed 8 t = ((cfg3.win 8).blk t).view.read (Elt Ideal) (G V) := by
  show (cfg3.win 8).cut (grid3.coords t) ((dat V c).after 8 t) = _
  rw [after_8]
  funext y
  obtain ⟨u, r, f, rfl⟩ : ∃ (u : Fin 1) (r : Fin 2048) (f : Fin 256), y = ix3 u r f := ⟨y 0, y 1, y 2, eq_ix3 y⟩
  obtain rfl : u = 0 := Subsingleton.elim _ _
  show outBlk V t (ix3 0 r f) = G V (((cfg3.win 8).blk t).view.emb (ix3 0 r f))
  rw [emb8 t r f]
  rfl

-- Entry (n, r, f) is the image of (0, r, f) under block n's embedding, so it lies in that block.
theorem mem_blk (n : Fin 256) (r : Fin 2048) (f : Fin 256) :
    (ix3 n r f : S256x2048x256.Idx) ∈ ((cfg3.win 8).blk (pt n)).view.set := by
  rw [← show ((cfg3.win 8).blk (pt n)).view.emb (ix3 0 r f) = ix3 n r f from emb8 (pt n) r f]
  exact View.emb_mem_set _ _

theorem arrAt_apply (c : Dev nD) (n : Fin 256) (r : Fin 2048) (f : Fin 256) :
    (dat V c).arrAt 8 cfg3.N (ix3 n r f) = outBlk V (pt n) (ix3 0 r f) :=
  (dat V c).arrAt_apply_of_mem 8 (G V) (fun t _ => flushed_eq V c t) cfg3.N (pt n) (ix3 n r f) (pt n).isLt (flush3_8 _) (mem_blk n r f)

theorem out_apply (c : Dev nD) (n : Fin 256) (r : Fin 2048) (f : Fin 256)
    (hA : (a2 V (ix3 n r 0)).toNat < 128) (hB : (a2 V (ix3 n r 1)).toNat < 256) :
    (dat V c).arrAt 8 cfg3.N (ix3 n r f) = Cert.Spec.lrelu (nlinV V n r f * a6 V (ix2 0 f) + a7 V (ix2 0 f)) := by
  refine (arrAt_apply V c n r f).trans ?_
  unfold outBlk
  refine (pay1_apply _ (b6 V (pt n)) (b7 V (pt n)) r f).trans ?_
  rw [blk6_apply V (pt n) 0 f, blk7_apply V (pt n) 0 f]
  exact congrArg (fun y : EReal => Cert.Spec.lrelu (y * a6 V (ix2 0 f) + a7 V (ix2 0 f)))
    (Cert.Spec.row_nlin (a0 V) (a1 V) (a2 V) (a3 V) (a4 V) (a5 V) (b0 V (pt n)) (b1 V (pt n)) (b2 V (pt n)) (b3 V (pt n)) (b4 V (pt n))
      (b5 V (pt n)) n r f (blk0_apply V (pt n) n rfl) (blk1_apply V (pt n) n rfl) (blk2_apply V (pt n) n rfl r)
      (fun k => blk3_apply V (pt n) k f) (fun k => blk4_apply V (pt n) k f) (blk5_apply V (pt n) 0 f) hA hB)

end Cert.KernelIdeal.R3

end
-- ==== Proof.Math.BnEq.lean ====
import proofs.«418526_j20469814133046_3_alg».proof.Proof.Spec
import Idealize.ShloMosaic.PureOps.Ideal
import Idealize.ShloMosaic.PureOps.Ideal.Laws
import Mathlib.Data.EReal.Inv
import Mathlib.Analysis.Real.Sqrt
import Mathlib.Data.Fintype.Card
import Mathlib.Tactic.Ring
import Mathlib.Tactic.FieldSimp
import Mathlib.Tactic.NormNum

noncomputable section

namespace Cert.Spec

open Idealize.ShloMosaic

theorem coe_sum_finset {R : Type} (s : Finset R) (a : R → ℝ) :
    (∑ r ∈ s, ((a r : ℝ) : EReal)) = ((∑ r ∈ s, a r : ℝ) : EReal) := by
  classical
  refine Finset.induction_on s ?_ ?_
  · simp
  · intro x t hx ih
    rw [Finset.sum_insert hx, Finset.sum_insert hx, ih, EReal.coe_add]

theorem coe_sum {R : Type} [Fintype R] (a : R → ℝ) : (∑ r, ((a r : ℝ) : EReal)) = ((∑ r, a r : ℝ) : EReal) :=
  coe_sum_finset Finset.univ a

theorem div_coe_coe (x y : ℝ) (hy : y ≠ 0) : Ideal.div (x : EReal) (y : EReal) = ((x / y : ℝ) : EReal) := by
  rw [Ideal.div_coe hy, ← EReal.coe_mul, mul_one_div]

theorem sqrt_coe_nonneg (x : ℝ) (hx : 0 ≤ x) : Ideal.sqrt (x : EReal) = ((Real.sqrt x : ℝ) : EReal) := by
  rw [Ideal.sqrt_coe, if_neg (not_lt.mpr hx)]

variable {R : Type} [Fintype R]

-- the variance about the mean is the second moment less the squared mean
theorem var_real (a : R → ℝ) (n : ℝ) (hn : n = (Fintype.card R : ℝ)) (hn0 : n ≠ 0) :
    (∑ r, (a r - (∑ r, a r) / n) * (a r - (∑ r, a r) / n)) / n
      = (∑ r, a r * a r) / n - (∑ r, a r) / n * ((∑ r, a r) / n) := by
  have hexp : ∀ m : ℝ, (∑ r, (a r - m) * (a r - m)) = (∑ r, a r * a r) - 2 * m * (∑ r, a r) + n * (m * m) := by
    intro m
    have h1 : ∀ r, (a r - m) * (a r - m) = a r * a r - 2 * m * a r + m * m := fun r => by ring
    simp only [h1, Finset.sum_add_distrib, Finset.sum_sub_distrib, ← Finset.mul_sum, Finset.sum_const,
      Finset.card_univ, nsmul_eq_mul, hn]
    ring
  rw [hexp]
  field_simp
  ring

theorem var_real_nonneg (a : R → ℝ) (n m : ℝ) (hn : 0 ≤ n) : 0 ≤ (∑ r, (a r - m) * (a r - m)) / n :=
  div_nonneg (Finset.sum_nonneg fun r _ => mul_self_nonneg (a r - m)) hn

theorem mean_coe (a : R → ℝ) (n : ℝ) (hn0 : n ≠ 0) :
    mean (fun r => ((a r : ℝ) : EReal)) (n : EReal) = (((∑ r, a r) / n : ℝ) : EReal) := by
  rw [mean, zero_add, coe_sum, div_coe_coe _ _ hn0]

theorem var_coe (a : R → ℝ) (n : ℝ) (hn0 : n ≠ 0) :
    var (fun r => ((a r : ℝ) : EReal)) (n : EReal)
      = (((∑ r, (a r - (∑ r, a r) / n) * (a r - (∑ r, a r) / n)) / n : ℝ) : EReal) := by
  rw [var, mean_coe a n hn0, zero_add]
  simp only [← EReal.coe_sub, ← EReal.coe_mul]
  rw [coe_sum, div_coe_coe _ _ hn0]

theorem bnRef_coe (a : R → ℝ) (n e γ β : ℝ) (hn0 : n ≠ 0)
    (hpos : 0 < (∑ r, (a r - (∑ r, a r) / n) * (a r - (∑ r, a r) / n)) / n + e) (r : R) :
    bnRef (fun r => ((a r : ℝ) : EReal)) (n : EReal) (e : EReal) (γ : EReal) (β : EReal) r
      = lrelu (((a r - (∑ r, a r) / n)
          * (γ / Real.sqrt ((∑ r, (a r - (∑ r, a r) / n) * (a r - (∑ r, a r) / n)) / n + e)) + β : ℝ) : EReal) := by
  rw [bnRef, mean_coe a n hn0, var_coe a n hn0, ← EReal.coe_add, sqrt_coe_nonneg _ hpos.le,
    div_coe_coe _ _ (Real.sqrt_pos.mpr hpos).ne', ← EReal.coe_sub, ← EReal.coe_mul, ← EReal.coe_add]

theorem bnKer_coe (s q n e γ β x : ℝ) (hn0 : n ≠ 0) (hpos : 0 < q / n - s / n * (s / n) + e) :
    bnKer (s : EReal) (q : EReal) (n : EReal) (e : EReal) (γ : EReal) (β : EReal) (x : EReal)
      = lrelu ((x * (γ / Real.sqrt (q / n - s / n * (s / n) + e))
          + (β - s / n * (γ / Real.sqrt (q / n - s / n * (s / n) + e))) : ℝ) : EReal) := by
  rw [bnKer, div_coe_coe q n hn0, div_coe_coe s n hn0, ← EReal.coe_mul, ← EReal.coe_sub, ← EReal.coe_add,
    sqrt_coe_nonneg _ hpos.le, div_coe_coe _ _ (Real.sqrt_pos.mpr hpos).ne']
  simp only [← EReal.coe_mul, ← EReal.coe_sub, ← EReal.coe_add]

-- on real rows the two arrangements agree: both variances are nonnegative, so eps keeps the root's argument positive
theorem bn_eq {R : Type} [Fintype R] (y : R → EReal) (hy : ∀ r, ∃ a : ℝ, y r = (a : EReal))
    (N : EReal) (hN : N = ((Fintype.card R : ℝ) : EReal)) (hR : 0 < Fintype.card R)
    (eps : EReal) (heps : ∃ e : ℝ, 0 < e ∧ eps = (e : EReal))
    (g b : EReal) (hg : ∃ a : ℝ, g = (a : EReal)) (hb : ∃ a : ℝ, b = (a : EReal)) (r : R) :
    bnKer (∑ r, y r) (∑ r, y r * y r) N eps g b (y r) = bnRef y N eps g b r := by
  choose a ha using hy
  obtain ⟨e, he, rfl⟩ := heps
  obtain ⟨γ, rfl⟩ := hg
  obtain ⟨β, rfl⟩ := hb
  obtain rfl : y = fun r => ((a r : ℝ) : EReal) := funext ha
  subst hN
  have hn0 : (Fintype.card R : ℝ) ≠ 0 := by exact_mod_cast hR.ne'
  have hv := var_real a (Fintype.card R : ℝ) rfl hn0
  have hv0 := var_real_nonneg a (Fintype.card R : ℝ) ((∑ r, a r) / (Fintype.card R : ℝ)) (Nat.cast_nonneg _)
  have hposR : 0 < (∑ r, (a r - (∑ r, a r) / (Fintype.card R : ℝ)) * (a r - (∑ r, a r) / (Fintype.card R : ℝ)))
      / (Fintype.card R : ℝ) + e := by linarith
  have hposK : 0 < (∑ r, a r * a r) / (Fintype.card R : ℝ)
      - (∑ r, a r) / (Fintype.card R : ℝ) * ((∑ r, a r) / (Fintype.card R : ℝ)) + e := by rw [← hv]; exact hposR
  have hS : (∑ r, ((a r : ℝ) : EReal)) = ((∑ r, a r : ℝ) : EReal) := coe_sum a
  have hQ : (∑ r, ((a r : ℝ) : EReal) * ((a r : ℝ) : EReal)) = ((∑ r, a r * a r : ℝ) : EReal) := by
    rw [← coe_sum]; simp only [EReal.coe_mul]
  show bnKer (∑ r, ((a r : ℝ) : EReal)) (∑ r, ((a r : ℝ) : EReal) * ((a r : ℝ) : EReal)) _ _ _ _ ((a r : ℝ) : EReal) = _
  rw [hS, hQ, bnKer_coe _ _ _ _ _ _ _ hn0 hposK, bnRef_coe a _ e γ β hn0 hposR r, hv]
  congr 2
  ring

theorem ofBits_32768 : Ideal.ofBits .f32 0x47000000#32 = ((32768 : ℝ) : EReal) := by
  simp [Ideal.ofBits, Ideal.ieee, -EReal.coe_mul]; norm_num

theorem ofBits_524288 : Ideal.ofBits .f32 0x49000000#32 = ((524288 : ℝ) : EReal) := by
  simp [Ideal.ofBits, Ideal.ieee, -EReal.coe_mul]; norm_num

theorem ofBits_eps : Ideal.ofBits .f32 0x358637BD#32 = ((8796093 / 8796093022208 : ℝ) : EReal) := by
  simp [Ideal.ofBits, Ideal.ieee, -EReal.coe_mul]; norm_num

theorem ofBits_eps_pos : ∃ e : ℝ, 0 < e ∧ Ideal.ofBits .f32 0x358637BD#32 = (e : EReal) :=
  ⟨8796093 / 8796093022208, by norm_num, ofBits_eps⟩

theorem ofBits_zero : Ideal.ofBits .f32 0x00000000#32 = (0 : EReal) := Ideal.ofBits_zero_f32

end Cert.Spec

end
-- ==== Proof.KI.HostN.lean ====
import proofs.«418526_j20469814133046_3_alg».proof.Proof.KILaunch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HostVal

open Cert.KernelIdeal Cert.KernelIdeal.Gen Cert.KernelIdeal.GenP
open Idealize.ShloMosaic Idealize.ShloMosaic.TcCoe Idealize.ShloMosaic.ValueIdx

variable (V : Valuation τ sig (Elt Ideal))

abbrev arrIdxA : IVec S256x128x16 32 := V main_arg2
abbrev arrIdxB : IVec S256x128x16 32 := V main_arg3
abbrev arrW : FVec Ideal S256x96 .f32 := V main_arg8
abbrev arrBias : FVec Ideal S256 .f32 := V main_arg9
abbrev arrS : FVec Ideal S2x1x256 .f32 := V main_v33_0
abbrev arrQ : FVec Ideal S2x1x256 .f32 := V main_v33_1
abbrev arrG : FVec Ideal S256 .f32 := V main_arg10
abbrev arrB : FVec Ideal S256 .f32 := V main_arg11
abbrev arrOut : FVec Ideal S256x2048x256 .f32 := V main_v50

theorem flat_col_apply (x : IVec S256x128x16 32) (n : Fin 256) (r : Fin 2048) (u : Fin 1) :
    broadcastInDim S256x2048x1 ![0, 1] bcast_S256x2048_S256x2048x1_0_1
        (shapeCast S256x2048 x shapeCasts_S256x128x16_S256x2048) (ix3 n r u)
      = x (ix3 n ⟨r.val / 16, by omega⟩ ⟨r.val % 16, Nat.mod_lt _ (by decide)⟩) := by
  refine (broadcastInDim_apply (s := S256x2048) (t := S256x2048x1) _ _ _ (ix3 n r u) (ix2 n r) fun a => ?_).trans ?_
  · match a with
    | ⟨0, _⟩ => exact (if_neg (show ¬ ((256 : ℕ) = 1) by decide)).symm
    | ⟨1, _⟩ => exact (if_neg (show ¬ ((2048 : ℕ) = 1) by decide)).symm
  · refine shapeCast_apply (s := S256x128x16) (t := S256x2048) _ _ _ _ ?_
    rw [Shape.rowMajor_val_three, Shape.rowMajor_val_two]
    show (n.val * 128 + r.val / 16) * 16 + r.val % 16 = n.val * 2048 + r.val
    omega

theorem v25_apply0 (n : Fin 256) (r : Fin 2048) :
    (StableHlo.after (hostOps2 (F := Ideal)) V main_v25 : IVec S256x2048x2 32) (ix3 n r 0)
      = arrIdxA V (ix3 n ⟨r.val / 16, by omega⟩ ⟨r.val % 16, Nat.mod_lt _ (by decide)⟩) := by
  simp only [hostOps2]
  after_results_simp
  refine (concatenate_pair_apply_left (t := S256x2048x2) (s₁ := S256x2048x1) (s₂ := S256x2048x1) (2 : Fin 3) _ _ _
    (ix3 n r (0 : Fin 2)) rfl (ix3 n r (0 : Fin 1)) fun b => ?_).trans (flat_col_apply _ n r 0)
  match b with
  | ⟨0, _⟩ => rfl
  | ⟨1, _⟩ => rfl
  | ⟨2, _⟩ => rfl

theorem v25_apply1 (n : Fin 256) (r : Fin 2048) :
    (StableHlo.after (hostOps2 (F := Ideal)) V main_v25 : IVec S256x2048x2 32) (ix3 n r 1)
      = arrIdxB V (ix3 n ⟨r.val / 16, by omega⟩ ⟨r.val % 16, Nat.mod_lt _ (by decide)⟩) := by
  simp only [hostOps2]
  after_results_simp
  refine (concatenate_pair_apply_right (t := S256x2048x2) (s₁ := S256x2048x1) (s₂ := S256x2048x1) (2 : Fin 3) _ _ _
    (ix3 n r (1 : Fin 2)) rfl rfl (ix3 n r (0 : Fin 1)) (fun b hb => ?_) rfl).trans (flat_col_apply _ n r 0)
  match b, hb with
  | ⟨0, _⟩, _ => rfl
  | ⟨1, _⟩, _ => rfl
  | ⟨2, _⟩, hb => exact absurd rfl hb

theorem v28_apply (k : Fin 64) (f : Fin 256) :
    (StableHlo.after (hostOps2 (F := Ideal)) V main_v28 : FVec Ideal S64x256 .bf16) (ix2 k f)
      = arrW V (ix2 f ⟨k.val, by omega⟩) := by
  simp only [hostOps2]
  after_results_simp
  rw [truncf_apply]
  refine (transpose_ix2_apply (a := 256) (b := 64) _ _ k f).trans ?_
  exact slice2_axis1_apply (n0 := 256) (n1 := 96) (m := 64) 0 _ _ f k ⟨k.val, by omega⟩ (Nat.zero_add _).symm

theorem v31_apply (k : Fin 32) (f : Fin 256) :
    (StableHlo.after (hostOps2 (F := Ideal)) V main_v31 : FVec Ideal S32x256 .bf16) (ix2 k f)
      = arrW V (ix2 f ⟨64 + k.val, by omega⟩) := by
  simp only [hostOps2]
  after_results_simp
  rw [truncf_apply]
  refine (transpose_ix2_apply (a := 256) (b := 32) _ _ k f).trans ?_
  exact slice2_axis1_apply (n0 := 256) (n1 := 96) (m := 32) 64 _ _ f k ⟨64 + k.val, by omega⟩ rfl

theorem v32_apply (f : Fin 256) :
    (StableHlo.after (hostOps2 (F := Ideal)) V main_v32 : FVec Ideal S1x256 .f32) (ix2 0 f) = arrBias V (ix1 f) := by
  simp only [hostOps2]
  after_results_simp
  exact shapeCast_a_1a_apply (a := 256) _ _ 0 f

theorem hostSqrt_apply {s : Shape} {φ : FTy} (a : FVec Ideal s φ) (i : s.Idx) : Host.sqrt a i = Ideal.sqrt (a i) := rfl

theorem reduces_2x1x256 : S2x1x256.Reduces [0] S1x256 := by decide

theorem lift_2x1x256 (f : Fin 256) (k : Fin 2) :
    reduces_2x1x256.lift (ix2 (0 : Fin 1) f) k = ix3 k (0 : Fin 1) f := by
  funext c
  match c with
  | ⟨0, _⟩ => exact Fin.ext rfl
  | ⟨1, _⟩ => exact Fin.ext rfl
  | ⟨2, _⟩ => exact Fin.ext rfl

abbrev mom2 (x : FVec Ideal S2x1x256 .f32) (f : Fin 256) : EReal :=
  Ideal.ofBits .f32 0x00000000#32 + (x (ix3 (0 : Fin 2) (0 : Fin 1) f) + x (ix3 (1 : Fin 2) (0 : Fin 1) f))

theorem sum2_apply (x : FVec Ideal S2x1x256 .f32) (f : Fin 256) :
    Host.reduceAdd x (constant (F := Ideal) S_ .f32 0x00000000#32) reducesTo_S2x1x256_S1x256_d0 h_S_ (ix2 0 f)
      = mom2 x f := by
  rw [hostReduceAdd_apply, constant_apply]
  rw [Ideal.hostReduceAdd_single reducesTo_S2x1x256_S1x256_d0 reduces_2x1x256]
  refine congrArg (fun z : EReal => Ideal.ofBits .f32 0x00000000#32 + z) ?_
  refine (Fin.sum_univ_two (fun k : Fin 2 => x (reduces_2x1x256.lift (ix2 (0 : Fin 1) f) k))).trans ?_
  rw [lift_2x1x256, lift_2x1x256]

abbrev cN : EReal := Ideal.ofBits .f32 0x49000000#32
abbrev cEps : EReal := Ideal.ofBits .f32 0x358637BD#32

abbrev scaleOf (s q g : EReal) : EReal :=
  Ideal.div g (Ideal.sqrt ((Ideal.div q cN - Ideal.div s cN * Ideal.div s cN) + cEps))

theorem row_apply (x : FVec Ideal S256 .f32) (f : Fin 256) :
    shapeCast S1x256 x shapeCasts_S256_S1x256 (ix2 0 f) = x (ix1 f) :=
  shapeCast_a_1a_apply (a := 256) x _ 0 f

theorem v46_apply (f : Fin 256) :
    (StableHlo.after (hostOps3 (F := Ideal)) V main_v46 : FVec Ideal S1x256 .f32) (ix2 0 f)
      = scaleOf (mom2 (arrS V) f) (mom2 (arrQ V) f) (arrG V (ix1 f)) := by
  simp only [hostOps3]
  after_results_simp
  simp only [hostDivf_apply, hostSqrt_apply, addf_apply, subf_apply, mulf_apply, sum2_apply]
  show Ideal.div (shapeCast S1x256 (arrG V) shapeCasts_S256_S1x256 (ix2 0 f)) _ = _
  rw [row_apply]
  rfl

theorem v49_apply (f : Fin 256) :
    (StableHlo.after (hostOps3 (F := Ideal)) V main_v49 : FVec Ideal S1x256 .f32) (ix2 0 f)
      = arrB V (ix1 f) - Ideal.div (mom2 (arrS V) f) cN * scaleOf (mom2 (arrS V) f) (mom2 (arrQ V) f) (arrG V (ix1 f)) := by
  simp only [hostOps3]
  after_results_simp
  simp only [hostDivf_apply, hostSqrt_apply, addf_apply, subf_apply, mulf_apply, sum2_apply]
  show shapeCast S1x256 (arrB V) shapeCasts_S256_S1x256 (ix2 0 f)
      - _ * Ideal.div (shapeCast S1x256 (arrG V) shapeCasts_S256_S1x256 (ix2 0 f)) _ = _
  rw [row_apply, row_apply]
  rfl

theorem v51_apply (n : Fin 256) (a : Fin 128) (d : Fin 16) (f : Fin 256) :
    (StableHlo.after (hostOps4 (F := Ideal)) V main_v51 : FVec Ideal S256x128x16x256 .f32) (ix4 n a d f)
      = arrOut V (ix3 n ⟨a.val * 16 + d.val, by omega⟩ f) := by
  simp only [hostOps4]
  after_results_simp
  refine shapeCast_apply (s := S256x2048x256) (t := S256x128x16x256) _ _ _ _ ?_
  rw [Shape.rowMajor_val_three, Shape.rowMajor_val_four]
  show (n.val * 2048 + (a.val * 16 + d.val)) * 256 + f.val = ((n.val * 128 + a.val) * 16 + d.val) * 256 + f.val
  omega

end Cert.KernelIdeal.HostVal

end
-- ==== Proof.KI.R2Pay.lean ====
import proofs.«418526_j20469814133046_3_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.R2

open Cert.KernelIdeal Cert.KernelIdeal.Gen
open Idealize.ShloMosaic Idealize.ShloMosaic.ValueIdx
open scoped BigOperators

-- An accumulator's update: the old row plus the column sums of a 2048 x 256 array.
theorem colsum_apply (y : FVec Ideal S2048x256 .f32) (a : FVec Ideal S1x256 .f32) (f : Fin 256) :
    (shapeCast S1x256 (addf a (shapeCast S1x256 (multiReduction .add [0] S256 y 0x00000000#32 reduces_S2048x256_S256 (.inl rfl) rfl)
        shapeCasts_S256_S1x256)) shapeCasts_S1x256_S1x256 (ix2 0 f) : EReal)
      = (a (ix2 0 f) : EReal) + ∑ r : Fin 2048, (y (ix2 r f) : EReal) := by
  refine (congrFun (shapeCast_self _ _) _).trans ?_
  refine congrArg (fun q : EReal => (a (ix2 0 f) : EReal) + q) ?_
  refine (shapeCast_a_1a_apply _ _ 0 f).trans ?_
  refine (Ideal.multiReduction_add_single y 0x00000000#32 reduces_S2048x256_S256 _ _ (ix1 f)).trans ?_
  refine Finset.sum_congr rfl fun r _ => congrArg _ ?_
  funext ax; fin_cases ax <;> rfl

end Cert.KernelIdeal.R2

end
-- ==== Proof.KI.R2Value.lean ====
import proofs.«418526_j20469814133046_3_alg».proof.Proof.KI.R2
import proofs.«418526_j20469814133046_3_alg».proof.Proof.KI.R2Pay
import proofs.«418526_j20469814133046_3_alg».proof.Proof.KI.Nlin

noncomputable section

namespace Cert.KernelIdeal.R2

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)
open Cert.Spec (nlinV)
open scoped BigOperators

theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = t.val / 128 ∧ win2_6.index t (1 : Fin 3) = 0 ∧ win2_6.index t (2 : Fin 3) = 0
    ∧ win2_7.index t (0 : Fin 3) = t.val / 128 ∧ win2_7.index t (1 : Fin 3) = 0 ∧ win2_7.index t (2 : Fin 3) = 0 :=
  (by decide +kernel : ∀ t : Fin grid2.N, _)

theorem tlt (t : Fin cfg2.N) : t.val < 256 := lt_of_lt_of_eq t.isLt (show cfg2.N = 256 from N_2)

variable (V : Valuation τ sig (Elt Ideal))

abbrev arrAF : FVec Ideal S256x128x64 .f32 := V main_arg0
abbrev arrBF : FVec Ideal S256x256x32 .f32 := V main_arg1
abbrev arrIX : IVec S256x2048x2 32 := V main_v25
abbrev arrWA : FVec Ideal S64x256 .bf16 := V main_v28
abbrev arrWB : FVec Ideal S32x256 .bf16 := V main_v31
abbrev arrB : FVec Ideal S1x256 .f32 := V main_v32

theorem b0_apply (t : Fin cfg2.N) (a : Fin 128) (k : Fin 64) :
    (b0 V t (ix3 0 a k) : EReal) = arrAF V (ix3 ⟨t.val, tlt t⟩ a k) := by
  show V main_arg0 (((cfg2.win 0).blk t).view.emb (ix3 0 a k)) = V main_arg0 (ix3 ⟨t.val, tlt t⟩ a k)
  refine congrArg _ ?_
  obtain ⟨e0, e1, e2, -⟩ := idx_facts t
  funext ax; apply Fin.ext
  match ax with
  | ⟨0, _⟩ => show win2_0.index t (0 : Fin 3) * 1 + 1 * 0 = t.val; omega
  | ⟨1, _⟩ => show win2_0.index t (1 : Fin 3) * 128 + 1 * a.val = a.val; omega
  | ⟨2, _⟩ => show win2_0.index t (2 : Fin 3) * 64 + 1 * k.val = k.val; omega

theorem b1_apply (t : Fin cfg2.N) (b : Fin 256) (k : Fin 32) :
    (b1 V t (ix3 0 b k) : EReal) = arrBF V (ix3 ⟨t.val, tlt t⟩ b k) := by
  show V main_arg1 (((cfg2.win 1).blk t).view.emb (ix3 0 b k)) = V main_arg1 (ix3 ⟨t.val, tlt t⟩ b k)
  refine congrArg _ ?_
  obtain ⟨-, -, -, e0, e1, e2, -⟩ := idx_facts t
  funext ax; apply Fin.ext
  match ax with
  | ⟨0, _⟩ => show win2_1.index t (0 : Fin 3) * 1 + 1 * 0 = t.val; omega
  | ⟨1, _⟩ => show win2_1.index t (1 : Fin 3) * 256 + 1 * b.val = b.val; omega
  | ⟨2, _⟩ => show win2_1.index t (2 : Fin 3) * 32 + 1 * k.val = k.val; omega

theorem b2_apply (t : Fin cfg2.N) (r : Fin 2048) (q : Fin 2) :
    b2 V t (ix3 0 r q) = arrIX V (ix3 ⟨t.val, tlt t⟩ r q) := by
  show V main_v25 (((cfg2.win 2).blk t).view.emb (ix3 0 r q)) = V main_v25 (ix3 ⟨t.val, tlt t⟩ r q)
  refine congrArg _ ?_
  obtain ⟨-, -, -, -, -, -, e0, e1, e2, -⟩ := idx_facts t
  funext ax; apply Fin.ext
  match ax with
  | ⟨0, _⟩ => show win2_2.index t (0 : Fin 3) * 1 + 1 * 0 = t.val; omega
  | ⟨1, _⟩ => show win2_2.index t (1 : Fin 3) * 2048 + 1 * r.val = r.val; omega
  | ⟨2, _⟩ => show win2_2.index t (2 : Fin 3) * 2 + 1 * q.val = q.val; omega

theorem b3_apply (t : Fin cfg2.N) (k : Fin 64) (f : Fin 256) :
    (b3 V t (ix2 k f) : EReal) = arrWA V (ix2 k f) := by
  show V main_v28 (((cfg2.win 3).blk t).view.emb (ix2 k f)) = V main_v28 (ix2 k f)
  refine congrArg _ ?_
  obtain ⟨-, -, -, -, -, -, -, -, -, e0, e1, -⟩ := idx_facts t
  funext ax; apply Fin.ext
  match ax with
  | ⟨0, _⟩ => show win2_3.index t (0 : Fin 2) * 64 + 1 * k.val = k.val; omega
  | ⟨1, _⟩ => show win2_3.index t (1 : Fin 2) * 256 + 1 * f.val = f.val; omega

theorem b4_apply (t : Fin cfg2.N) (k : Fin 32) (f : Fin 256) :
    (b4 V t (ix2 k f) : EReal) = arrWB V (ix2 k f) := by
  show V main_v31 (((cfg2.win 4).blk t).view.emb (ix2 k f)) = V main_v31 (ix2 k f)
  refine congrArg _ ?_
  obtain ⟨-, -, -, -, -, -, -, -, -, -, -, e0, e1, -⟩ := idx_facts t
  funext ax; apply Fin.ext
  match ax with
  | ⟨0, _⟩ => show win2_4.index t (0 : Fin 2) * 32 + 1 * k.val = k.val; omega
  | ⟨1, _⟩ => show win2_4.index t (1 : Fin 2) * 256 + 1 * f.val = f.val; omega

theorem b5_apply (t : Fin cfg2.N) (f : Fin 256) :
    (b5 V t (ix2 0 f) : EReal) = arrB V (ix2 0 f) := by
  show V main_v32 (((cfg2.win 5).blk t).view.emb (ix2 0 f)) = V main_v32 (ix2 0 f)
  refine congrArg _ ?_
  obtain ⟨-, -, -, -, -, -, -, -, -, -, -, -, -, e0, e1, -⟩ := idx_facts t
  funext ax; apply Fin.ext
  match ax with
  | ⟨0, _⟩ => show win2_5.index t (0 : Fin 2) * 1 + 1 * 0 = 0; omega
  | ⟨1, _⟩ => show win2_5.index t (1 : Fin 2) * 256 + 1 * f.val = f.val; omega

abbrev rows (t : Fin cfg2.N) : FVec Ideal S2048x256 .f32 :=
  k2_pay1 (F := Ideal) (k2_pay8 (F := Ideal) (b0 V t) (b3 V t) (b5 V t)) (k2_pay9 (F := Ideal) (b1 V t) (b4 V t))
    (k2_pay11 (F := Ideal) (b2 V t)) (k2_pay12 (F := Ideal) (b2 V t)) (constant (F := Ideal) S2048x256 .f32 0x00000000#32)

def img (p : EReal → EReal) (m : ℕ) (f : Fin 256) : EReal :=
  if h : m < 256 then ∑ r : Fin 2048, p (nlinV V ⟨m, h⟩ r f) else 0

def half (p : EReal → EReal) (h : Fin 2) (f : Fin 256) : EReal :=
  ∑ n : Fin 128, ∑ r : Fin 2048, p (nlinV V ⟨h.val * 128 + n.val, by omega⟩ r f)

def G (p : EReal → EReal) : S2x1x256.Idx → Elt Ideal .f32 := fun i => half V p (i 0) (i 2)

theorem range_half (p : EReal → EReal) (h : Fin 2) (f : Fin 256) :
    ∑ j ∈ Finset.range 128, img V p (h.val * 128 + j) f = half V p h f := by
  rw [Finset.sum_range]
  unfold half
  refine Finset.sum_congr rfl fun n _ => ?_
  unfold img; rw [dif_pos (by omega)]

theorem acc_zero (h0 : 0 < cfg2.N) : acc V 0 h0 = step V ⟨0, h0⟩ zeroAcc := rfl
theorem acc_succ_reset (n : ℕ) (hn : n + 1 < cfg2.N) (h : (n + 1) % 128 = 0) :
    acc V (n + 1) hn = step V ⟨n + 1, hn⟩ zeroAcc := if_pos h
theorem acc_succ_carry (n : ℕ) (hn : n + 1 < cfg2.N) (h : ¬(n + 1) % 128 = 0) :
    acc V (n + 1) hn = step V ⟨n + 1, hn⟩ (acc V n (Nat.lt_of_succ_lt hn)) := if_neg h

-- A reading of the accumulator pair that each point raises by g and that is 0 at the reset holds, after point n, the sum of g over n's half of the grid up to n.
theorem acc_sum (π : Vec Ideal S1x256 .f32 × Vec Ideal S1x256 .f32 → EReal) (g : ℕ → EReal)
    (hs : ∀ t a, π (step V t a) = π a + g t.val) (hz : π zeroAcc = 0) :
    ∀ (n : ℕ) (hn : n < cfg2.N), π (acc V n hn) = ∑ j ∈ Finset.range (n % 128 + 1), g (n / 128 * 128 + j) := by
  intro n
  induction n with
  | zero =>
    intro hn
    rw [acc_zero, hs, hz, zero_add]
    simp
  | succ n ih =>
    intro hn
    by_cases h : (n + 1) % 128 = 0
    · rw [acc_succ_reset V n hn h, hs, hz, zero_add, h]
      have e : (n + 1) / 128 * 128 = n + 1 := by omega
      simp [e]
    · rw [acc_succ_carry V n hn h, hs, ih (Nat.lt_of_succ_lt hn)]
      have e1 : (n + 1) % 128 = n % 128 + 1 := by omega
      have e2 : (n + 1) / 128 = n / 128 := by omega
      rw [e1, e2, Finset.sum_range_succ _ (n % 128 + 1)]
      have e3 : n / 128 * 128 + (n % 128 + 1) = n + 1 := by omega
      rw [e3]

theorem zero_apply (f : Fin 256) :
    ((zeroAcc (F := Ideal)).1 (ix2 0 f) : EReal) = 0 ∧ ((zeroAcc (F := Ideal)).2 (ix2 0 f) : EReal) = 0 := by
  constructor
  · show (k2_pay6 (F := Ideal) (ix2 0 f) : EReal) = 0
    unfold k2_pay6
    exact (congrFun (shapeCast_self _ _) _).trans Ideal.ofBits_zero_f32
  · show (k2_pay7 (F := Ideal) (ix2 0 f) : EReal) = 0
    unfold k2_pay7
    exact (congrFun (shapeCast_self _ _) _).trans Ideal.ofBits_zero_f32

theorem emb6 (t : Fin cfg2.N) (f : Fin 256) :
    ((cfg2.win 6).blk t).view.emb (ix3 0 0 f) = ix3 (⟨t.val / 128, by have := tlt t; omega⟩ : Fin 2) 0 f := by
  obtain ⟨-, -, -, -, -, -, -, -, -, -, -, -, -, -, -, e0, e1, e2, -⟩ := idx_facts t
  funext ax; apply Fin.ext
  match ax with
  | ⟨0, _⟩ => show win2_6.index t (0 : Fin 3) * 1 + 1 * 0 = t.val / 128; omega
  | ⟨1, _⟩ => show win2_6.index t (1 : Fin 3) * 1 + 1 * 0 = 0; omega
  | ⟨2, _⟩ => show win2_6.index t (2 : Fin 3) * 256 + 1 * f.val = f.val; omega
theorem emb7 (t : Fin cfg2.N) (f : Fin 256) :
    ((cfg2.win 7).blk t).view.emb (ix3 0 0 f) = ix3 (⟨t.val / 128, by have := tlt t; omega⟩ : Fin 2) 0 f := by
  obtain ⟨-, -, -, -, -, -, -, -, -, -, -, -, -, -, -, -, -, -, e0, e1, e2⟩ := idx_facts t
  funext ax; apply Fin.ext
  match ax with
  | ⟨0, _⟩ => show win2_7.index t (0 : Fin 3) * 1 + 1 * 0 = t.val / 128; omega
  | ⟨1, _⟩ => show win2_7.index t (1 : Fin 3) * 1 + 1 * 0 = 0; omega
  | ⟨2, _⟩ => show win2_7.index t (2 : Fin 3) * 256 + 1 * f.val = f.val; omega

def lastOf (h : Fin 2) : Fin cfg2.N := ⟨h.val * 128 + 127, by rw [show cfg2.N = 256 from N_2]; omega⟩

-- Entry (h, 0, f) is the image of (0, 0, f) under the embedding of the block of the last point of half h.
theorem mem6 (h : Fin 2) (f : Fin 256) : (ix3 h 0 f : S2x1x256.Idx) ∈ ((cfg2.win 6).blk (lastOf h)).view.set := by
  rw [← show ((cfg2.win 6).blk (lastOf h)).view.emb (ix3 0 0 f) = ix3 h 0 f from
    (emb6 _ f).trans (congrArg (fun a : Fin 2 => (ix3 a 0 f : S2x1x256.Idx)) (Fin.ext (show (h.val * 128 + 127) / 128 = h.val by omega)))]
  exact View.emb_mem_set _ _
theorem mem7 (h : Fin 2) (f : Fin 256) : (ix3 h 0 f : S2x1x256.Idx) ∈ ((cfg2.win 7).blk (lastOf h)).view.set := by
  rw [← show ((cfg2.win 7).blk (lastOf h)).view.emb (ix3 0 0 f) = ix3 h 0 f from
    (emb7 _ f).trans (congrArg (fun a : Fin 2 => (ix3 a 0 f : S2x1x256.Idx)) (Fin.ext (show (h.val * 128 + 127) / 128 = h.val by omega)))]
  exact View.emb_mem_set _ _

variable (hra : ∀ n r, ((V main_v25 : IVec S256x2048x2 32) (ix3 n r 0)).toNat < 128)
  (hrb : ∀ n r, ((V main_v25 : IVec S256x2048x2 32) (ix3 n r 1)).toNat < 256)
include hra hrb

theorem blockrow (t : Fin cfg2.N) (r : Fin 2048) (f : Fin 256) :
    (rows V t (ix2 r f) : EReal) = nlinV V ⟨t.val, tlt t⟩ r f :=
  Cert.Spec.row_nlin (arrAF V) (arrBF V) (arrIX V) (arrWA V) (arrWB V) (arrB V) (b0 V t) (b1 V t) (b2 V t) (b3 V t) (b4 V t) (b5 V t)
    ⟨t.val, tlt t⟩ r f (b0_apply V t) (b1_apply V t) (b2_apply V t r) (fun k => b3_apply V t k f)
    (fun k => b4_apply V t k f) (b5_apply V t f) (hra _ r) (hrb _ r)

theorem stepS_apply (f : Fin 256) (t : Fin cfg2.N) (a : Vec Ideal S1x256 .f32 × Vec Ideal S1x256 .f32) :
    ((step V t a).1 (ix2 0 f) : EReal) = (a.1 (ix2 0 f) : EReal) + img V (fun y => y) t.val f := by
  refine (colsum_apply (rows V t) a.1 f).trans (congrArg (fun q : EReal => (a.1 (ix2 0 f) : EReal) + q) ?_)
  unfold img; rw [dif_pos (tlt t)]
  exact Finset.sum_congr rfl fun r _ => blockrow V hra hrb t r f

theorem stepQ_apply (f : Fin 256) (t : Fin cfg2.N) (a : Vec Ideal S1x256 .f32 × Vec Ideal S1x256 .f32) :
    ((step V t a).2 (ix2 0 f) : EReal) = (a.2 (ix2 0 f) : EReal) + img V (fun y => y * y) t.val f := by
  refine (colsum_apply (mulf (rows V t) (rows V t)) a.2 f).trans (congrArg (fun q : EReal => (a.2 (ix2 0 f) : EReal) + q) ?_)
  unfold img; rw [dif_pos (tlt t)]
  exact Finset.sum_congr rfl fun r _ => congrArg₂ (fun (p q : EReal) => p * q) (blockrow V hra hrb t r f) (blockrow V hra hrb t r f)

theorem flushed6_eq (c : Dev nD) (t : Fin cfg2.N) (hf : (cfg2.win 6).flush t = true) :
    (dat V c).flushed 6 t = ((cfg2.win 6).blk t).view.read (Elt Ideal) (G V fun y => y) := by
  have ht : t.val % 128 = 127 := (flush2_6 t).mp hf
  show (cfg2.win 6).cut (grid2.coords t) ((dat V c).after 6 t) = _
  rw [after6]
  funext j
  obtain ⟨u, v, f, rfl⟩ : ∃ (u : Fin 1) (v : Fin 1) (f : Fin 256), j = ix3 u v f := ⟨j 0, j 1, j 2, eq_ix3 j⟩
  obtain rfl : u = 0 := Subsingleton.elim _ _
  obtain rfl : v = 0 := Subsingleton.elim _ _
  show (k2_pay4 (F := Ideal) (acc V t.val t.isLt).1 (ix3 0 0 f) : EReal) = G V (fun y => y) (((cfg2.win 6).blk t).view.emb (ix3 0 0 f))
  rw [emb6 t f]
  refine (shapeCast_ab_1ab_apply (acc V t.val t.isLt).1 _ 0 0 f).trans ?_
  refine (acc_sum V (fun a => (a.1 (ix2 0 f) : EReal)) (fun m => img V (fun y => y) m f) (stepS_apply V hra hrb f) (zero_apply f).1 t.val t.isLt).trans ?_
  rw [ht]
  exact range_half V (fun y => y) ⟨t.val / 128, by have := tlt t; omega⟩ f

theorem flushed7_eq (c : Dev nD) (t : Fin cfg2.N) (hf : (cfg2.win 7).flush t = true) :
    (dat V c).flushed 7 t = ((cfg2.win 7).blk t).view.read (Elt Ideal) (G V fun y => y * y) := by
  have ht : t.val % 128 = 127 := (flush2_7 t).mp hf
  show (cfg2.win 7).cut (grid2.coords t) ((dat V c).after 7 t) = _
  rw [after7]
  funext j
  obtain ⟨u, v, f, rfl⟩ : ∃ (u : Fin 1) (v : Fin 1) (f : Fin 256), j = ix3 u v f := ⟨j 0, j 1, j 2, eq_ix3 j⟩
  obtain rfl : u = 0 := Subsingleton.elim _ _
  obtain rfl : v = 0 := Subsingleton.elim _ _
  show (k2_pay5 (F := Ideal) (acc V t.val t.isLt).2 (ix3 0 0 f) : EReal) = G V (fun y => y * y) (((cfg2.win 7).blk t).view.emb (ix3 0 0 f))
  rw [emb7 t f]
  refine (shapeCast_ab_1ab_apply (acc V t.val t.isLt).2 _ 0 0 f).trans ?_
  refine (acc_sum V (fun a => (a.2 (ix2 0 f) : EReal)) (fun m => img V (fun y => y * y) m f) (stepQ_apply V hra hrb f) (zero_apply f).2 t.val t.isLt).trans ?_
  rw [ht]
  exact range_half V (fun y => y * y) ⟨t.val / 128, by have := tlt t; omega⟩ f

theorem sum_apply (c : Dev nD) (h : Fin 2) (f : Fin 256) :
    (dat V c).arrAt 6 cfg2.N (ix3 h 0 f) = ∑ n : Fin 128, ∑ r : Fin 2048, nlinV V ⟨h.val * 128 + n.val, by omega⟩ r f :=
  (dat V c).arrAt_apply_of_mem 6 (G V fun y => y) (flushed6_eq V hra hrb c) cfg2.N (lastOf h) (ix3 h 0 f) (lastOf h).isLt
    ((flush2_6 _).mpr (show (h.val * 128 + 127) % 128 = 127 by omega)) (mem6 h f)

theorem sq_apply (c : Dev nD) (h : Fin 2) (f : Fin 256) :
    (dat V c).arrAt 7 cfg2.N (ix3 h 0 f) = ∑ n : Fin 128, ∑ r : Fin 2048,
      nlinV V ⟨h.val * 128 + n.val, by omega⟩ r f * nlinV V ⟨h.val * 128 + n.val, by omega⟩ r f :=
  (dat V c).arrAt_apply_of_mem 7 (G V fun y => y * y) (flushed7_eq V hra hrb c) cfg2.N (lastOf h) (ix3 h 0 f) (lastOf h).isLt
    ((flush2_7 _).mpr (show (h.val * 128 + 127) % 128 = 127 by omega)) (mem7 h f)

end Cert.KernelIdeal.R2

end
-- ==== Proof.KI.ValNei.lean ====
import proofs.«418526_j20469814133046_3_alg».proof.Proof.KI.Program
import proofs.«418526_j20469814133046_3_alg».proof.Proof.KI.R3Value
import proofs.«418526_j20469814133046_3_alg».proof.Proof.Math.BnEq
import proofs.«418526_j20469814133046_3_alg».proof.Proof.KI.HostN
import proofs.«418526_j20469814133046_3_alg».proof.Proof.KI.R2Value
import proofs.«418526_j20469814133046_3_alg».proof.Proof.LibColPool

noncomputable section

open scoped BigOperators

namespace Cert.KernelIdeal.Prog

open Idealize.ShloMosaic Idealize.ShloMosaic.TcCoe Idealize.ShloMosaic.ValueIdx
open Cert.KernelIdeal Cert.KernelIdeal.Gen Cert.KernelIdeal.GenP
open Cert.Spec (nlinV)

variable (m : (ℓ : Loc nD τ sig) → Buf (Elt Ideal) ℓ) (c : Dev nD)

abbrev B0 : FVec Ideal S256x128x64 .f32 := m ((c : Thread nD τ).loc main_arg0)
abbrev B1 : FVec Ideal S256x256x32 .f32 := m ((c : Thread nD τ).loc main_arg1)
abbrev B2 : IVec S256x128x16 32 := m ((c : Thread nD τ).loc main_arg2)
abbrev B3 : IVec S256x128x16 32 := m ((c : Thread nD τ).loc main_arg3)
abbrev B8 : FVec Ideal S256x96 .f32 := m ((c : Thread nD τ).loc main_arg8)
abbrev B9 : FVec Ideal S256 .f32 := m ((c : Thread nD τ).loc main_arg9)
abbrev B10 : FVec Ideal S256 .f32 := m ((c : Thread nD τ).loc main_arg10)
abbrev B11 : FVec Ideal S256 .f32 := m ((c : Thread nD τ).loc main_arg11)

def yN (n : Fin 256) (r : Fin 2048) (f : Fin 256) : EReal :=
  ((∑ k : Fin 64, B0 m c (ix3 n (⟨(B2 m c (ix3 n (⟨r.val / 16, by omega⟩ : Fin 128) (⟨r.val % 16, Nat.mod_lt _ (by decide)⟩ : Fin 16))).toNat % 128, Nat.mod_lt _ (by decide)⟩ : Fin 128) k) * B8 m c (ix2 f (⟨k.val, by omega⟩ : Fin 96)))
    + ∑ k : Fin 32, B1 m c (ix3 n (⟨(B3 m c (ix3 n (⟨r.val / 16, by omega⟩ : Fin 128) (⟨r.val % 16, Nat.mod_lt _ (by decide)⟩ : Fin 16))).toNat % 256, Nat.mod_lt _ (by decide)⟩ : Fin 256) k) * B8 m c (ix2 f (⟨64 + k.val, by omega⟩ : Fin 96)))
    + B9 m c (ix1 f)

-- An array that the first two host stretches and the first two regions leave alone still holds, after region 1, its launch contents.
theorem W4_arg (b : Ref sig .tc) (h0 : b ∉ hostOps0_W) (h1 : b ∉ hostOps1_W) (a0 : ∀ w, Pipeline.arrRef spec0 w ≠ b)
    (a1 : ∀ w, Pipeline.arrRef spec1 w ≠ b) : W4 m c b = m ((c : Thread nD τ).loc b) :=
  (W4_of_ne m c b a1).trans <| (keep1 m c b h1).trans <| (W2_of_ne m c b a0).trans <| (keep0 m c b h0).trans rfl

-- An input array of region 2 that the fourth host stretch does not write enters region 3 as it entered region 2.
theorem W7_W5 (b : Ref sig .tc) (w : Fin cfg2.W) (hw : Pipeline.arrRef spec2 w = b) (hin : (cfg2.win w).isOut = false)
    (h : b ∉ hostOps3_W) : W7 m c b = W5 m c b := by
  subst hw; exact (keep3 m c _ h).trans (W6_in m c w hin)

theorem toNat_lt_of_toInt (b : BitVec 32) (N : Nat) (hN : N ≤ 2 ^ 31) (h0 : 0 ≤ b.toInt) (h1 : b.toInt < (N : Int)) : b.toNat < N := by
  rw [BitVec.toInt_eq_toNat_cond] at h0 h1
  have hb := b.isLt
  split at h0 <;> omega

theorem sum_two_halves (g : Fin 256 → EReal) :
    Ideal.ofBits .f32 0x00000000#32
        + ((∑ n : Fin 128, g ⟨(0 : Fin 2).val * 128 + n.val, by have := n.isLt; simp; omega⟩) + ∑ n : Fin 128, g ⟨(1 : Fin 2).val * 128 + n.val, by have := n.isLt; simp; omega⟩)
      = ∑ n' : Fin 256, g n' := by
  rw [Cert.Spec.ofBits_zero, zero_add]
  have e := Cert.LibColPool.sum_blocks 2 128 (fun i : Fin (2 * 128) => g ⟨i.val, i.isLt⟩)
  rw [Fin.sum_univ_two] at e
  exact e.symm

theorem nei_apply (h2 : ∀ i, 0 ≤ (B2 m c i).toInt ∧ (B2 m c i).toInt < 128) (h3 : ∀ i, 0 ≤ (B3 m c i).toInt ∧ (B3 m c i).toInt < 256)
    (n : Fin 256) (a : Fin 128) (d : Fin 16) (f : Fin 256) :
    (W9 m c main_v51 : FVec Ideal S256x128x16x256 .f32) (ix4 n a d f)
      = Cert.Spec.bnKer (∑ n' : Fin 256, ∑ r : Fin 2048, yN m c n' r f) (∑ n' : Fin 256, ∑ r : Fin 2048, yN m c n' r f * yN m c n' r f)
          (Ideal.ofBits .f32 0x49000000#32) (Ideal.ofBits .f32 0x358637BD#32) (B10 m c (ix1 f)) (B11 m c (ix1 f)) (yN m c n ⟨a.val * 16 + d.val, by omega⟩ f) := by
  have i5a : ∀ (n : Fin 256) (r : Fin 2048), R3.a2 (W5 m c) (ix3 n r 0) = B2 m c (ix3 n (⟨r.val / 16, by omega⟩ : Fin 128) (⟨r.val % 16, Nat.mod_lt _ (by decide)⟩ : Fin 16)) :=
    fun n r => (HostVal.v25_apply0 (W4 m c) n r).trans (congrFun (W4_arg m c main_arg2 (by decide) (by decide) (by decide) (by decide)) _)
  have i5b : ∀ (n : Fin 256) (r : Fin 2048), R3.a2 (W5 m c) (ix3 n r 1) = B3 m c (ix3 n (⟨r.val / 16, by omega⟩ : Fin 128) (⟨r.val % 16, Nat.mod_lt _ (by decide)⟩ : Fin 16)) :=
    fun n r => (HostVal.v25_apply1 (W4 m c) n r).trans (congrFun (W4_arg m c main_arg3 (by decide) (by decide) (by decide) (by decide)) _)
  have w5a : ∀ (k : Fin 64) (f : Fin 256), R3.a3 (W5 m c) (ix2 k f) = B8 m c (ix2 f (⟨k.val, by omega⟩ : Fin 96)) :=
    fun k f => (HostVal.v28_apply (W4 m c) k f).trans (congrFun (W4_arg m c main_arg8 (by decide) (by decide) (by decide) (by decide)) _)
  have w5b : ∀ (k : Fin 32) (f : Fin 256), R3.a4 (W5 m c) (ix2 k f) = B8 m c (ix2 f (⟨64 + k.val, by omega⟩ : Fin 96)) :=
    fun k f => (HostVal.v31_apply (W4 m c) k f).trans (congrFun (W4_arg m c main_arg8 (by decide) (by decide) (by decide) (by decide)) _)
  have b5 : ∀ f : Fin 256, R3.a5 (W5 m c) (ix2 0 f) = B9 m c (ix1 f) :=
    fun f => (HostVal.v32_apply (W4 m c) f).trans (congrFun (W4_arg m c main_arg9 (by decide) (by decide) (by decide) (by decide)) _)
  have ra5 : ∀ n r, (R3.a2 (W5 m c) (ix3 n r 0)).toNat < 128 := fun n r => by
    rw [i5a n r]; exact toNat_lt_of_toInt _ 128 (by decide) (h2 _).1 (h2 _).2
  have rb5 : ∀ n r, (R3.a2 (W5 m c) (ix3 n r 1)).toNat < 256 := fun n r => by
    rw [i5b n r]; exact toNat_lt_of_toInt _ 256 (by decide) (h3 _).1 (h3 _).2
  have e0 : R3.a0 (W5 m c) = B0 m c := (keep2 m c main_arg0 (by decide)).trans (W4_arg m c main_arg0 (by decide) (by decide) (by decide) (by decide))
  have e1 : R3.a1 (W5 m c) = B1 m c := (keep2 m c main_arg1 (by decide)).trans (W4_arg m c main_arg1 (by decide) (by decide) (by decide) (by decide))
  have y5 : ∀ (n : Fin 256) (r : Fin 2048) (f : Fin 256), nlinV (W5 m c) n r f = yN m c n r f := fun n r f => by
    show Cert.Spec.nlin (R3.a0 (W5 m c)) (R3.a1 (W5 m c)) (R3.a2 (W5 m c)) (R3.a3 (W5 m c)) (R3.a4 (W5 m c)) (R3.a5 (W5 m c)) n r f = _
    rw [e0, e1]
    unfold Cert.Spec.nlin yN
    simp only [i5a n r, i5b n r, b5 f, w5a, w5b]
    exact add_right_comm _ _ _
  have k2 : R3.a2 (W7 m c) = R3.a2 (W5 m c) := W7_W5 m c main_v25 2 rfl rfl (by decide)
  have e7 : nlinV (W7 m c) = nlinV (W5 m c) :=
    (congr (congr (congr (congr (congr (congrArg Cert.Spec.nlin (W7_W5 m c main_arg0 0 rfl rfl (by decide)))
      (W7_W5 m c main_arg1 1 rfl rfl (by decide))) k2) (W7_W5 m c main_v28 3 rfl rfl (by decide)))
      (W7_W5 m c main_v31 4 rfl rfl (by decide))) (W7_W5 m c main_v32 5 rfl rfl (by decide)) :
      Cert.Spec.nlin _ _ _ _ _ _ = Cert.Spec.nlin _ _ _ _ _ _)
  have s6 : HostVal.mom2 (HostVal.arrS (W6 m c)) f = ∑ n' : Fin 256, ∑ r : Fin 2048, yN m c n' r f := by
    have ea : HostVal.arrS (W6 m c) = (R2.dat (W5 m c) c).arrAt 6 cfg2.N := W6_arr m c 6
    show Ideal.ofBits .f32 0x00000000#32 + (HostVal.arrS (W6 m c) (ix3 0 0 f) + HostVal.arrS (W6 m c) (ix3 1 0 f)) = _
    rw [ea, R2.sum_apply (W5 m c) ra5 rb5 c 0 f, R2.sum_apply (W5 m c) ra5 rb5 c 1 f]
    simp only [y5]
    exact sum_two_halves (fun n' => ∑ r : Fin 2048, yN m c n' r f)
  have q6 : HostVal.mom2 (HostVal.arrQ (W6 m c)) f = ∑ n' : Fin 256, ∑ r : Fin 2048, yN m c n' r f * yN m c n' r f := by
    have ea : HostVal.arrQ (W6 m c) = (R2.dat (W5 m c) c).arrAt 7 cfg2.N := W6_arr m c 7
    show Ideal.ofBits .f32 0x00000000#32 + (HostVal.arrQ (W6 m c) (ix3 0 0 f) + HostVal.arrQ (W6 m c) (ix3 1 0 f)) = _
    rw [ea, R2.sq_apply (W5 m c) ra5 rb5 c 0 f, R2.sq_apply (W5 m c) ra5 rb5 c 1 f]
    simp only [y5]
    exact sum_two_halves (fun n' => ∑ r : Fin 2048, yN m c n' r f * yN m c n' r f)
  have g6 : HostVal.arrG (W6 m c) (ix1 f) = B10 m c (ix1 f) :=
    congrFun ((W6_of_ne m c main_arg10 (by decide)).trans <| (keep2 m c main_arg10 (by decide)).trans (W4_arg m c main_arg10 (by decide) (by decide) (by decide) (by decide))) _
  have t6 : HostVal.arrB (W6 m c) (ix1 f) = B11 m c (ix1 f) :=
    congrFun ((W6_of_ne m c main_arg11 (by decide)).trans <| (keep2 m c main_arg11 (by decide)).trans (W4_arg m c main_arg11 (by decide) (by decide) (by decide) (by decide))) _
  have k46 : R3.a6 (W7 m c) (ix2 0 f) = _ := HostVal.v46_apply (W6 m c) f
  have k49 : R3.a7 (W7 m c) (ix2 0 f) = _ := HostVal.v49_apply (W6 m c) f
  refine (HostVal.v51_apply (W8 m c) n a d f).trans ?_
  refine (congrFun (W8_arr m c 8 : HostVal.arrOut (W8 m c) = (R3.dat (W7 m c) c).arrAt 8 cfg3.N) _).trans ?_
  refine (R3.out_apply (W7 m c) c n ⟨a.val * 16 + d.val, by omega⟩ f (by rw [k2]; exact ra5 _ _) (by rw [k2]; exact rb5 _ _)).trans ?_
  rw [e7, y5, k46, k49, s6, q6, g6, t6]
  rfl

end Cert.KernelIdeal.Prog

end
-- ==== Proof.LibLayout2.lean ====
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

-- a row [1, N] broadcast over M rows, and a vector [N] laid as that row, read at an entry
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

end Cert.LibLayout2

end
-- ==== Proof.Ref.ReadCommon.lean ====
import proofs.«418526_j20469814133046_3_alg».proof.Proof.Ref.Terms
import proofs.«418526_j20469814133046_3_alg».proof.Proof.Math.BnEq
import proofs.«418526_j20469814133046_3_alg».proof.Proof.LibLayout2
import Idealize.ShloMosaic.Lib.IdealHost

noncomputable section

namespace Cert.ReferenceIdeal.RefRead

open Idealize.ShloMosaic Idealize.ShloMosaic.ValueIdx Cert.ReferenceIdeal
open scoped BigOperators

-- The zero word converts to the real 0.
theorem sub_sitofp_zero (x : EReal) : x - FloatOps.sitofp (F := Ideal) .f32 (0#32 : BitVec 32) = x := by
  show x - (((0#32 : BitVec 32).toInt : ℝ) : EReal) = x
  simp

-- A literal denoting a positive real compares above zero.
theorem ogt_zero_of_pos {w : BitVec 32} {c : ℝ} (hw : Ideal.ofBits .f32 w = (c : EReal)) (hc : 0 < c) :
    FloatOps.cmpf (F := Ideal) (φ := .f32) .ogt (Ideal.ofBits .f32 w) (Ideal.ofBits .f32 0x00000000#32) = 1#1 := by
  show Ideal.cmp .ogt _ _ = _
  rw [hw, Cert.Spec.ofBits_zero]
  have h : (0 : EReal) < (c : EReal) := by exact_mod_cast hc
  simp [Ideal.cmp, h]

section Stats
variable [Cert.ReferenceIdeal.Facts] {N : Nat} (x : FVec Ideal ⟨2, ![N, 256]⟩ .f32) (f : Fin 256) (w : BitVec 32)
  {hr : (⟨2, ![N, 256]⟩ : Shape).ReducesTo [0] S256} (hR : (⟨2, ![N, 256]⟩ : Shape).Reduces [0] S256) {hu : 0 < S_.numel}
  {hb : S_.BroadcastsInDim S256 ![]}
include hR

-- The column sums of an array of N rows: zero plus the sum over the rows.
theorem colSum_apply :
    Host.reduceAdd (F := Ideal) x (constant S_ .f32 0x00000000#32) hr hu (ix1 f) = (0 : EReal) + ∑ r : Fin N, x (ix2 r f) := by
  rw [hostReduceAdd_apply, Ideal.hostReduceAdd_single _ hR, constant_apply, Cert.Spec.ofBits_zero]
  exact congrArg ((0 : EReal) + ·) (Finset.sum_congr rfl fun k _ => congrArg x (funext fun c => Fin.ext (match c with
    | ⟨0, _⟩ => rfl
    | ⟨1, _⟩ => rfl)))

theorem mean_apply :
    Host.divf (Host.reduceAdd (F := Ideal) x (constant S_ .f32 0x00000000#32) hr hu)
        (broadcastInDim S256 ![] hb (constant S_ .f32 w)) (ix1 f)
      = Cert.Spec.mean (fun r => x (ix2 r f)) (Ideal.ofBits .f32 w) :=
  congrArg (Ideal.div · (Ideal.ofBits .f32 w)) (colSum_apply x f hR)

-- A row less the column mean, the mean taken on one row and spread over the rows.
theorem centred_apply {h1 : S1x256.BroadcastsInDim ⟨2, ![N, 256]⟩ ![0, 1]} {h2 : S256.BroadcastsInDim S1x256 ![1]}
    {h3 : S_.BroadcastsInDim S1x256 ![]} (r : Fin N) :
    subf x (broadcastInDim ⟨2, ![N, 256]⟩ ![0, 1] h1
        (Host.divf (broadcastInDim S1x256 ![1] h2 (Host.reduceAdd (F := Ideal) x (constant S_ .f32 0x00000000#32) hr hu))
          (broadcastInDim S1x256 ![] h3 (constant S_ .f32 w)))) (ix2 r f)
      = x (ix2 r f) - Cert.Spec.mean (fun r => x (ix2 r f)) (Ideal.ofBits .f32 w) := by
  rw [subf_apply, Cert.LibLayout2.bcast_row_apply, hostDivf_apply, Cert.LibLayout2.bcast_vec_row_apply, colSum_apply x f hR]
  rfl

-- The guarded variance of centred rows c over a divisor d that reads a positive literal: the guard holds.
theorem var_apply (c : FVec Ideal ⟨2, ![N, 256]⟩ .f32) (d : FVec Ideal S_ .f32)
    (hc : ∀ r, c (ix2 r f) = x (ix2 r f) - Cert.Spec.mean (fun r => x (ix2 r f)) (Ideal.ofBits .f32 w))
    (hd : ∀ j, d j = Ideal.ofBits .f32 w)
    (hpos : FloatOps.cmpf (F := Ideal) (φ := .f32) .ogt (Ideal.ofBits .f32 w) (Ideal.ofBits .f32 0x00000000#32) = 1#1) :
    RefRun.guarded (cmpf (F := Ideal) .ogt d (constant S_ .f32 0x00000000#32))
        (Host.divf (Host.reduceAdd (F := Ideal) (mulf c c) (constant S_ .f32 0x00000000#32) hr hu)
          (broadcastInDim S256 ![] hb d)) (ix1 f)
      = Cert.Spec.var (fun r => x (ix2 r f)) (Ideal.ofBits .f32 w) := by
  unfold RefRun.guarded Cert.Spec.var
  rw [select_apply, broadcastInDim_scalar_apply, cmpf_apply, hd, constant_apply, hpos, select_one, hostDivf_apply,
    colSum_apply _ f hR, broadcastInDim_scalar_apply, hd]
  simp only [mulf_apply, hc]

end Stats

-- Centre, scale, shift and the leaky rectifier at an index j where every spread channel vector reads its entry f.
theorem bn_apply [Cert.ReferenceIdeal.Facts] {T : Shape} (y : FVec Ideal T .f32) (j : T.Idx)
    (ch : FVec Ideal S256 .f32 → FVec Ideal T .f32) (f : Fin 256) (hch : ∀ v, ch v j = v (ix1 f)) (m v g be : FVec Ideal S256 .f32) :
    Cert.Spec.lrelu (addf (mulf (subf y (ch m)) (ch (RefRun.scaleOf v g))) (ch be) j)
      = Cert.Spec.lrelu ((y j - m (ix1 f)) * Ideal.div (g (ix1 f)) (Ideal.sqrt (v (ix1 f) + Ideal.ofBits .f32 0x358637BD#32))
          + be (ix1 f)) := by
  rw [addf_apply, mulf_apply, subf_apply, hch, hch, hch]
  rfl

-- A product contracting one axis of extent K, read at j: the sum over that axis's coordinate.
theorem dot_apply {sl sr so : Shape} (D : DotDims sl sr so) (K : Nat) (hr : D.contr.rank = 1)
    (hs : D.contr.size ⟨0, by omega⟩ = K) (l : FVec Ideal sl .f32) (r : FVec Ideal sr .f32) (j : so.Idx)
    (li : Fin K → sl.Idx) (ri : Fin K → sr.Idx)
    (hl : ∀ (q : D.contr.Idx) (k : Fin K), (q ⟨0, by omega⟩).val = k.val → D.lhsIdx j q = li k)
    (hri : ∀ (q : D.contr.Idx) (k : Fin K), (q ⟨0, by omega⟩).val = k.val → D.rhsIdx j q = ri k) :
    Host.dotGeneral (F := Ideal) D none l r j = ∑ k : Fin K, l (li k) * r (ri k) := by
  simp only [Host.dotGeneral]
  rw [Ideal.dotGeneral_apply, ← Equiv.sum_comp (contrEquiv1 D K hr hs).symm]
  exact Finset.sum_congr rfl fun k _ => by
    rw [hl _ k (contrEquiv1_symm_val D K hr hs k), hri _ k (contrEquiv1_symm_val D K hr hs k)]

end Cert.ReferenceIdeal.RefRead

end
-- ==== Proof.Ref.ReadAtom.lean ====
import proofs.«418526_j20469814133046_3_alg».proof.Proof.Ref.ReadCommon

noncomputable section

namespace Cert.ReferenceIdeal.RefRead

open Idealize.ShloMosaic Idealize.ShloMosaic.ValueIdx Cert.ReferenceIdeal
open scoped BigOperators

def yA (a0 : FVec Ideal S256x128x64 .f32) (a4 : FVec Ideal S256x64 .f32) (a5 : FVec Ideal S256 .f32) (r : Fin 32768) (f : Fin 256) : EReal :=
  (∑ k : Fin 64, a0 (ix3 (⟨r.val / 128, by omega⟩ : Fin 256) (⟨r.val % 128, Nat.mod_lt _ (by decide)⟩ : Fin 128) k) * a4 (ix2 f k)) + a5 (ix1 f)

section Atom
variable [Cert.ReferenceIdeal.Facts] (n : Fin 256) (a : Fin 128) (f : Fin 256)

theorem chanAtom_apply (v : FVec Ideal S256 .f32) : RefRun.chanAtom v (ix3 n a f) = v (ix1 f) :=
  congrArg v (funext fun | ⟨0, _⟩ => rfl)

-- The linear layer at (n, a, f): row (n, a) of the features against row f of the weight, plus the bias.
theorem yAtom_apply (a0 : FVec Ideal S256x128x64 .f32) (a4 : FVec Ideal S256x64 .f32) (a5 : FVec Ideal S256 .f32) :
    RefRun.yAtom a0 a4 a5 (ix3 n a f) = (∑ k : Fin 64, a0 (ix3 n a k) * a4 (ix2 f k)) + a5 (ix1 f) := by
  unfold RefRun.yAtom
  rw [addf_apply, chanAtom_apply, dot_apply _ 64 rfl rfl a0 a4 _ (ix3 n a) (ix2 f)
    (fun q k hk => funext fun b => Fin.ext (match b with
      | ⟨0, _⟩ => rfl
      | ⟨1, _⟩ => rfl
      | ⟨2, _⟩ => (DotDims.lhsIdx_val_of_single _ rfl _ q).trans hk))
    (fun q k hk => funext fun b => Fin.ext (match b with
      | ⟨0, _⟩ => rfl
      | ⟨1, _⟩ => (DotDims.rhsIdx_val_of_single _ rfl _ q).trans hk))]

-- [256, 128, 256] recast as [32768, 256]: row r is (r / 128, r % 128).
theorem flatAtom_apply (y : FVec Ideal S256x128x256 .f32) (r : Fin 32768) :
    RefRun.flatAtom y (ix2 r f)
      = y (ix3 (⟨r.val / 128, by omega⟩ : Fin 256) (⟨r.val % 128, Nat.mod_lt _ (by decide)⟩ : Fin 128) f) :=
  shapeCast_apply y _ _ _ (by
    rw [Shape.rowMajor_val_two, Shape.rowMajor_val_three]
    show (r.val / 128 * 128 + r.val % 128) * 256 + f.val = r.val * 256 + f.val
    have := Nat.div_add_mod r.val 128
    omega)

-- Batch normalisation with the array's own statistics and the leaky rectifier at (n, a, f): row n * 128 + a of the rows.
theorem normAtom_apply (y : FVec Ideal S256x128x256 .f32) (g be : FVec Ideal S256 .f32) :
    RefRun.normAtom y g be (ix3 n a f)
      = Cert.Spec.bnRef (R := Fin 32768) (fun r => RefRun.flatAtom y (ix2 r f)) (Ideal.ofBits .f32 0x47000000#32)
          (Ideal.ofBits .f32 0x358637BD#32) (g (ix1 f)) (be (ix1 f)) ⟨n.val * 128 + a.val, by omega⟩ := by
  have e : RefRun.flatAtom y (ix2 ⟨n.val * 128 + a.val, by omega⟩ f) = y (ix3 n a f) :=
    shapeCast_apply y _ _ _ (by rw [Shape.rowMajor_val_two, Shape.rowMajor_val_three]; rfl)
  refine (bn_apply y _ RefRun.chanAtom f (chanAtom_apply n a f) _ _ g be).trans ?_
  unfold Cert.Spec.bnRef RefRun.meanAtom RefRun.varAtom RefRun.colSumAtom
  rw [mean_apply _ f _ (by decide), var_apply _ f _ (by decide) (RefRun.centredAtom _) RefRun.dofAtom
    (centred_apply _ f _ (by decide)) (fun _ => sub_sitofp_zero _) (ogt_zero_of_pos Cert.Spec.ofBits_32768 (by norm_num)), ← e]

end Atom

theorem resAtom_apply [Cert.ReferenceIdeal.Facts] (a0 : FVec Ideal S256x128x64 .f32) (a4 : FVec Ideal S256x64 .f32) (a5 a6 a7 : FVec Ideal S256 .f32)
    (n : Fin 256) (a : Fin 128) (f : Fin 256) :
    RefRun.resAtom a0 a4 a5 a6 a7 (ix3 n a f)
      = Cert.Spec.bnRef (R := Fin 32768) (fun r => yA a0 a4 a5 r f) (Ideal.ofBits .f32 0x47000000#32)
          (Ideal.ofBits .f32 0x358637BD#32) (a6 (ix1 f)) (a7 (ix1 f)) ⟨n.val * 128 + a.val, by omega⟩ := by
  unfold RefRun.resAtom
  rw [normAtom_apply]
  simp only [flatAtom_apply, yAtom_apply, yA]

end Cert.ReferenceIdeal.RefRead

end
-- ==== Proof.Ref.ReadNei.lean ====
import proofs.«418526_j20469814133046_3_alg».proof.Proof.Ref.ReadCommon
import Idealize.ShloMosaic.Lib.WordArith

noncomputable section

namespace Cert.ReferenceIdeal.RefRead

open Idealize.ShloMosaic Idealize.ShloMosaic.ValueIdx Cert.ReferenceIdeal
open scoped BigOperators

def yN (a0 : FVec Ideal S256x128x64 .f32) (a1 : FVec Ideal S256x256x32 .f32) (a2 a3 : IVec S256x128x16 32)
    (a8 : FVec Ideal S256x96 .f32) (a9 : FVec Ideal S256 .f32) (r : Fin 524288) (f : Fin 256) : EReal :=
  let n : Fin 256 := ⟨r.val / 2048, by omega⟩
  let a : Fin 128 := ⟨r.val / 16 % 128, Nat.mod_lt _ (by decide)⟩
  let d : Fin 16 := ⟨r.val % 16, Nat.mod_lt _ (by decide)⟩
  ((∑ k : Fin 64, a0 (ix3 n (⟨(a2 (ix3 n a d)).toNat % 128, Nat.mod_lt _ (by decide)⟩ : Fin 128) k) * a8 (ix2 f (⟨k.val, by omega⟩ : Fin 96)))
    + ∑ k : Fin 32, a1 (ix3 n (⟨(a3 (ix3 n a d)).toNat % 256, Nat.mod_lt _ (by decide)⟩ : Fin 256) k) * a8 (ix2 f (⟨64 + k.val, by omega⟩ : Fin 96)))
    + a9 (ix1 f)

section Nei
variable [Cert.ReferenceIdeal.Facts] (n : Fin 256) (a : Fin 128) (d : Fin 16) (f : Fin 256)

theorem chanNei_apply (v : FVec Ideal S256 .f32) : RefRun.chanNei v (ix4 n a d f) = v (ix1 f) :=
  congrArg v (funext fun | ⟨0, _⟩ => rfl)

-- [256, 128, 16, 256] recast as [524288, 256]: row r is (r / 2048, r / 16 % 128, r % 16).
theorem flatNei_apply (y : FVec Ideal S256x128x16x256 .f32) (r : Fin 524288) :
    RefRun.flatNei y (ix2 r f)
      = y (ix4 (⟨r.val / 2048, by omega⟩ : Fin 256) (⟨r.val / 16 % 128, Nat.mod_lt _ (by decide)⟩ : Fin 128)
          (⟨r.val % 16, Nat.mod_lt _ (by decide)⟩ : Fin 16) f) :=
  shapeCast_apply y _ _ _ (by
    rw [Shape.rowMajor_val_two, Shape.rowMajor_val_four]
    show ((r.val / 2048 * 128 + r.val / 16 % 128) * 16 + r.val % 16) * 256 + f.val = r.val * 256 + f.val
    omega)

-- Batch normalisation with the array's own statistics and the leaky rectifier at (n, a, d, f): row (n * 128 + a) * 16 + d.
theorem normNei_apply (y : FVec Ideal S256x128x16x256 .f32) (g be : FVec Ideal S256 .f32) :
    RefRun.normNei y g be (ix4 n a d f)
      = Cert.Spec.bnRef (R := Fin 524288) (fun r => RefRun.flatNei y (ix2 r f)) (Ideal.ofBits .f32 0x49000000#32)
          (Ideal.ofBits .f32 0x358637BD#32) (g (ix1 f)) (be (ix1 f)) ⟨(n.val * 128 + a.val) * 16 + d.val, by omega⟩ := by
  have e : RefRun.flatNei y (ix2 ⟨(n.val * 128 + a.val) * 16 + d.val, by omega⟩ f) = y (ix4 n a d f) :=
    shapeCast_apply y _ _ _ (by rw [Shape.rowMajor_val_two, Shape.rowMajor_val_four]; rfl)
  refine (bn_apply y _ RefRun.chanNei f (chanNei_apply n a d f) _ _ g be).trans ?_
  unfold Cert.Spec.bnRef RefRun.meanNei RefRun.varNei RefRun.colSumNei
  rw [mean_apply _ f _ (by decide), var_apply _ f _ (by decide) (RefRun.centredNei _) RefRun.dofNei
    (centred_apply _ f _ (by decide)) (fun _ => sub_sitofp_zero _) (ogt_zero_of_pos Cert.Spec.ofBits_524288 (by norm_num)), ← e]

-- The linear layer over the joined features: the sum over 96 columns splits at 64 into the two gathered rows' sums.
theorem yNei_feat_apply (a0 : FVec Ideal S256x128x64 .f32) (a1 : FVec Ideal S256x256x32 .f32) (a2 a3 : IVec S256x128x16 32)
    (a8 : FVec Ideal S256x96 .f32) (a9 : FVec Ideal S256 .f32) :
    RefRun.yNei (RefRun.neiFeat a0 a1 a2 a3) a8 a9 (ix4 n a d f)
      = ((∑ k : Fin 64, RefRun.gatheredAtom a0 a2 (ix4 n a d k) * a8 (ix2 f (⟨k.val, by omega⟩ : Fin 96)))
          + ∑ k : Fin 32, RefRun.gatheredBond a1 a3 (ix4 n a d k) * a8 (ix2 f (⟨64 + k.val, by omega⟩ : Fin 96)))
        + a9 (ix1 f) := by
  have hl : ∀ k : Fin 64, RefRun.gatheredAtom a0 a2 (ix4 n a d k) = RefRun.neiFeat a0 a1 a2 a3 (ix4 n a d ⟨k.val, by omega⟩) :=
    fun k => (concatenate_pair_apply_left (t := S256x128x16x96) (s₁ := S256x128x16x64) (s₂ := S256x128x16x32) 3 _ _ _ _ rfl
      (ix4 n a d k) fun
      | ⟨0, _⟩ => rfl
      | ⟨1, _⟩ => rfl
      | ⟨2, _⟩ => rfl
      | ⟨3, _⟩ => rfl).symm
  have hr : ∀ k : Fin 32, RefRun.gatheredBond a1 a3 (ix4 n a d k) = RefRun.neiFeat a0 a1 a2 a3 (ix4 n a d ⟨64 + k.val, by omega⟩) :=
    fun k => (concatenate_pair_apply_right (t := S256x128x16x96) (s₁ := S256x128x16x64) (s₂ := S256x128x16x32) 3 _ _ _ _ rfl rfl
      (ix4 n a d k) (fun b hb => match b with
      | ⟨0, _⟩ => rfl
      | ⟨1, _⟩ => rfl
      | ⟨2, _⟩ => rfl
      | ⟨3, _⟩ => absurd rfl hb) (Nat.add_comm _ _)).symm
  unfold RefRun.yNei
  rw [addf_apply, chanNei_apply, dot_apply _ 96 rfl rfl _ a8 _ (ix4 n a d) (ix2 f)
    (fun q k hk => funext fun b => Fin.ext (match b with
      | ⟨0, _⟩ => rfl
      | ⟨1, _⟩ => rfl
      | ⟨2, _⟩ => rfl
      | ⟨3, _⟩ => (DotDims.lhsIdx_val_of_single _ rfl _ q).trans hk))
    (fun q k hk => funext fun b => Fin.ext (match b with
      | ⟨0, _⟩ => rfl
      | ⟨1, _⟩ => (DotDims.rhsIdx_val_of_single _ rfl _ q).trans hk))]
  simp only [hl, hr]
  exact congrArg (· + a9 (ix1 f)) (Fin.sum_univ_add
    (fun k : Fin (64 + 32) => RefRun.neiFeat a0 a1 a2 a3 (ix4 n a d k) * a8 (ix2 f k)))

-- A word whose signed value is not negative is not below zero, so "add the extent where negative" keeps it.
theorem wrap_of_nonneg (w e : BitVec 32) (h : 0 ≤ w.toInt) :
    Scalar.select (IntOp.cmpi .slt w 0#32) (IntOp.addi w e) w = w := by
  have h0 : (0#32 : BitVec 32).toInt = 0 := by decide
  have hs : IntOp.cmpi .slt w 0#32 = 0#1 := by
    unfold IntOp.cmpi
    simp only [BitVec.slt, h0]
    rw [decide_eq_false (not_lt.mpr h)]
    rfl
  rw [hs, select_zero]

-- Such a word reads the same signed and unsigned.
theorem toNat_toInt_of_nonneg (w : BitVec 32) (h : 0 ≤ w.toInt) : w.toInt.toNat = w.toNat := by
  have hc := BitVec.toInt_eq_toNat_cond w
  have hlt := w.isLt
  by_cases hm : 2 * w.toNat < 2 ^ 32
  · rw [if_pos hm] at hc; omega
  · rw [if_neg hm] at hc; omega

section Gather
variable {α : Type}

-- A gather of rows of [B, R, W] by (batch, row) pairs [B', P, Q, 2]: both leading operand axes collapsed, slices 1 x 1 x W.
abbrev rowGather2 (B R W B' P Q : Nat)
    (wf : GatherDims.WF ⟨3, ![B, R, W]⟩ ⟨4, ![B', P, Q, 2]⟩ ⟨4, ![B', P, Q, W]⟩ [3] [0, 1] [] [0, 1] [] 3 ![1, 1, W]) :
    GatherDims ⟨3, ![B, R, W]⟩ ⟨4, ![B', P, Q, 2]⟩ ⟨4, ![B', P, Q, W]⟩ where
  offsetDims := [3]
  collapsedSliceDims := [0, 1]
  operandBatchingDims := []
  startIndicesBatchingDims := []
  startIndexMap := [0, 1]
  indexVectorDim := 3
  sliceSizes := ![1, 1, W]
  wf := wf

variable (B R W B' P Q : Nat) {w : Nat}
  (wf : GatherDims.WF ⟨3, ![B, R, W]⟩ ⟨4, ![B', P, Q, 2]⟩ ⟨4, ![B', P, Q, W]⟩ [3] [0, 1] [] [0, 1] [] 3 ![1, 1, W])
  (idx : IVec ⟨4, ![B', P, Q, 2]⟩ w) (b : Fin B') (p : Fin P) (q : Fin Q) (k : Fin W)

-- On a collapsed operand axis, the i-th of the start-index map, the coordinate is the i-th start index, signed and clamped.
theorem rowGather2_coord (c : Fin 3) (i : Fin 2) (hmem : c ∈ (rowGather2 B R W B' P Q wf).startIndexMap)
    (hi : List.idxOf c (rowGather2 B R W B' P Q wf).startIndexMap = i.val) :
    GatherDims.start (rowGather2 B R W B' P Q wf) (ix4 b p q k) idx c
        + GatherDims.offCoord (rowGather2 B R W B' P Q wf) (ix4 b p q k) c
      = min (idx (ix4 b p q i)).toInt.toNat ((![B, R, W] : Fin 3 → ℕ) c - (![1, 1, W] : Fin 3 → ℕ) c) := by
  rw [GatherDims.offCoord_eq_zero _ _ _ (fun h => ((GatherDims.mem_sKept _ _).mp h).1 hmem), Nat.add_zero]
  unfold GatherDims.start
  rw [dif_pos hmem]
  have hsi : (rowGather2 B R W B' P Q wf).siIdx (ix4 b p q k)
      ⟨List.idxOf c (rowGather2 B R W B' P Q wf).startIndexMap, List.idxOf_lt_length_iff.2 hmem⟩ = ix4 b p q i := by
    funext e; refine Fin.ext ?_
    match e with
    | ⟨0, _⟩ => rfl
    | ⟨1, _⟩ => rfl
    | ⟨2, _⟩ => rfl
    | ⟨3, _⟩ => exact hi
  rw [hsi]

-- The gather at (b, p, q, k): the operand's row at the two start indices, each read signed and clamped, column k.
theorem gather_rows2_apply (x : (⟨3, ![B, R, W]⟩ : Shape).Idx → α) (hB : 0 < B) (hR : 0 < R) :
    Host.gather (rowGather2 B R W B' P Q wf) x idx (ix4 b p q k)
      = x (ix3 (⟨min (idx (ix4 b p q (0 : Fin 2))).toInt.toNat (B - 1), by omega⟩ : Fin B)
          (⟨min (idx (ix4 b p q (1 : Fin 2))).toInt.toNat (R - 1), by omega⟩ : Fin R) k) := by
  unfold Host.gather
  refine congrArg x (funext fun c => Fin.ext ?_)
  show GatherDims.start (rowGather2 B R W B' P Q wf) (ix4 b p q k) idx c
      + GatherDims.batchCoord (rowGather2 B R W B' P Q wf) (ix4 b p q k) c
      + GatherDims.offCoord (rowGather2 B R W B' P Q wf) (ix4 b p q k) c = _
  rw [GatherDims.batchCoord_eq_zero _ _ _ List.not_mem_nil, Nat.add_zero]
  match c with
  | ⟨0, h0⟩ => exact rowGather2_coord B R W B' P Q wf idx b p q k _ 0 (List.Mem.head _) rfl
  | ⟨1, h1⟩ => exact rowGather2_coord B R W B' P Q wf idx b p q k _ 1 (List.Mem.tail _ (List.Mem.head _)) rfl
  | ⟨2, h2⟩ =>
    have hnot : (⟨2, h2⟩ : Fin 3) ∉ (rowGather2 B R W B' P Q wf).startIndexMap :=
      (by decide : (2 : Fin 3) ∉ [0, 1])
    unfold GatherDims.start
    rw [dif_neg hnot, Nat.zero_add]
    rfl

end Gather

-- The wrapped batch coordinate is the batch coordinate as a word: it is not negative.
theorem batchIx_apply (b : Fin 256) (u u' : Fin 1) : RefRun.batchIx (ix3 b u u') = BitVec.ofNat 32 b.val := by
  have hi : RefRun.batchIota (ix3 b u u') = BitVec.ofNat 32 b.val :=
    (broadcastInDim_apply ![0] _ _ (ix3 b u u') (ix1 b) fun | ⟨0, _⟩ => rfl).trans rfl
  refine (wrap_of_nonneg (RefRun.batchIota (ix3 b u u')) _ ?_).trans hi
  rw [hi, WordArith.toInt_ofNat_small _ (by have := b.isLt; omega)]
  exact Int.natCast_nonneg _

section Tables
variable (e : BitVec 32) (t : IVec S256x128x16 32)

-- The first component of the start-index pair at (n, a, d) is the batch coordinate n.
theorem gatherIx_batch : RefRun.gatherIx e t (ix4 n a d (0 : Fin 2)) = BitVec.ofNat 32 n.val := by
  unfold RefRun.gatherIx
  rw [concatenate_pair_apply_left (t := S256x128x16x2) (s₁ := S256x128x16x1) (s₂ := S256x128x16x1) 3 _ _ _ _ rfl
      (ix4 n a d (0 : Fin 1)) fun
      | ⟨0, _⟩ => rfl
      | ⟨1, _⟩ => rfl
      | ⟨2, _⟩ => rfl
      | ⟨3, _⟩ => rfl,
    broadcastInDim_apply ![0, 1, 2] _ _ (ix4 n a d (0 : Fin 1)) (ix3 n a d) fun
      | ⟨0, _⟩ => rfl
      | ⟨1, _⟩ => rfl
      | ⟨2, _⟩ => rfl,
    broadcastInDim_apply ![0, 1, 2] _ _ (ix3 n a d) (ix3 n (0 : Fin 1) (0 : Fin 1)) fun
      | ⟨0, _⟩ => rfl
      | ⟨1, _⟩ => rfl
      | ⟨2, _⟩ => rfl]
  exact batchIx_apply n 0 0

-- The second component is the table's word there, when it is not negative.
theorem gatherIx_row (h : 0 ≤ (t (ix3 n a d)).toInt) : RefRun.gatherIx e t (ix4 n a d (1 : Fin 2)) = t (ix3 n a d) := by
  unfold RefRun.gatherIx
  rw [concatenate_pair_apply_right (t := S256x128x16x2) (s₁ := S256x128x16x1) (s₂ := S256x128x16x1) 3 _ _ _ _ rfl rfl
      (ix4 n a d (0 : Fin 1)) (fun b hb => match b with
      | ⟨0, _⟩ => rfl
      | ⟨1, _⟩ => rfl
      | ⟨2, _⟩ => rfl
      | ⟨3, _⟩ => absurd rfl hb) rfl,
    broadcastInDim_apply ![0, 1, 2] _ _ (ix4 n a d (0 : Fin 1)) (ix3 n a d) fun
      | ⟨0, _⟩ => rfl
      | ⟨1, _⟩ => rfl
      | ⟨2, _⟩ => rfl]
  exact wrap_of_nonneg _ _ h

-- A row gather by these pairs, for a table in range: row t (n, a, d) of batch n.
theorem gathered_apply {α : Type} {R W : Nat} (hR : 0 < R)
    (wf : GatherDims.WF ⟨3, ![256, R, W]⟩ ⟨4, ![256, 128, 16, 2]⟩ ⟨4, ![256, 128, 16, W]⟩ [3] [0, 1] [] [0, 1] [] 3 ![1, 1, W])
    (x : (⟨3, ![256, R, W]⟩ : Shape).Idx → α) (ht : ∀ i, 0 ≤ (t i).toInt ∧ (t i).toInt < R) (k : Fin W) :
    Host.gather (rowGather2 256 R W 256 128 16 wf) x (RefRun.gatherIx e t) (ix4 n a d k)
      = x (ix3 n ⟨(t (ix3 n a d)).toNat % R, Nat.mod_lt _ hR⟩ k) := by
  have hw := ht (ix3 n a d)
  have hnat := toNat_toInt_of_nonneg _ hw.1
  refine (gather_rows2_apply 256 R W 256 128 16 wf _ n a d k x (by decide) hR).trans (congrArg x (funext fun c => Fin.ext ?_))
  match c with
  | ⟨0, _⟩ =>
    show min (RefRun.gatherIx e t (ix4 n a d (0 : Fin 2))).toInt.toNat (256 - 1) = n.val
    rw [gatherIx_batch, WordArith.toInt_ofNat_small _ (by have := n.isLt; omega)]
    have := n.isLt
    omega
  | ⟨1, _⟩ =>
    show min (RefRun.gatherIx e t (ix4 n a d (1 : Fin 2))).toInt.toNat (R - 1) = (t (ix3 n a d)).toNat % R
    rw [gatherIx_row n a d e t hw.1, hnat, Nat.mod_eq_of_lt (by omega)]
    omega
  | ⟨2, _⟩ => rfl

end Tables

end Nei

theorem resNei_apply [Cert.ReferenceIdeal.Facts] (a0 : FVec Ideal S256x128x64 .f32) (a1 : FVec Ideal S256x256x32 .f32) (a2 a3 : IVec S256x128x16 32)
    (a8 : FVec Ideal S256x96 .f32) (a9 a10 a11 : FVec Ideal S256 .f32)
    (h2 : ∀ i, 0 ≤ (a2 i).toInt ∧ (a2 i).toInt < 128) (h3 : ∀ i, 0 ≤ (a3 i).toInt ∧ (a3 i).toInt < 256)
    (n : Fin 256) (a : Fin 128) (d : Fin 16) (f : Fin 256) :
    RefRun.resNei a0 a1 a2 a3 a8 a9 a10 a11 (ix4 n a d f)
      = Cert.Spec.bnRef (R := Fin 524288) (fun r => yN a0 a1 a2 a3 a8 a9 r f) (Ideal.ofBits .f32 0x49000000#32)
          (Ideal.ofBits .f32 0x358637BD#32) (a10 (ix1 f)) (a11 (ix1 f)) ⟨(n.val * 128 + a.val) * 16 + d.val, by omega⟩ := by
  have hA : ∀ n a d k, RefRun.gatheredAtom a0 a2 (ix4 n a d k) = _ := fun n a d k =>
    gathered_apply n a d 128#32 a2 (by decide) _ a0 h2 k
  have hB : ∀ n a d k, RefRun.gatheredBond a1 a3 (ix4 n a d k) = _ := fun n a d k =>
    gathered_apply n a d 256#32 a3 (by decide) _ a1 h3 k
  unfold RefRun.resNei
  rw [normNei_apply]
  simp only [flatNei_apply, yNei_feat_apply, hA, hB, yN]

end Cert.ReferenceIdeal.RefRead

end
-- ==== Proof.Math.Finite.lean ====
import proofs.«418526_j20469814133046_3_alg».proof.Proof.Math.BnEq

noncomputable section

namespace Cert.Spec

theorem real_dot_add {K : Type} [Fintype K] (x w : K → EReal) (b : EReal)
    (hx : ∀ k, ∃ a : ℝ, x k = (a : EReal)) (hw : ∀ k, ∃ a : ℝ, w k = (a : EReal)) (hb : ∃ a : ℝ, b = (a : EReal)) :
    ∃ a : ℝ, (∑ k, x k * w k) + b = (a : EReal) := by
  choose xr hxr using hx
  choose wr hwr using hw
  obtain ⟨br, rfl⟩ := hb
  refine ⟨(∑ k, xr k * wr k) + br, ?_⟩
  rw [EReal.coe_add, ← coe_sum]
  congr 1
  exact Finset.sum_congr rfl fun k _ => by rw [hxr k, hwr k, EReal.coe_mul]

theorem real_dot2_add {K K' : Type} [Fintype K] [Fintype K'] (x w : K → EReal) (x' w' : K' → EReal) (b : EReal)
    (hx : ∀ k, ∃ a : ℝ, x k = (a : EReal)) (hw : ∀ k, ∃ a : ℝ, w k = (a : EReal))
    (hx' : ∀ k, ∃ a : ℝ, x' k = (a : EReal)) (hw' : ∀ k, ∃ a : ℝ, w' k = (a : EReal)) (hb : ∃ a : ℝ, b = (a : EReal)) :
    ∃ a : ℝ, ((∑ k, x k * w k) + ∑ k, x' k * w' k) + b = (a : EReal) := by
  choose xr hxr using hx
  choose wr hwr using hw
  choose xr' hxr' using hx'
  choose wr' hwr' using hw'
  obtain ⟨br, rfl⟩ := hb
  refine ⟨((∑ k, xr k * wr k) + ∑ k, xr' k * wr' k) + br, ?_⟩
  rw [EReal.coe_add, EReal.coe_add, ← coe_sum, ← coe_sum]
  congr 2
  · exact Finset.sum_congr rfl fun k _ => by rw [hxr k, hwr k, EReal.coe_mul]
  · exact Finset.sum_congr rfl fun k _ => by rw [hxr' k, hwr' k, EReal.coe_mul]

end Cert.Spec

end
-- ==== Proof.Bridge.lean ====
import proofs.«418526_j20469814133046_3_alg».proof.Proof.KI.ValAtom
import proofs.«418526_j20469814133046_3_alg».proof.Proof.KI.ValNei
import proofs.«418526_j20469814133046_3_alg».proof.Proof.Ref.ReadAtom
import proofs.«418526_j20469814133046_3_alg».proof.Proof.Ref.ReadNei
import proofs.«418526_j20469814133046_3_alg».proof.Proof.Math.BnEq
import proofs.«418526_j20469814133046_3_alg».proof.Proof.Math.Finite
import proofs.«418526_j20469814133046_3_alg».proof.Proof.LibColPool

noncomputable section

namespace Cert.Bridge

open Idealize.ShloMosaic Idealize.ShloMosaic.TcCoe Idealize.ShloMosaic.ValueIdx
open Idealize.SL.Sem
open Cert.KernelIdeal Cert.KernelIdeal.Prog

variable [Cert.ReferenceIdeal.Facts]
variable (m : (ℓ : Loc nD τ sig) → Buf (Elt Ideal) ℓ) (c : Dev nD)

theorem N_atom : Ideal.ofBits .f32 0x47000000#32 = ((Fintype.card (Fin 32768) : ℝ) : EReal) := by
  rw [Cert.Spec.ofBits_32768, Fintype.card_fin]; norm_num

theorem N_nei : Ideal.ofBits .f32 0x49000000#32 = ((Fintype.card (Fin 524288) : ℝ) : EReal) := by
  rw [Cert.Spec.ofBits_524288, Fintype.card_fin]; norm_num

-- the atom result: the kernel program's arrangement of the normalisation is the reference's, on real rows
theorem atom_eq (h0 : ∀ i, ∃ x : ℝ, A0 m c i = (x : EReal)) (h4 : ∀ i, ∃ x : ℝ, A4 m c i = (x : EReal)) (h5 : ∀ i, ∃ x : ℝ, A5 m c i = (x : EReal))
    (h6 : ∀ i, ∃ x : ℝ, A6 m c i = (x : EReal)) (h7 : ∀ i, ∃ x : ℝ, A7 m c i = (x : EReal)) :
    Cert.ReferenceIdeal.RefRun.resAtom (A0 m c) (A4 m c) (A5 m c) (A6 m c) (A7 m c) = (W9 m c main_v20 : FVec Ideal S256x128x256 .f32) := by
  funext i
  obtain ⟨n, a, f, rfl⟩ : ∃ (n : Fin 256) (a : Fin 128) (f : Fin 256), i = ix3 n a f := ⟨i 0, i 1, i 2, eq_ix3 i⟩
  rw [Cert.ReferenceIdeal.RefRead.resAtom_apply, atom_apply m c n a f]
  exact (Cert.Spec.bn_eq (R := Fin 32768) (fun r => yA m c r f)
    (fun r => Cert.Spec.real_dot_add _ _ _ (fun k => h0 _) (fun k => h4 _) (h5 _))
    _ N_atom (by rw [Fintype.card_fin]; norm_num) _ Cert.Spec.ofBits_eps_pos _ _ (h6 _) (h7 _) ⟨n.val * 128 + a.val, by omega⟩).symm

-- row r' of the 524288 flattened neighbour rows is row r' % 2048 of batch r' / 2048
theorem yN_flat (r' : Fin 524288) (f : Fin 256) :
    Cert.ReferenceIdeal.RefRead.yN (B0 m c) (B1 m c) (B2 m c) (B3 m c) (B8 m c) (B9 m c) r' f
      = yN m c ⟨r'.val / 2048, by omega⟩ ⟨r'.val % 2048, Nat.mod_lt _ (by decide)⟩ f := by
  have ea : (⟨r'.val / 16 % 128, Nat.mod_lt _ (by decide)⟩ : Fin 128) = ⟨r'.val % 2048 / 16, by omega⟩ := Fin.ext (by show r'.val / 16 % 128 = r'.val % 2048 / 16; omega)
  have ed : (⟨r'.val % 16, Nat.mod_lt _ (by decide)⟩ : Fin 16) = ⟨r'.val % 2048 % 16, Nat.mod_lt _ (by decide)⟩ := Fin.ext (by show r'.val % 16 = r'.val % 2048 % 16; omega)
  unfold Cert.ReferenceIdeal.RefRead.yN yN
  dsimp only
  simp only [ea, ed]

theorem yN_real (h0 : ∀ i, ∃ x : ℝ, B0 m c i = (x : EReal)) (h1 : ∀ i, ∃ x : ℝ, B1 m c i = (x : EReal)) (h8 : ∀ i, ∃ x : ℝ, B8 m c i = (x : EReal))
    (h9 : ∀ i, ∃ x : ℝ, B9 m c i = (x : EReal)) (n : Fin 256) (r : Fin 2048) (f : Fin 256) : ∃ x : ℝ, yN m c n r f = (x : EReal) := by
  unfold yN
  exact Cert.Spec.real_dot2_add _ _ _ _ _ (fun k => h0 _) (fun k => h8 _) (fun k => h1 _) (fun k => h8 _) (h9 _)

theorem sum_flat (g : Fin 256 → Fin 2048 → EReal) :
    (∑ r' : Fin 524288, g ⟨r'.val / 2048, by omega⟩ ⟨r'.val % 2048, Nat.mod_lt _ (by decide)⟩) = ∑ n : Fin 256, ∑ r : Fin 2048, g n r := by
  have h := Cert.LibColPool.sum_blocks 256 2048 (fun x : Fin (256 * 2048) => g ⟨x.val / 2048, by have := x.isLt; omega⟩ ⟨x.val % 2048, Nat.mod_lt _ (by decide)⟩)
  refine (show (∑ r' : Fin 524288, g ⟨r'.val / 2048, by omega⟩ ⟨r'.val % 2048, Nat.mod_lt _ (by decide)⟩)
      = ∑ x : Fin (256 * 2048), g ⟨x.val / 2048, by have := x.isLt; omega⟩ ⟨x.val % 2048, Nat.mod_lt _ (by decide)⟩ from rfl).trans (h.trans ?_)
  refine Finset.sum_congr rfl fun n _ => Finset.sum_congr rfl fun r _ => ?_
  have e1 : (⟨(Cert.LibColPool.blockRow (T := 256) (R := 2048) n r).val / 2048, by have := (Cert.LibColPool.blockRow (T := 256) (R := 2048) n r).isLt; omega⟩ : Fin 256) = n :=
    Fin.ext (by show (n.val * 2048 + r.val) / 2048 = n.val; have := r.isLt; omega)
  have e2 : (⟨(Cert.LibColPool.blockRow (T := 256) (R := 2048) n r).val % 2048, Nat.mod_lt _ (by decide)⟩ : Fin 2048) = r :=
    Fin.ext (by show (n.val * 2048 + r.val) % 2048 = r.val; have := r.isLt; omega)
  rw [e1, e2]

-- the neighbour result: the same, the sums over the flattened rows taken batch by batch
theorem nei_eq (h0 : ∀ i, ∃ x : ℝ, B0 m c i = (x : EReal)) (h1 : ∀ i, ∃ x : ℝ, B1 m c i = (x : EReal)) (h8 : ∀ i, ∃ x : ℝ, B8 m c i = (x : EReal))
    (h9 : ∀ i, ∃ x : ℝ, B9 m c i = (x : EReal)) (h10 : ∀ i, ∃ x : ℝ, B10 m c i = (x : EReal)) (h11 : ∀ i, ∃ x : ℝ, B11 m c i = (x : EReal))
    (r2 : ∀ i, 0 ≤ (B2 m c i).toInt ∧ (B2 m c i).toInt < 128) (r3 : ∀ i, 0 ≤ (B3 m c i).toInt ∧ (B3 m c i).toInt < 256) :
    Cert.ReferenceIdeal.RefRun.resNei (B0 m c) (B1 m c) (B2 m c) (B3 m c) (B8 m c) (B9 m c) (B10 m c) (B11 m c)
      = (W9 m c main_v51 : FVec Ideal S256x128x16x256 .f32) := by
  funext i
  obtain ⟨n, a, d, f, rfl⟩ : ∃ (n : Fin 256) (a : Fin 128) (d : Fin 16) (f : Fin 256), i = ix4 n a d f := ⟨i 0, i 1, i 2, i 3, eq_ix4 i⟩
  rw [Cert.ReferenceIdeal.RefRead.resNei_apply _ _ _ _ _ _ _ _ r2 r3 n a d f, nei_apply m c r2 r3 n a d f]
  have hy : ∀ r' : Fin 524288, ∃ x : ℝ, Cert.ReferenceIdeal.RefRead.yN (B0 m c) (B1 m c) (B2 m c) (B3 m c) (B8 m c) (B9 m c) r' f = (x : EReal) := fun r' => by
    rw [yN_flat m c r' f]
    exact yN_real m c h0 h1 h8 h9 _ _ f
  have hb := Cert.Spec.bn_eq (R := Fin 524288) (fun r' => Cert.ReferenceIdeal.RefRead.yN (B0 m c) (B1 m c) (B2 m c) (B3 m c) (B8 m c) (B9 m c) r' f) hy
    _ N_nei (by rw [Fintype.card_fin]; norm_num) _ Cert.Spec.ofBits_eps_pos _ _ (h10 (ix1 f)) (h11 (ix1 f)) ⟨(n.val * 128 + a.val) * 16 + d.val, by omega⟩
  rw [← hb]
  have es : (∑ r' : Fin 524288, Cert.ReferenceIdeal.RefRead.yN (B0 m c) (B1 m c) (B2 m c) (B3 m c) (B8 m c) (B9 m c) r' f) = ∑ n' : Fin 256, ∑ r : Fin 2048, yN m c n' r f :=
    (Finset.sum_congr rfl fun r' _ => yN_flat m c r' f).trans (sum_flat fun n' r => yN m c n' r f)
  have eq : (∑ r' : Fin 524288, Cert.ReferenceIdeal.RefRead.yN (B0 m c) (B1 m c) (B2 m c) (B3 m c) (B8 m c) (B9 m c) r' f * Cert.ReferenceIdeal.RefRead.yN (B0 m c) (B1 m c) (B2 m c) (B3 m c) (B8 m c) (B9 m c) r' f)
      = ∑ n' : Fin 256, ∑ r : Fin 2048, yN m c n' r f * yN m c n' r f :=
    (Finset.sum_congr rfl fun r' _ => by rw [yN_flat m c r' f]).trans (sum_flat fun n' r => yN m c n' r f * yN m c n' r f)
  have e0 : Cert.ReferenceIdeal.RefRead.yN (B0 m c) (B1 m c) (B2 m c) (B3 m c) (B8 m c) (B9 m c) ⟨(n.val * 128 + a.val) * 16 + d.val, by omega⟩ f
      = yN m c n ⟨a.val * 16 + d.val, by omega⟩ f := by
    rw [yN_flat]
    exact congrArg₂ (fun x y => yN m c x y f)
      (Fin.ext (by show ((n.val * 128 + a.val) * 16 + d.val) / 2048 = n.val; omega))
      (Fin.ext (by show ((n.val * 128 + a.val) * 16 + d.val) % 2048 = a.val * 16 + d.val; omega))
  rw [es, eq, e0]

end Cert.Bridge

end
-- ==== Proof.lean ====
import proofs.«418526_j20469814133046_3_alg».proof.Defs
import proofs.«418526_j20469814133046_3_alg».proof.Proof.Gen.Kernel
import proofs.«418526_j20469814133046_3_alg».proof.Proof.Gen.KernelIdeal
import proofs.«418526_j20469814133046_3_alg».proof.Proof.Gen.ReferenceIdeal
import proofs.«418526_j20469814133046_3_alg».proof.Proof.Gen.Pre_finite_inputs
import proofs.«418526_j20469814133046_3_alg».proof.Proof.K.Program
import proofs.«418526_j20469814133046_3_alg».proof.Proof.KI.Program
import proofs.«418526_j20469814133046_3_alg».proof.Proof.Ref.Run
import proofs.«418526_j20469814133046_3_alg».proof.Proof.Pre.Decode
import proofs.«418526_j20469814133046_3_alg».proof.Proof.Bridge
import Idealize.ShloMosaic.Adequacy
import Idealize.ShloMosaic.Init

noncomputable section

namespace Cert.Proof

open Idealize.ShloMosaic Idealize.ShloMosaic.TcCoe Idealize.SL.Sem

section Claims

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.Prog.frame (F := Bits) m ρ

theorem frame_ki : Cert.frame_KernelIdeal := fun m ρ _ => Cert.KernelIdeal.Prog.frame (F := Ideal) m ρ

-- the reference's run with its two results dropped
theorem frame_ri : Cert.frame_ReferenceIdeal := fun m ρ _ =>
  (θ_run Cert.ReferenceIdeal.defs _ _).mono (fun _ h c => (h c).2.2) (Cert.ReferenceIdeal.RefRun.run (F := Ideal) m ρ)

-- the idealization rewrote no operation
theorem preserves : Cert.preserves_Kernel_KernelIdeal := trivial

-- both runs end at the same two arrays: the kernel program's results read at an index are the reference's
open Cert.KernelIdeal in
theorem algebraic : Cert.algebraic_KernelIdeal_ReferenceIdeal := by
  intro m ρ m' ρ' hpre hagree
  refine ⟨fun c => Prog.W9 m c main_v20, fun c => Prog.W9 m c main_v51, ?_, ?_⟩
  · exact Prog.run_named (F := Ideal) m ρ
  · refine (θ_run Cert.ReferenceIdeal.defs _ _).mono (fun r h c => ?_) (Cert.ReferenceIdeal.RefRun.run (F := Ideal) m' ρ')
    obtain ⟨hA, hN, hargs⟩ := h c
    obtain ⟨e0, e1, e2, e3, e4, e5, e6, e7, e8, e9, e10, e11⟩ := hagree c
    obtain ⟨f0, f1, f4, f5, f6, f7, f8, f9, f10, f11, r2, r3⟩ := Cert.PreDecode.of_pre _ _ _ _ _ _ _ _ _ _ _ _ (hpre c)
    refine ⟨hA.trans ?_, hN.trans ?_, hargs⟩
    · rw [e0, e4, e5, e6, e7]
      exact Cert.Bridge.atom_eq m c f0 f4 f5 f6 f7
    · rw [e0, e1, e2, e3, e8, e9, e10, e11]
      exact Cert.Bridge.nei_eq m c f0 f1 f8 f9 f10 f11 r2 r3

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
